-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S320000x16 : Shape := ⟨2, ![320000, 16]⟩
abbrev S272x64 : Shape := ⟨2, ![272, 64]⟩
abbrev S64 : Shape := ⟨1, ![64]⟩
abbrev S64x128 : Shape := ⟨2, ![64, 128]⟩
abbrev S128 : Shape := ⟨1, ![128]⟩
abbrev S256x64 : Shape := ⟨2, ![256, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S272x64 : S_.BroadcastsInDim S272x64 (![] : Fin 0 → Fin S272x64.rank)
  reducesTo_S272x64_S_d0_1 : S272x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S2x320000 : S_.BroadcastsInDim S2x320000 (![] : Fin 0 → Fin S2x320000.rank)
  reducesTo_S2x320000_S_d0_1 : S2x320000.ReducesTo [0, 1] S_

variable [Facts]

def fn_part3 {F : FTy → Type} [FloatOps F] (main_arg1 : IVec S2x320000 32) (main_v48 : IVec S_ 1) (main_v50 : IVec S2x320000 1) : IVec S_ 1 :=
  let main_c_19 : IVec S_ 32 := constantI S_ 32 9999#32
  let main_v51 : IVec S2x320000 32 := broadcastInDim S2x320000 ![] bcast_S_S2x320000 main_c_19
  let main_v52 : IVec S2x320000 1 := cmpi .sle main_arg1 main_v51
  let main_v53 : IVec S2x320000 1 := andi main_v50 main_v52
  let main_c_20 : IVec S_ 1 := constantI S_ 1 1#1
  let main_v54 : IVec S_ 1 := (fun x v => Host.reduce IntOp.andi x v reducesTo_S2x320000_S_d0_1 h_S_) main_v53 main_c_20
  let main_v55 : IVec S_ 1 := andi main_v48 main_v54
  main_v55

def fn_part2 {F : FTy → Type} [FloatOps F] (main_arg1 : IVec S2x320000 32) (main_arg8 : FVec F S64 .f32) (main_arg9 : FVec F S64x128 .f32) (main_arg10 : FVec F S128 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S2x320000 32 := broadcastInDim S2x320000 ![] bcast_S_S2x320000 main_c_18
  let main_v50 : IVec S2x320000 1 := cmpi .sge main_arg1 main_v49
  fn_part3 (F := F) main_arg1 main_v48 main_v50

def fn_part1 {F : FTy → Type} [FloatOps F] (main_arg1 : IVec S2x320000 32) (main_arg5 : FVec F S64x128 .f32) (main_arg6 : FVec F S128 .f32) (main_arg7 : FVec F S256x64 .f32) (main_arg8 : FVec F S64 .f32) (main_arg9 : FVec F S64x128 .f32) (main_arg10 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x64 .f32 := Host.absf main_arg7
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S10000x128 .f32) (main_arg1 : IVec S2x320000 32) (main_arg2 : FVec F S320000x16 .f32) (main_arg3 : FVec F S272x64 .f32) (main_arg4 : FVec F S64 .f32) (main_arg5 : FVec F S64x128 .f32) (main_arg6 : FVec F S128 .f32) (main_arg7 : FVec F S256x64 .f32) (main_arg8 : FVec F S64 .f32) (main_arg9 : FVec F S64x128 .f32) (main_arg10 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x16 .f32 := Host.absf main_arg2
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S272x64 .f32 := Host.absf main_arg3
  let main_cst_2 : FVec F S_ .f32 := constant S_ .f32 0x7F800000#32
  let main_v10 : FVec F S272x64 .f32 := broadcastInDim S272x64 ![] bcast_S_S272x64 main_cst_2
  let main_v11 : IVec S272x64 1 := cmpf .olt main_v9 main_v10
  let main_c_3 : IVec S_ 1 := constantI S_ 1 1#1
  let main_v12 : IVec S_ 1 := (fun x v => Host.reduce IntOp.andi x v reducesTo_S272x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_v13 main_v16
-- ==== Kernel.lean ====
abbrev S10000x128 : Shape := ⟨2, ![10000, 128]⟩
abbrev S2x320000 : Shape := ⟨2, ![2, 320000]⟩
abbrev S320000x16 : Shape := ⟨2, ![320000, 16]⟩
abbrev S272x64 : Shape := ⟨2, ![272, 64]⟩
abbrev S64 : Shape := ⟨1, ![64]⟩
abbrev S64x128 : Shape := ⟨2, ![64, 128]⟩
abbrev S128 : Shape := ⟨1, ![128]⟩
abbrev S256x64 : Shape := ⟨2, ![256, 64]⟩
abbrev S1x320000 : Shape := ⟨2, ![1, 320000]⟩
abbrev S320000 : Shape := ⟨1, ![320000]⟩
abbrev S_ : Shape := ⟨0, ![]⟩
abbrev S320128 : Shape := ⟨1, ![320128]⟩
abbrev S128x64 : Shape := ⟨2, ![128, 64]⟩
abbrev S128x128 : Shape := ⟨2, ![128, 128]⟩
abbrev S16x64 : Shape := ⟨2, ![16, 64]⟩
abbrev S16x128 : Shape := ⟨2, ![16, 128]⟩
abbrev S1x128 : Shape := ⟨2, ![1, 128]⟩
abbrev S2000x128 : Shape := ⟨2, ![2000, 128]⟩
abbrev S320000x128 : Shape := ⟨2, ![320000, 128]⟩
abbrev S10000x16 : Shape := ⟨2, ![10000, 16]⟩
abbrev S320000x64 : Shape := ⟨2, ![320000, 64]⟩
abbrev S10000x64 : Shape := ⟨2, ![10000, 64]⟩
abbrev S320000x1 : Shape := ⟨2, ![320000, 1]⟩
abbrev S10000x1 : Shape := ⟨2, ![10000, 1]⟩
abbrev S320000x2 : Shape := ⟨2, ![320000, 2]⟩
abbrev S1x64 : Shape := ⟨2, ![1, 64]⟩
abbrev S2000x64 : Shape := ⟨2, ![2000, 64]⟩
abbrev S2000x1 : Shape := ⟨2, ![2000, 1]⟩

abbrev nBuf : Table → Nat
  | .hbm => 78
  | .local .tc .vmem => 37
  | .local .scVector .vmem => 4
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S320000x16, .f32⟩
  | .hbm, ⟨3, _⟩ => ⟨S272x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S256x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S1x320000, .i32⟩
  | .hbm, ⟨12, _⟩ => ⟨S320000, .i32⟩
  | .hbm, ⟨13, _⟩ => ⟨S_, .i32⟩
  | .hbm, ⟨14, _⟩ => ⟨S128, .i32⟩
  | .hbm, ⟨15, _⟩ => ⟨S320128, .i32⟩
  | .hbm, ⟨16, _⟩ => ⟨S1x320000, .i32⟩
  | .hbm, ⟨17, _⟩ => ⟨S320000, .i32⟩
  | .hbm, ⟨18, _⟩ => ⟨S_, .i32⟩
  | .hbm, ⟨19, _⟩ => ⟨S128, .i32⟩
  | .hbm, ⟨20, _⟩ => ⟨S320128, .i32⟩
  | .hbm, ⟨21, _⟩ => ⟨S_, .f32⟩
  | .hbm, ⟨22, _⟩ => ⟨S128x64, .f32⟩
  | .hbm, ⟨23, _⟩ => ⟨S128x64, .f32⟩
  | .hbm, ⟨24, _⟩ => ⟨S128x128, .f32⟩
  | .hbm, ⟨25, _⟩ => ⟨S128x64, .f32⟩
  | .hbm, ⟨26, _⟩ => ⟨S128x128, .f32⟩
  | .hbm, ⟨27, _⟩ => ⟨S16x64, .f32⟩
  | .hbm, ⟨28, _⟩ => ⟨S_, .f32⟩
  | .hbm, ⟨29, _⟩ => ⟨S16x64, .f32⟩
  | .hbm, ⟨30, _⟩ => ⟨S16x128, .f32⟩
  | .hbm, ⟨31, _⟩ => ⟨S_, .f32⟩
  | .hbm, ⟨32, _⟩ => ⟨S64, .f32⟩
  | .hbm, ⟨33, _⟩ => ⟨S128, .f32⟩
  | .hbm, ⟨34, _⟩ => ⟨S1x128, .f32⟩
  | .hbm, ⟨35, _⟩ => ⟨S10000x128, .f32⟩
  | .hbm, ⟨36, _⟩ => ⟨S10000x128, .f32⟩
  | .hbm, ⟨37, _⟩ => ⟨S320000x128, .f32⟩
  | .hbm, ⟨38, _⟩ => ⟨S320000x128, .f32⟩
  | .hbm, ⟨39, _⟩ => ⟨S320000x128, .f32⟩
  | .hbm, ⟨40, _⟩ => ⟨S320000x64, .f32⟩
  | .hbm, ⟨41, _⟩ => ⟨S1x320000, .i32⟩
  | .hbm, ⟨42, _⟩ => ⟨S320000, .i32⟩
  | .hbm, ⟨43, _⟩ => ⟨S_, .f32⟩
  | .hbm, ⟨44, _⟩ => ⟨S10000x64, .f32⟩
  | .hbm, ⟨45, _⟩ => ⟨S_, .i32⟩
  | .hbm, ⟨46, _⟩ => ⟨S320000, .i32⟩
  | .hbm, ⟨47, _⟩ => ⟨S320000, .i1⟩
  | .hbm, ⟨48, _⟩ => ⟨S_, .i32⟩
  | .hbm, ⟨49, _⟩ => ⟨S320000, .i32⟩
  | .hbm, ⟨50, _⟩ => ⟨S320000, .i32⟩
  | .hbm, ⟨51, _⟩ => ⟨S320000, .i32⟩
  | .hbm, ⟨52, _⟩ => ⟨S320000x1, .i32⟩
  | .hbm, ⟨53, _⟩ => ⟨S10000x64, .f32⟩
  | .hbm, ⟨54, _⟩ => ⟨S_, .f32⟩
  | .hbm, ⟨55, _⟩ => ⟨S10000x1, .f32⟩
  | .hbm, ⟨56, _⟩ => ⟨S_, .i32⟩
  | .hbm, ⟨57, _⟩ => ⟨S320000, .i32⟩
  | .hbm, ⟨58, _⟩ => ⟨S320000, .i1⟩
  | .hbm, ⟨59, _⟩ => ⟨S_, .i32⟩
  | .hbm, ⟨60, _⟩ => ⟨S320000, .i32⟩
  | .hbm, ⟨61, _⟩ => ⟨S320000, .i32⟩
  | .hbm, ⟨62, _⟩ => ⟨S320000, .i32⟩
  | .hbm, ⟨63, _⟩ => ⟨S_, .i32⟩
  | .hbm, ⟨64, _⟩ => ⟨S320000, .i32⟩
  | .hbm, ⟨65, _⟩ => ⟨S320000, .i32⟩
  | .hbm, ⟨66, _⟩ => ⟨S320000x1, .i32⟩
  | .hbm, ⟨67, _⟩ => ⟨S320000x1, .i32⟩
  | .hbm, ⟨68, _⟩ => ⟨S320000x2, .i32⟩
  | .hbm, ⟨69, _⟩ => ⟨S_, .f32⟩
  | .hbm, ⟨70, _⟩ => ⟨S320000, .f32⟩
  | .hbm, ⟨71, _⟩ => ⟨S10000x1, .f32⟩
  | .hbm, ⟨72, _⟩ => ⟨S1x128, .f32⟩
  | .hbm, ⟨73, _⟩ => ⟨S128x64, .f32⟩
  | .hbm, ⟨74, _⟩ => ⟨S128x64, .f32⟩
  | .hbm, ⟨75, _⟩ => ⟨S1x64, .f32⟩
  | .hbm, ⟨76, _⟩ => ⟨S1x128, .f32⟩
  | .hbm, ⟨77, _⟩ => ⟨S10000x128, .f32⟩
  | .local .tc .vmem, ⟨0, _⟩ => ⟨S2000x128, .f32⟩
  | .local .tc .vmem, ⟨1, _⟩ => ⟨S2000x128, .f32⟩
  | .local .tc .vmem, ⟨2, _⟩ => ⟨S128x128, .f32⟩
  | .local .tc .vmem, ⟨3, _⟩ => ⟨S128x128, .f32⟩
  | .local .tc .vmem, ⟨4, _⟩ => ⟨S2000x128, .f32⟩
  | .local .tc .vmem, ⟨5, _⟩ => ⟨S2000x128, .f32⟩
  | .local .tc .vmem, ⟨6, _⟩ => ⟨S2000x128, .f32⟩
  | .local .tc .vmem, ⟨7, _⟩ => ⟨S2000x128, .f32⟩
  | .local .tc .vmem, ⟨8, _⟩ => ⟨S10000x16, .f32⟩
  | .local .tc .vmem, ⟨9, _⟩ => ⟨S10000x16, .f32⟩
  | .local .tc .vmem, ⟨10, _⟩ => ⟨S16x128, .f32⟩
  | .local .tc .vmem, ⟨11, _⟩ => ⟨S1x128, .f32⟩
  | .local .tc .vmem, ⟨12, _⟩ => ⟨S10000x128, .f32⟩
  | .local .tc .vmem, ⟨13, _⟩ => ⟨S10000x128, .f32⟩
  | .local .tc .vmem, ⟨14, _⟩ => ⟨S10000x128, .f32⟩
  | .local .tc .vmem, ⟨15, _⟩ => ⟨S10000x128, .f32⟩
  | .local .tc .vmem, ⟨16, _⟩ => ⟨S10000x128, .f32⟩
  | .local .tc .vmem, ⟨17, _⟩ => ⟨S10000x128, .f32⟩
  | .local .tc .vmem, ⟨18, _⟩ => ⟨S10000x128, .f32⟩
  | .local .tc .vmem, ⟨19, _⟩ => ⟨S10000x128, .f32⟩
  | .local .tc .vmem, ⟨20, _⟩ => ⟨S10000x64, .f32⟩
  | .local .tc .vmem, ⟨21, _⟩ => ⟨S10000x64, .f32⟩
  | .local .tc .vmem, ⟨22, _⟩ => ⟨S2000x64, .f32⟩
  | .local .tc .vmem, ⟨23, _⟩ => ⟨S2000x64, .f32⟩
  | .local .tc .vmem, ⟨24, _⟩ => ⟨S2000x1, .f32⟩
  | .local .tc .vmem, ⟨25, _⟩ => ⟨S2000x1, .f32⟩
  | .local .tc .vmem, ⟨26, _⟩ => ⟨S2000x128, .f32⟩
  | .local .tc .vmem, ⟨27, _⟩ => ⟨S2000x128, .f32⟩
  | .local .tc .vmem, ⟨28, _⟩ => ⟨S64x128, .f32⟩
  | .local .tc .vmem, ⟨29, _⟩ => ⟨S1x128, .f32⟩
  | .local .tc .vmem, ⟨30, _⟩ => ⟨S128x64, .f32⟩
  | .local .tc .vmem, ⟨31, _⟩ => ⟨S128x64, .f32⟩
  | .local .tc .vmem, ⟨32, _⟩ => ⟨S1x64, .f32⟩
  | .local .tc .vmem, ⟨33, _⟩ => ⟨S64x128, .f32⟩
  | .local .tc .vmem, ⟨34, _⟩ => ⟨S1x128, .f32⟩
  | .local .tc .vmem, ⟨35, _⟩ => ⟨S2000x128, .f32⟩
  | .local .tc .vmem, ⟨36, _⟩ => ⟨S2000x128, .f32⟩
  | .local .scVector .vmem, ⟨0, _⟩ => ⟨S128, .i32⟩
  | .local .scVector .vmem, ⟨1, _⟩ => ⟨S128, .i32⟩
  | .local .scVector .vmem, ⟨2, _⟩ => ⟨S128x128, .f32⟩
  | .local .scVector .vmem, ⟨3, _⟩ => ⟨S128x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTables nBuf rfl bufTy 4 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v3_scv : Ref sig .scVector := ⟨.hbm, 15, rfl⟩
abbrev main_v7_scv : Ref sig .scVector := ⟨.hbm, 20, rfl⟩
abbrev main_v19_0_scv : Ref sig .scVector := ⟨.hbm, 35, rfl⟩
abbrev main_v19_1_scv : Ref sig .scVector := ⟨.hbm, 36, rfl⟩
abbrev main_v21_0_scv : Ref sig .scVector := ⟨.hbm, 38, rfl⟩
abbrev main_v21_1_scv : Ref sig .scVector := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc4_stg6_0 : Ref sig .tc := ⟨.vmem, 31, rfl⟩
abbrev cc4_stg7_0 : Ref sig .tc := ⟨.vmem, 32, rfl⟩
abbrev cc4_stg8_0 : Ref sig .tc := ⟨.vmem, 33, rfl⟩
abbrev cc4_stg9_0 : Ref sig .tc := ⟨.vmem, 34, rfl⟩
abbrev cc4_stg10_0 : Ref sig .tc := ⟨.vmem, 35, rfl⟩
abbrev cc4_stg10_1 : Ref sig .tc := ⟨.vmem, 36, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem7_0 : DmaSem sig := 41
abbrev cc4_sem8_0 : DmaSem sig := 42
abbrev cc4_sem9_0 : DmaSem sig := 43
abbrev cc4_sem10_0 : DmaSem sig := 44
abbrev cc4_sem10_1 : DmaSem sig := 45
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 16], ![false, false]⟩

@[reducible] def k2_t1_loop (i : grid2.Coords) : Scf.Loop 32 :=
  let c0_i32_6 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c79_i32 : BitVec 32 := 79#32
  let c78_i32_1 : BitVec 32 := 78#32
  let v6 : BitVec 32 := Scalar.select v5 c79_i32 c78_i32_1
  let c0_i32 : BitVec 32 := 0#32
  let v8 : BitVec 32 := Scalar.subi v6 c0_i32
  let c1_i32 : BitVec 32 := 1#32
  let c1_i32_2 : BitVec 32 := 1#32
  let v9 : BitVec 32 := Scalar.subi c1_i32 c1_i32_2
  let v10 : BitVec 32 := Scalar.addi v8 v9
  let c1_i32_3 : BitVec 32 := 1#32
  let v11 : BitVec 32 := Scalar.divsi v10 c1_i32_3
  let v12 : BitVec 32 := Scalar.subi v11 c0_i32_6
  let c1_i32_7 : BitVec 32 := 1#32
  let v14 : BitVec 32 := Scalar.divsi v12 c1_i32_7
  let v15 : BitVec 32 := Scalar.muli v14 c1_i32_7
  let v16 : BitVec 32 := Scalar.addi c0_i32_6 v15
  let c1_i32_8 : BitVec 32 := 1#32
  ⟨c0_i32_6, v16, c1_i32_8⟩
def k2_off1 (i : grid2.Coords) (k2_t1 : Fin (k2_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c128_i32 : BitVec 32 := 128#32
  let v7 : BitVec 32 := Scalar.muli v4 c128_i32
  let c0_i32_5 : BitVec 32 := 0#32
  let c0_i32_6 : BitVec 32 := 0#32
  let c1_i32_8 : BitVec 32 := 1#32
  let arg13 : BitVec 32 := Scf.iv c0_i32_6 c1_i32_8 k2_t1
  let c1_i32_4 : BitVec 32 := 1#32
  let v26 : BitVec 32 := Scalar.muli arg13 c1_i32_4
  let v27 : BitVec 32 := Scalar.addi c0_i32_5 v26
  let c128_i32_20 : BitVec 32 := 128#32
  let v28 : BitVec 32 := Scalar.muli v27 c128_i32_20
  let v29 : BitVec 32 := Scalar.addi v7 v28
  ![v29.toNat]
def k2_off2 (i : grid2.Coords) (k2_t1 : Fin (k2_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c128_i32 : BitVec 32 := 128#32
  let v7 : BitVec 32 := Scalar.muli v4 c128_i32
  let c0_i32_5 : BitVec 32 := 0#32
  let c0_i32_6 : BitVec 32 := 0#32
  let c1_i32_8 : BitVec 32 := 1#32
  let arg13 : BitVec 32 := Scf.iv c0_i32_6 c1_i32_8 k2_t1
  let c1_i32_4 : BitVec 32 := 1#32
  let v26 : BitVec 32 := Scalar.muli arg13 c1_i32_4
  let v27 : BitVec 32 := Scalar.addi c0_i32_5 v26
  let c128_i32_25 : BitVec 32 := 128#32
  let v32 : BitVec 32 := Scalar.muli v27 c128_i32_25
  let v33 : BitVec 32 := Scalar.addi v7 v32
  let c0_i32_26_r1 : BitVec 32 := 0#32
  ![v33.toNat, 0]
@[reducible] def k2_t2_loop (i : grid2.Coords) : Scf.Loop 32 :=
  let c0_i32_6 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c79_i32 : BitVec 32 := 79#32
  let c78_i32_1 : BitVec 32 := 78#32
  let v6 : BitVec 32 := Scalar.select v5 c79_i32 c78_i32_1
  let c0_i32 : BitVec 32 := 0#32
  let v8 : BitVec 32 := Scalar.subi v6 c0_i32
  let c1_i32 : BitVec 32 := 1#32
  let c1_i32_2 : BitVec 32 := 1#32
  let v9 : BitVec 32 := Scalar.subi c1_i32 c1_i32_2
  let v10 : BitVec 32 := Scalar.addi v8 v9
  let c1_i32_3 : BitVec 32 := 1#32
  let v11 : BitVec 32 := Scalar.divsi v10 c1_i32_3
  let v12 : BitVec 32 := Scalar.subi v11 c0_i32_6
  let c1_i32_7 : BitVec 32 := 1#32
  let v14 : BitVec 32 := Scalar.divsi v12 c1_i32_7
  let v15 : BitVec 32 := Scalar.muli v14 c1_i32_7
  let v16 : BitVec 32 := Scalar.addi c0_i32_6 v15
  let v13 : BitVec 32 := Scalar.addi c0_i32_6 v12
  let c1_i32_9 : BitVec 32 := 1#32
  ⟨v16, v13, c1_i32_9⟩
def k2_off3 (i : grid2.Coords) (k2_t2 : Fin (k2_t2_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c128_i32 : BitVec 32 := 128#32
  let v7 : BitVec 32 := Scalar.muli v4 c128_i32
  let c0_i32_5 : BitVec 32 := 0#32
  let c0_i32_6 : BitVec 32 := 0#32
  let c4_i32_0 : BitVec 32 := 4#32
  let v5 : BitVec 1 := Scalar.cmpi .slt v1 c4_i32_0
  let c79_i32 : BitVec 32 := 79#32
  let c78_i32_1 : BitVec 32 := 78#32
  let v6 : BitVec 32 := Scalar.select v5 c79_i32 c78_i32_1
  let c0_i32 : BitVec 32 := 0#32
  let v8 : BitVec 32 := Scalar.subi v6 c0_i32
  let c1_i32 : BitVec 32 := 1#32
  let c1_i32_2 : BitVec 32 := 1#32
  let v9 : BitVec 32 := Scalar.subi c1_i32 c1_i32_2
  let v10 : BitVec 32 := Scalar.addi v8 v9
  let c1_i32_3 : BitVec 32 := 1#32
  let v11 : BitVec 32 := Scalar.divsi v10 c1_i32_3
  let v12 : BitVec 32 := Scalar.subi v11 c0_i32_6
  let c1_i32_7 : BitVec 32 := 1#32
  let v14 : BitVec 32 := Scalar.divsi v12 c1_i32_7
  let v15 : BitVec 32 := Scalar.muli v14 c1_i32_7
  let v16 : BitVec 32 := Scalar.addi c0_i32_6 v15
  let c1_i32_9 : BitVec 32 := 1#32
  let arg13 : BitVec 32 := Scf.iv v16 c1_i32_9 k2_t2
  let c1_i32_4 : BitVec 32 := 1#32
  let v26 : BitVec 32 := Scalar.muli arg13 c1_i32_4
  let v27 : BitVec 32 := Scalar.addi c0_i32_5 v26
  let c128_i32_20 : BitVec 32 := 128#32
  let v28 : BitVec 32 := Scalar.muli v27 c128_i32_20
  let v29 : BitVec 32 := Scalar.addi v7 v28
  ![v29.toNat]
def k2_off4 (i : grid2.Coords) (k2_t2 : Fin (k2_t2_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c128_i32 : BitVec 32 := 128#32
  let v7 : BitVec 32 := Scalar.muli v4 c128_i32
  let c0_i32_5 : BitVec 32 := 0#32
  let c0_i32_6 : BitVec 32 := 0#32
  let c4_i32_0 : BitVec 32 := 4#32
  let v5 : BitVec 1 := Scalar.cmpi .slt v1 c4_i32_0
  let c79_i32 : BitVec 32 := 79#32
  let c78_i32_1 : BitVec 32 := 78#32
  let v6 : BitVec 32 := Scalar.select v5 c79_i32 c78_i32_1
  let c0_i32 : BitVec 32 := 0#32
  let v8 : BitVec 32 := Scalar.subi v6 c0_i32
  let c1_i32 : BitVec 32 := 1#32
  let c1_i32_2 : BitVec 32 := 1#32
  let v9 : BitVec 32 := Scalar.subi c1_i32 c1_i32_2
  let v10 : BitVec 32 := Scalar.addi v8 v9
  let c1_i32_3 : BitVec 32 := 1#32
  let v11 : BitVec 32 := Scalar.divsi v10 c1_i32_3
  let v12 : BitVec 32 := Scalar.subi v11 c0_i32_6
  let c1_i32_7 : BitVec 32 := 1#32
  let v14 : BitVec 32 := Scalar.divsi v12 c1_i32_7
  let v15 : BitVec 32 := Scalar.muli v14 c1_i32_7
  let v16 : BitVec 32 := Scalar.addi c0_i32_6 v15
  let c1_i32_9 : BitVec 32 := 1#32
  let arg13 : BitVec 32 := Scf.iv v16 c1_i32_9 k2_t2
  let c1_i32_4 : BitVec 32 := 1#32
  let v26 : BitVec 32 := Scalar.muli arg13 c1_i32_4
  let v27 : BitVec 32 := Scalar.addi c0_i32_5 v26
  let c128_i32_25 : BitVec 32 := 128#32
  let v32 : BitVec 32 := Scalar.muli v27 c128_i32_25
  let v33 : BitVec 32 := Scalar.addi v7 v32
  let c0_i32_26_r3 : BitVec 32 := 0#32
  ![v33.toNat, 0]
@[reducible] def k2_t3_loop (i : grid2.Coords) : Scf.Loop 32 :=
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c79_i32 : BitVec 32 := 79#32
  let c78_i32_1 : BitVec 32 := 78#32
  let v6 : BitVec 32 := Scalar.select v5 c79_i32 c78_i32_1
  let c0_i32_10 : BitVec 32 := 0#32
  let v17 : BitVec 32 := Scalar.subi v6 c0_i32_10
  let c1_i32_11 : BitVec 32 := 1#32
  let c1_i32_12 : BitVec 32 := 1#32
  let v18 : BitVec 32 := Scalar.subi c1_i32_11 c1_i32_12
  let v19 : BitVec 32 := Scalar.addi v17 v18
  let c1_i32_13 : BitVec 32 := 1#32
  let v20 : BitVec 32 := Scalar.divsi v19 c1_i32_13
  let v21 : BitVec 32 := Scalar.subi v20 c0_i32_16
  let c1_i32_17 : BitVec 32 := 1#32
  let v23 : BitVec 32 := Scalar.divsi v21 c1_i32_17
  let v24 : BitVec 32 := Scalar.muli v23 c1_i32_17
  let v25 : BitVec 32 := Scalar.addi c0_i32_16 v24
  let c1_i32_18 : BitVec 32 := 1#32
  ⟨c0_i32_16, v25, c1_i32_18⟩
def k2_off5 (i : grid2.Coords) (k2_t3 : Fin (k2_t3_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c128_i32 : BitVec 32 := 128#32
  let v7 : BitVec 32 := Scalar.muli v4 c128_i32
  let c0_i32_15 : BitVec 32 := 0#32
  let c0_i32_16 : BitVec 32 := 0#32
  let c1_i32_18 : BitVec 32 := 1#32
  let arg13 : BitVec 32 := Scf.iv c0_i32_16 c1_i32_18 k2_t3
  let c1_i32_14 : BitVec 32 := 1#32
  let v26 : BitVec 32 := Scalar.muli arg13 c1_i32_14
  let v27 : BitVec 32 := Scalar.addi c0_i32_15 v26
  let c128_i32_20 : BitVec 32 := 128#32
  let v28 : BitVec 32 := Scalar.muli v27 c128_i32_20
  let v29 : BitVec 32 := Scalar.addi v7 v28
  ![v29.toNat]
def k2_off6 (i : grid2.Coords) (k2_t3 : Fin (k2_t3_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c128_i32 : BitVec 32 := 128#32
  let v7 : BitVec 32 := Scalar.muli v4 c128_i32
  let c0_i32_15 : BitVec 32 := 0#32
  let c0_i32_16 : BitVec 32 := 0#32
  let c1_i32_18 : BitVec 32 := 1#32
  let arg13 : BitVec 32 := Scf.iv c0_i32_16 c1_i32_18 k2_t3
  let c1_i32_14 : BitVec 32 := 1#32
  let v26 : BitVec 32 := Scalar.muli arg13 c1_i32_14
  let v27 : BitVec 32 := Scalar.addi c0_i32_15 v26
  let c128_i32_25 : BitVec 32 := 128#32
  let v32 : BitVec 32 := Scalar.muli v27 c128_i32_25
  let v33 : BitVec 32 := Scalar.addi v7 v32
  let c0_i32_26_r5 : BitVec 32 := 0#32
  ![v33.toNat, 0]
@[reducible] def k2_t4_loop (i : grid2.Coords) : Scf.Loop 32 :=
  let c0_i32_16 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_0 : BitVec 32 := 4#32
  let v5 : BitVec 1 := Scalar.cmpi .slt v1 c4_i32_0
  let c79_i32 : BitVec 32 := 79#32
  let c78_i32_1 : BitVec 32 := 78#32
  let v6 : BitVec 32 := Scalar.select v5 c79_i32 c78_i32_1
  let c0_i32_10 : BitVec 32 := 0#32
  let v17 : BitVec 32 := Scalar.subi v6 c0_i32_10
  let c1_i32_11 : BitVec 32 := 1#32
  let c1_i32_12 : BitVec 32 := 1#32
  let v18 : BitVec 32 := Scalar.subi c1_i32_11 c1_i32_12
  let v19 : BitVec 32 := Scalar.addi v17 v18
  let c1_i32_13 : BitVec 32 := 1#32
  let v20 : BitVec 32 := Scalar.divsi v19 c1_i32_13
  let v21 : BitVec 32 := Scalar.subi v20 c0_i32_16
  let c1_i32_17 : BitVec 32 := 1#32
  let v23 : BitVec 32 := Scalar.divsi v21 c1_i32_17
  let v24 : BitVec 32 := Scalar.muli v23 c1_i32_17
  let v25 : BitVec 32 := Scalar.addi c0_i32_16 v24
  let v22 : BitVec 32 := Scalar.addi c0_i32_16 v21
  let c1_i32_19 : BitVec 32 := 1#32
  ⟨v25, v22, c1_i32_19⟩
def k2_off7 (i : grid2.Coords) (k2_t4 : Fin (k2_t4_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c128_i32 : BitVec 32 := 128#32
  let v7 : BitVec 32 := Scalar.muli v4 c128_i32
  let c0_i32_15 : BitVec 32 := 0#32
  let c0_i32_16 : BitVec 32 := 0#32
  let c4_i32_0 : BitVec 32 := 4#32
  let v5 : BitVec 1 := Scalar.cmpi .slt v1 c4_i32_0
  let c79_i32 : BitVec 32 := 79#32
  let c78_i32_1 : BitVec 32 := 78#32
  let v6 : BitVec 32 := Scalar.select v5 c79_i32 c78_i32_1
  let c0_i32_10 : BitVec 32 := 0#32
  let v17 : BitVec 32 := Scalar.subi v6 c0_i32_10
  let c1_i32_11 : BitVec 32 := 1#32
  let c1_i32_12 : BitVec 32 := 1#32
  let v18 : BitVec 32 := Scalar.subi c1_i32_11 c1_i32_12
  let v19 : BitVec 32 := Scalar.addi v17 v18
  let c1_i32_13 : BitVec 32 := 1#32
  let v20 : BitVec 32 := Scalar.divsi v19 c1_i32_13
  let v21 : BitVec 32 := Scalar.subi v20 c0_i32_16
  let c1_i32_17 : BitVec 32 := 1#32
  let v23 : BitVec 32 := Scalar.divsi v21 c1_i32_17
  let v24 : BitVec 32 := Scalar.muli v23 c1_i32_17
  let v25 : BitVec 32 := Scalar.addi c0_i32_16 v24
  let c1_i32_19 : BitVec 32 := 1#32
  let arg13 : BitVec 32 := Scf.iv v25 c1_i32_19 k2_t4
  let c1_i32_14 : BitVec 32 := 1#32
  let v26 : BitVec 32 := Scalar.muli arg13 c1_i32_14
  let v27 : BitVec 32 := Scalar.addi c0_i32_15 v26
  let c128_i32_20 : BitVec 32 := 128#32
  let v28 : BitVec 32 := Scalar.muli v27 c128_i32_20
  let v29 : BitVec 32 := Scalar.addi v7 v28
  ![v29.toNat]
def k2_off8 (i : grid2.Coords) (k2_t4 : Fin (k2_t4_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c78_i32 : BitVec 32 := 78#32
  let v2 : BitVec 32 := Scalar.muli v1 c78_i32
  let c4_i32 : BitVec 32 := 4#32
  let v3 : BitVec 32 := Scalar.minsi v1 c4_i32
  let v4 : BitVec 32 := Scalar.addi v2 v3
  let c128_i32 : BitVec 32 := 128#32
  let v7 : BitVec 32 := Scalar.muli v4 c128_i32
  let c0_i32_15 : BitVec 32 := 0#32
  let c0_i32_16 : BitVec 32 := 0#32
  let c4_i32_0 : BitVec 32 := 4#32
  let v5 : BitVec 1 := Scalar.cmpi .slt v1 c4_i32_0
  let c79_i32 : BitVec 32 := 79#32
  let c78_i32_1 : BitVec 32 := 78#32
  let v6 : BitVec 32 := Scalar.select v5 c79_i32 c78_i32_1
  let c0_i32_10 : BitVec 32 := 0#32
  let v17 : BitVec 32 := Scalar.subi v6 c0_i32_10
  let c1_i32_11 : BitVec 32 := 1#32
  let c1_i32_12 : BitVec 32 := 1#32
  let v18 : BitVec 32 := Scalar.subi c1_i32_11 c1_i32_12
  let v19 : BitVec 32 := Scalar.addi v17 v18
  let c1_i32_13 : BitVec 32 := 1#32
  let v20 : BitVec 32 := Scalar.divsi v19 c1_i32_13
  let v21 : BitVec 32 := Scalar.subi v20 c0_i32_16
  let c1_i32_17 : BitVec 32 := 1#32
  let v23 : BitVec 32 := Scalar.divsi v21 c1_i32_17
  let v24 : BitVec 32 := Scalar.muli v23 c1_i32_17
  let v25 : BitVec 32 := Scalar.addi c0_i32_16 v24
  let c1_i32_19 : BitVec 32 := 1#32
  let arg13 : BitVec 32 := Scf.iv v25 c1_i32_19 k2_t4
  let c1_i32_14 : BitVec 32 := 1#32
  let v26 : BitVec 32 := Scalar.muli arg13 c1_i32_14
  let v27 : BitVec 32 := Scalar.addi c0_i32_15 v26
  let c128_i32_25 : BitVec 32 := 128#32
  let v32 : BitVec 32 := Scalar.muli v27 c128_i32_25
  let v33 : BitVec 32 := Scalar.addi v7 v32
  let c0_i32_26_r7 : BitVec 32 := 0#32
  ![v33.toNat, 0]
abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S64x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S2000x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S2x320000_S1x320000_0_0 : S2x320000.Slices ![0, 0] S1x320000
  shapeCasts_S1x320000_S320000 : S1x320000.ShapeCasts S320000
  bcast_S_S128 : S_.BroadcastsInDim S128 (![] : Fin 0 → Fin S128.rank)
  concatenates_S320000_S128_S320128_d0 : Shape.Concatenates [S320000, S128] S320128 0
  slices_S2x320000_S1x320000_1_0 : S2x320000.Slices ![1, 0] S1x320000
  bcast_S_S128x64 : S_.BroadcastsInDim S128x64 (![] : Fin 0 → Fin S128x64.rank)
  slices_S272x64_S128x64_0_0 : S272x64.Slices ![0, 0] S128x64
  concatenates_S128x64_S128x64_S128x128_d1 : Shape.Concatenates [S128x64, S128x64] S128x128 1
  slices_S272x64_S128x64_128_0 : S272x64.Slices ![128, 0] S128x64
  slices_S272x64_S16x64_256_0 : S272x64.Slices ![256, 0] S16x64
  bcast_S_S16x64 : S_.BroadcastsInDim S16x64 (![] : Fin 0 → Fin S16x64.rank)
  concatenates_S16x64_S16x64_S16x128_d1 : Shape.Concatenates [S16x64, S16x64] S16x128 1
  bcast_S_S64 : S_.BroadcastsInDim S64 (![] : Fin 0 → Fin S64.rank)
  concatenates_S64_S64_S128_d0 : Shape.Concatenates [S64, S64] S128 0
  bcast_S128_S1x128_1 : S128.BroadcastsInDim S1x128 (![1] : Fin 1 → Fin S1x128.rank)
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x16_S10000x16_0_0 : ∀ a, (![0, 0] : Fin 2 → Nat) a + S10000x16.size a ≤ S10000x16.size a
  h_S10000x16 : 0 < S10000x16.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  gathers_S10000x128_S128x128 : S10000x128.Gathers 0 S128x128
  shapeCasts_S10000x128_S10000x128 : S10000x128.ShapeCasts S10000x128
  slices_S10000x128_o0_0_S10000x64 : S10000x128.Slices ![0, 0] S10000x64
  inb_S10000x64_S10000x64_0_0 : ∀ a, (![0, 0] : Fin 2 → Nat) a + S10000x64.size a ≤ S10000x64.size a
  h_S10000x64 : 0 < S10000x64.numel
  bcast_S_S10000x64 : S_.BroadcastsInDim S10000x64 (![] : Fin 0 → Fin S10000x64.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S10000x1 : S_.BroadcastsInDim S10000x1 (![] : Fin 0 → Fin S10000x1.rank)
  concatenates_S320000x1_S320000x1_S320000x2_d1 : Shape.Concatenates [S320000x1, S320000x1] S320000x2 1
  slices_S256x64_S128x64_0_0 : S256x64.Slices ![0, 0] S128x64
  slices_S256x64_S128x64_128_0 : S256x64.Slices ![128, 0] S128x64
  bcast_S64_S1x64_1 : S64.BroadcastsInDim S1x64 (![1] : Fin 1 → Fin S1x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x128_S64x128_0_0 : ∀ a, (![0, 0] : Fin 2 → Nat) a + S64x128.size a ≤ S64x128.size a
  h_S64x128 : 0 < S64x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  dot_S2000x128_S128x128_S2000x128_1_0_0_1_n_n_wf : DotDims.WF S2000x128 S128x128 S2000x128 [1] [0] [0] [1] [] []
  dot_S10000x16_S16x128_S10000x128_1_0_0_1_n_n_wf : DotDims.WF S10000x16 S16x128 S10000x128 [1] [0] [0] [1] [] []
  scatter_S10000x64_S320000x1_S320000x64_1_0_0_1_wf : ScatterDims.WF S10000x64 S320000x1 S320000x64 [1] [0] [0] 1
  scatter_S10000x1_S320000x2_S320000_n_01_01_1_wf : ScatterDims.WF S10000x1 S320000x2 S320000 [] [0, 1] [0, 1] 1
  dot_S2000x64_S64x128_S2000x128_1_0_0_1_n_n_wf : DotDims.WF S2000x64 S64x128 S2000x128 [1] [0] [0] [1] [] []
  dot_S2000x128_S128x64_S2000x64_1_0_0_1_n_n_wf : DotDims.WF S2000x128 S128x64 S2000x64 [1] [0] [0] [1] [] []
  hcc2_scratch4 : 14 + S_.numel ≤ 46
  hcc2_scoped0 : 15 + S_.numel ≤ 46
  hcc2_scoped1 : 16 + S_.numel ≤ 46
  hcc2_scoped2 : 17 + S_.numel ≤ 46
  hcc2_scoped3 : 18 + S_.numel ≤ 46
  hcc2_scoped4 : 19 + S_.numel ≤ 46
  hcc2_scoped5 : 20 + S_.numel ≤ 46
  hcc2_scoped6 : 21 + S_.numel ≤ 46
  hcc2_scoped7 : 22 + S_.numel ≤ 46
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .f32 = 32 ∨ (Rect.block (s := S10000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S10000x128.size a
  hwx0_4 : ∀ i : grid0.Coords, EltTy.bits .f32 = 32 ∨ (Rect.block (s := S10000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S320000x16.size a
  hwx1_0 : ∀ i : grid1.Coords, EltTy.bits .f32 = 32 ∨ (Rect.block (s := S320000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S320000x128.size a
  hwx1_3 : ∀ i : grid1.Coords, EltTy.bits .f32 = 32 ∨ (Rect.block (s := S320000x128) S10000x128.size (cc1_transform_3 i) (hinb1_3 i)).WholeWords (EltTy.packing .f32)
  hcore2 : grid2.bound 0 ≤ τ.nSC
  hsub2 : grid2.bound 1 ≤ τ.nSub
  k2_t1_ok : ∀ i : grid2.Coords, (k2_t1_loop i).OK
  k2_off1_inb : ∀ (i : grid2.Coords) (k2_t1 : Fin (k2_t1_loop i).trips), ∀ a, (k2_off1 i k2_t1) a + S128.size a ≤ S320128.size a
  k2_off2_inb : ∀ (i : grid2.Coords) (k2_t1 : Fin (k2_t1_loop i).trips), ∀ a, (k2_off2 i k2_t1) a + S128x128.size a ≤ S320000x128.size a
  k2_t2_ok : ∀ i : grid2.Coords, (k2_t2_loop i).OK
  k2_off3_inb : ∀ (i : grid2.Coords) (k2_t2 : Fin (k2_t2_loop i).trips), ∀ a, (k2_off3 i k2_t2) a + S128.size a ≤ S320128.size a
  k2_off4_inb : ∀ (i : grid2.Coords) (k2_t2 : Fin (k2_t2_loop i).trips), ∀ a, (k2_off4 i k2_t2) a + S128x128.size a ≤ S320000x128.size a
  k2_t3_ok : ∀ i : grid2.Coords, (k2_t3_loop i).OK
  k2_off5_inb : ∀ (i : grid2.Coords) (k2_t3 : Fin (k2_t3_loop i).trips), ∀ a, (k2_off5 i k2_t3) a + S128.size a ≤ S320128.size a
  k2_off6_inb : ∀ (i : grid2.Coords) (k2_t3 : Fin (k2_t3_loop i).trips), ∀ a, (k2_off6 i k2_t3) a + S128x128.size a ≤ S320000x128.size a
  k2_t4_ok : ∀ i : grid2.Coords, (k2_t4_loop i).OK
  k2_off7_inb : ∀ (i : grid2.Coords) (k2_t4 : Fin (k2_t4_loop i).trips), ∀ a, (k2_off7 i k2_t4) a + S128.size a ≤ S320128.size a
  k2_off8_inb : ∀ (i : grid2.Coords) (k2_t4 : Fin (k2_t4_loop i).trips), ∀ a, (k2_off8 i k2_t4) a + S128x128.size a ≤ S320000x128.size a
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S320000x128.size a
  hwx3_0 : ∀ i : grid3.Coords, EltTy.bits .f32 = 32 ∨ (Rect.block (s := S320000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S320000x128.size a
  hwx3_1 : ∀ i : grid3.Coords, EltTy.bits .f32 = 32 ∨ (Rect.block (s := S320000x128) S10000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S320000x128.size a
  hwx3_2 : ∀ i : grid3.Coords, EltTy.bits .f32 = 32 ∨ (Rect.block (s := S320000x128) S10000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S320000x64.size a
  hwx3_3 : ∀ i : grid3.Coords, EltTy.bits .f32 = 32 ∨ (Rect.block (s := S320000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S10000x64.size a
  hwx4_0 : ∀ i : grid4.Coords, EltTy.bits .f32 = 32 ∨ (Rect.block (s := S10000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S10000x1.size a
  hwx4_1 : ∀ i : grid4.Coords, EltTy.bits .f32 = 32 ∨ (Rect.block (s := S10000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S10000x128.size a
  hwx4_2 : ∀ i : grid4.Coords, EltTy.bits .f32 = 32 ∨ (Rect.block (s := S10000x128) S2000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x128.size a ≤ S64x128.size a
  hwx4_3 : ∀ i : grid4.Coords, EltTy.bits .f32 = 32 ∨ (Rect.block (s := S64x128) S64x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x64.size a ≤ S128x64.size a
  hwx4_6 : ∀ i : grid4.Coords, EltTy.bits .f32 = 32 ∨ (Rect.block (s := S128x64) S128x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S64x128.size a ≤ S64x128.size a
  hwx4_8 : ∀ i : grid4.Coords, EltTy.bits .f32 = 32 ∨ (Rect.block (s := S64x128) S64x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S2000x128.size a ≤ S10000x128.size a
  hwx4_10 : ∀ i : grid4.Coords, EltTy.bits .f32 = 32 ∨ (Rect.block (s := S10000x128) S2000x128.size (cc4_transform_10 i) (hinb4_10 i)).WholeWords (EltTy.packing .f32)

variable [Facts₀]

abbrev cc2_scratch4 : DmaSems sig S_ := SemArray.consecutive 14 S_ hcc2_scratch4
abbrev cc2_scoped0 : DmaSems sig S_ := SemArray.consecutive 15 S_ hcc2_scoped0
abbrev cc2_scoped1 : DmaSems sig S_ := SemArray.consecutive 16 S_ hcc2_scoped1
abbrev cc2_scoped2 : DmaSems sig S_ := SemArray.consecutive 17 S_ hcc2_scoped2
abbrev cc2_scoped3 : DmaSems sig S_ := SemArray.consecutive 18 S_ hcc2_scoped3
abbrev cc2_scoped4 : DmaSems sig S_ := SemArray.consecutive 19 S_ hcc2_scoped4
abbrev cc2_scoped5 : DmaSems sig S_ := SemArray.consecutive 20 S_ hcc2_scoped5
abbrev cc2_scoped6 : DmaSems sig S_ := SemArray.consecutive 21 S_ hcc2_scoped6
abbrev cc2_scoped7 : DmaSems sig S_ := SemArray.consecutive 22 S_ hcc2_scoped7
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf
def scatter_S10000x1_S320000x2_S320000_n_01_01_1 : ScatterDims S10000x1 S320000x2 S320000 where
  updateWindowDims := []
  insertedWindowDims := [0, 1]
  scatterDimsToOperandDims := [0, 1]
  indexVectorDim := 1
  wf := scatter_S10000x1_S320000x2_S320000_n_01_01_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg2) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win3_0 : Pipeline.Window sig grid3 :=
  Pipeline.Window.ofSpec (Memref.whole main_v21_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21_1) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S10000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v22) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v32) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg0) S2000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg5) S64x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v46) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v47) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v48) S128x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v49) S1x64.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg9) S64x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v50) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v51) S2000x128.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S320000x16 : Shape := ⟨2, ![320000, 16]⟩
abbrev S272x64 : Shape := ⟨2, ![272, 64]⟩
abbrev S64 : Shape := ⟨1, ![64]⟩
abbrev S64x128 : Shape := ⟨2, ![64, 128]⟩
abbrev S128 : Shape := ⟨1, ![128]⟩
abbrev S256x64 : Shape := ⟨2, ![256, 64]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S320000x272 : Shape := ⟨2, ![320000, 272]⟩
abbrev S320000x64 : Shape := ⟨2, ![320000, 64]⟩
abbrev S1x64 : Shape := ⟨2, ![1, 64]⟩
abbrev S1x128 : Shape := ⟨2, ![1, 128]⟩
abbrev S10000x256 : Shape := ⟨2, ![10000, 256]⟩
abbrev S10000x64 : Shape := ⟨2, ![10000, 64]⟩

abbrev nBuf : Space → Nat
  | .hbm => 96
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000x16, .f32⟩
  | .hbm, ⟨3, _⟩ => ⟨S272x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S256x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S_, .i32⟩
  | .hbm, ⟨16, _⟩ => ⟨S320000, .i32⟩
  | .hbm, ⟨17, _⟩ => ⟨S320000, .i1⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S320000, .i32⟩
  | .hbm, ⟨22, _⟩ => ⟨S320000x1, .i32⟩
  | .hbm, ⟨23, _⟩ => ⟨S1, .i32⟩
  | .hbm, ⟨24, _⟩ => ⟨S_, .i32⟩
  | .hbm, ⟨25, _⟩ => ⟨S320000x1, .i32⟩
  | .hbm, ⟨26, _⟩ => ⟨S320000x1, .i1⟩
  | .hbm, ⟨27, _⟩ => ⟨S1x1, .i32⟩
  | .hbm, ⟨28, _⟩ => ⟨S320000x1, .i32⟩
  | .hbm, ⟨29, _⟩ => ⟨S320000x1, .i1⟩
  | .hbm, ⟨30, _⟩ => ⟨S320000x1, .i1⟩
  | .hbm, ⟨31, _⟩ => ⟨S_, .i1⟩
  | .hbm, ⟨32, _⟩ => ⟨S320000, .i1⟩
  | .hbm, ⟨33, _⟩ => ⟨S320000x128, .f32⟩
  | .hbm, ⟨34, _⟩ => ⟨S320000x128, .i1⟩
  | .hbm, ⟨35, _⟩ => ⟨S_, .f32⟩
  | .hbm, ⟨36, _⟩ => ⟨S320000x128, .f32⟩
  | .hbm, ⟨37, _⟩ => ⟨S320000x128, .f32⟩
  | .hbm, ⟨38, _⟩ => ⟨S_, .i32⟩
  | .hbm, ⟨39, _⟩ => ⟨S320000, .i32⟩
  | .hbm, ⟨40, _⟩ => ⟨S320000, .i1⟩
  | .hbm, ⟨41, _⟩ => ⟨S_, .i32⟩
  | .hbm, ⟨42, _⟩ => ⟨S320000, .i32⟩
  | .hbm, ⟨43, _⟩ => ⟨S320000, .i32⟩
  | .hbm, ⟨44, _⟩ => ⟨S320000, .i32⟩
  | .hbm, ⟨45, _⟩ => ⟨S320000x1, .i32⟩
  | .hbm, ⟨46, _⟩ => ⟨S1, .i32⟩
  | .hbm, ⟨47, _⟩ => ⟨S_, .i32⟩
  | .hbm, ⟨48, _⟩ => ⟨S320000x1, .i32⟩
  | .hbm, ⟨49, _⟩ => ⟨S320000x1, .i1⟩
  | .hbm, ⟨50, _⟩ => ⟨S1x1, .i32⟩
  | .hbm, ⟨51, _⟩ => ⟨S320000x1, .i32⟩
  | .hbm, ⟨52, _⟩ => ⟨S320000x1, .i1⟩
  | .hbm, ⟨53, _⟩ => ⟨S320000x1, .i1⟩
  | .hbm, ⟨54, _⟩ => ⟨S_, .i1⟩
  | .hbm, ⟨55, _⟩ => ⟨S320000, .i1⟩
  | .hbm, ⟨56, _⟩ => ⟨S320000x128, .f32⟩
  | .hbm, ⟨57, _⟩ => ⟨S320000x128, .i1⟩
  | .hbm, ⟨58, _⟩ => ⟨S_, .f32⟩
  | .hbm, ⟨59, _⟩ => ⟨S320000x128, .f32⟩
  | .hbm, ⟨60, _⟩ => ⟨S320000x128, .f32⟩
  | .hbm, ⟨61, _⟩ => ⟨S320000x272, .f32⟩
  | .hbm, ⟨62, _⟩ => ⟨S320000x64, .f32⟩
  | .hbm, ⟨63, _⟩ => ⟨S1x64, .f32⟩
  | .hbm, ⟨64, _⟩ => ⟨S320000x64, .f32⟩
  | .hbm, ⟨65, _⟩ => ⟨S320000x64, .f32⟩
  | .hbm, ⟨66, _⟩ => ⟨S_, .f32⟩
  | .hbm, ⟨67, _⟩ => ⟨S320000x64, .f32⟩
  | .hbm, ⟨68, _⟩ => ⟨S320000x64, .f32⟩
  | .hbm, ⟨69, _⟩ => ⟨S320000x128, .f32⟩
  | .hbm, ⟨70, _⟩ => ⟨S1x128, .f32⟩
  | .hbm, ⟨71, _⟩ => ⟨S320000x128, .f32⟩
  | .hbm, ⟨72, _⟩ => ⟨S320000x128, .f32⟩
  | .hbm, ⟨73, _⟩ => ⟨S_, .f32⟩
  | .hbm, ⟨74, _⟩ => ⟨S10000x128, .f32⟩
  | .hbm, ⟨75, _⟩ => ⟨S_, .i32⟩
  | .hbm, ⟨76, _⟩ => ⟨S320000, .i32⟩
  | .hbm, ⟨77, _⟩ => ⟨S320000, .i1⟩
  | .hbm, ⟨78, _⟩ => ⟨S_, .i32⟩
  | .hbm, ⟨79, _⟩ => ⟨S320000, .i32⟩
  | .hbm, ⟨80, _⟩ => ⟨S320000, .i32⟩
  | .hbm, ⟨81, _⟩ => ⟨S320000, .i32⟩
  | .hbm, ⟨82, _⟩ => ⟨S320000x1, .i32⟩
  | .hbm, ⟨83, _⟩ => ⟨S10000x128, .f32⟩
  | .hbm, ⟨84, _⟩ => ⟨S10000x256, .f32⟩
  | .hbm, ⟨85, _⟩ => ⟨S10000x64, .f32⟩
  | .hbm, ⟨86, _⟩ => ⟨S1x64, .f32⟩
  | .hbm, ⟨87, _⟩ => ⟨S10000x64, .f32⟩
  | .hbm, ⟨88, _⟩ => ⟨S10000x64, .f32⟩
  | .hbm, ⟨89, _⟩ => ⟨S_, .f32⟩
  | .hbm, ⟨90, _⟩ => ⟨S10000x64, .f32⟩
  | .hbm, ⟨91, _⟩ => ⟨S10000x64, .f32⟩
  | .hbm, ⟨92, _⟩ => ⟨S10000x128, .f32⟩
  | .hbm, ⟨93, _⟩ => ⟨S1x128, .f32⟩
  | .hbm, ⟨94, _⟩ => ⟨S10000x128, .f32⟩
  | .hbm, ⟨95, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_cst : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_cst_0 : Ref sig .tc := ⟨.hbm, 73, rfl⟩
abbrev main_v17 : Ref sig .tc := ⟨.hbm, 74, rfl⟩
abbrev main_c : Ref sig .tc := ⟨.hbm, 75, rfl⟩
abbrev main_v18 : Ref sig .tc := ⟨.hbm, 76, rfl⟩
abbrev main_v19 : Ref sig .tc := ⟨.hbm, 77, rfl⟩
abbrev main_c_1 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_cst_2 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  concatenates_S320000x128_S320000x128_S320000x16_S320000x272_d1 : Shape.Concatenates [S320000x128, S320000x128, S320000x16] S320000x272 1
  bcast_S64_S1x64_1 : S64.BroadcastsInDim S1x64 (![1] : Fin 1 → Fin S1x64.rank)
  bcast_S1x64_S320000x64_0_1 : S1x64.BroadcastsInDim S320000x64 (![0, 1] : Fin 2 → Fin S320000x64.rank)
  bcast_S_S320000x64 : S_.BroadcastsInDim S320000x64 (![] : Fin 0 → Fin S320000x64.rank)
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S10000x128 : S_.BroadcastsInDim S10000x128 (![] : Fin 0 → Fin S10000x128.rank)
  concatenates_S10000x128_S10000x128_S10000x256_d1 : Shape.Concatenates [S10000x128, S10000x128] S10000x256 1
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S1x128_S10000x128_0_1 : S1x128.BroadcastsInDim S10000x128 (![0, 1] : Fin 2 → Fin S10000x128.rank)
  gather_S10000x128_S320000x1_S320000x128_1_0_n_n_0_1_1128_wf : GatherDims.WF S10000x128 S320000x1 S320000x128 [1] [0] [] [0] [] 1 ![1, 128]
  dot_S320000x272_S272x64_S320000x64_1_0_0_1_n_n_wf : DotDims.WF S320000x272 S272x64 S320000x64 [1] [0] [0] [1] [] []
  dot_S320000x64_S64x128_S320000x128_1_0_0_1_n_n_wf : DotDims.WF S320000x64 S64x128 S320000x128 [1] [0] [0] [1] [] []
  scatter_S10000x128_S320000x1_S320000x128_1_0_0_1_wf : ScatterDims.WF S10000x128 S320000x1 S320000x128 [1] [0] [0] 1
  dot_S10000x256_S256x64_S10000x64_1_0_0_1_n_n_wf : DotDims.WF S10000x256 S256x64 S10000x64 [1] [0] [0] [1] [] []
  dot_S10000x64_S64x128_S10000x128_1_0_0_1_n_n_wf : DotDims.WF S10000x64 S64x128 S10000x128 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x272_S272x64_S320000x64_1_0_0_1_n_n : DotDims S320000x272 S272x64 S320000x64 where
  lhsContracting := [1]
  rhsContracting := [0]
  lhsNonContracting := [0]
  rhsNonContracting := [1]
  lhsBatch := []
  rhsBatch := []
  wf := dot_S320000x272_S272x64_S320000x64_1_0_0_1_n_n_wf
def dot_S320000x64_S64x128_S320000x128_1_0_0_1_n_n : DotDims S320000x64 S64x128 S320000x128 where
  lhsContracting := [1]
  rhsContracting := [0]
  lhsNonContracting := [0]
  rhsNonContracting := [1]
  lhsBatch := []
  rhsBatch := []
  wf := dot_S320000x64_S64x128_S320000x128_1_0_0_1_n_n_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf

class Facts : Prop extends Facts₀ where

variable [Facts]
-- ==== Proof.Spec.lean ====
import Idealize.ShloMosaic.PureOps.Ideal
import Mathlib.Algebra.BigOperators.Fin
import Mathlib.Data.EReal.Basic

noncomputable section

open scoped BigOperators

namespace Cert.Spec

structure Inputs where
  nodes : Fin 10000 → Fin 128 → EReal
  row : Fin 320000 → Fin 10000
  col : Fin 320000 → Fin 10000
  ef : Fin 320000 → Fin 16 → EReal
  w1 : Fin 272 → Fin 64 → EReal
  b1 : Fin 64 → EReal
  w2 : Fin 64 → Fin 128 → EReal
  b2 : Fin 128 → EReal
  u1 : Fin 256 → Fin 64 → EReal
  ub1 : Fin 64 → EReal
  u2 : Fin 64 → Fin 128 → EReal
  ub2 : Fin 128 → EReal

structure Inputs.Finite (I : Inputs) : Prop where
  nodes : ∀ n k, ∃ r : ℝ, I.nodes n k = (r : EReal)
  ef : ∀ e k, ∃ r : ℝ, I.ef e k = (r : EReal)
  w1 : ∀ k j, ∃ r : ℝ, I.w1 k j = (r : EReal)
  b1 : ∀ j, ∃ r : ℝ, I.b1 j = (r : EReal)
  w2 : ∀ j f, ∃ r : ℝ, I.w2 j f = (r : EReal)
  b2 : ∀ f, ∃ r : ℝ, I.b2 f = (r : EReal)
  u1 : ∀ k j, ∃ r : ℝ, I.u1 k j = (r : EReal)
  ub1 : ∀ j, ∃ r : ℝ, I.ub1 j = (r : EReal)
  u2 : ∀ j f, ∃ r : ℝ, I.u2 j f = (r : EReal)
  ub2 : ∀ f, ∃ r : ℝ, I.ub2 f = (r : EReal)

variable (I : Inputs)

def mi (e : Fin 320000) (k : Fin 272) : EReal :=
  if h : k.val < 128 then I.nodes (I.row e) ⟨k.val, h⟩
  else if h' : k.val < 256 then I.nodes (I.col e) ⟨k.val - 128, by omega⟩
  else I.ef e ⟨k.val - 256, by have := k.isLt; omega⟩

def hR (e : Fin 320000) (j : Fin 64) : EReal := max ((∑ k : Fin 272, mi I e k * I.w1 k j) + I.b1 j) 0

def msg (e : Fin 320000) (f : Fin 128) : EReal := (∑ j : Fin 64, hR I e j * I.w2 j f) + I.b2 f

def agg (n : Fin 10000) (f : Fin 128) : EReal := ∑ e ∈ Finset.univ.filter (fun e => I.col e = n), msg I e f

def ui (n : Fin 10000) (k : Fin 256) : EReal :=
  if h : k.val < 128 then I.nodes n ⟨k.val, h⟩ else agg I n ⟨k.val - 128, by have := k.isLt; omega⟩

def h2 (n : Fin 10000) (j : Fin 64) : EReal := max ((∑ k : Fin 256, ui I n k * I.u1 k j) + I.ub1 j) 0

def out (n : Fin 10000) (f : Fin 128) : EReal := (∑ j : Fin 64, h2 I n j * I.u2 j f) + I.ub2 f

def aTab (n : Fin 10000) (j : Fin 64) : EReal := ∑ k : Fin 128, I.nodes n k * I.w1 ⟨k.val, by have := k.isLt; omega⟩ j

def bTab (n : Fin 10000) (j : Fin 64) : EReal := ∑ k : Fin 128, I.nodes n k * I.w1 ⟨128 + k.val, by have := k.isLt; omega⟩ j

def eh (e : Fin 320000) (j : Fin 64) : EReal := (∑ k : Fin 16, I.ef e k * I.w1 ⟨256 + k.val, by have := k.isLt; omega⟩ j) + I.b1 j

def hK (e : Fin 320000) (j : Fin 64) : EReal := max ((aTab I (I.row e) j + bTab I (I.col e) j) + eh I e j) 0

def hsum (n : Fin 10000) (j : Fin 64) : EReal := ∑ e ∈ Finset.univ.filter (fun e => I.col e = n), hK I e j

def deg (n : Fin 10000) : EReal := ∑ _e ∈ Finset.univ.filter (fun e => I.col e = n), (1 : EReal)

def aggK (n : Fin 10000) (f : Fin 128) : EReal := (∑ j : Fin 64, hsum I n j * I.w2 j f) + deg I n * I.b2 f

def uK (n : Fin 10000) (j : Fin 64) : EReal :=
  max (((∑ k : Fin 128, I.nodes n k * I.u1 ⟨k.val, by have := k.isLt; omega⟩ j)
        + (∑ k : Fin 128, aggK I n k * I.u1 ⟨128 + k.val, by have := k.isLt; omega⟩ j)) + I.ub1 j) 0

def outK (n : Fin 10000) (f : Fin 128) : EReal := (∑ j : Fin 64, uK I n j * I.u2 j f) + I.ub2 f

def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem isReal_zero : IsReal 0 := ⟨0, EReal.coe_zero.symm⟩

theorem isReal_one : IsReal 1 := ⟨1, EReal.coe_one.symm⟩

theorem IsReal.max {x y : EReal} (hx : IsReal x) (hy : IsReal y) : IsReal (max x y) := by
  rcases max_choice x y with h | h
  · rw [h]; exact hx
  · rw [h]; exact hy

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem sum_mul_of_isReal {ι : Type*} (s : Finset ι) (f : ι → EReal) (w : EReal)
    (hf : ∀ i ∈ s, IsReal (f i)) (hw : IsReal w) : (∑ i ∈ s, f i) * w = ∑ i ∈ s, f i * w := by
  classical
  induction s using Finset.induction_on with
  | empty => simp
  | insert a s ha ih =>
    rw [Finset.sum_insert ha, Finset.sum_insert ha, ← ih (fun i hi => hf i (Finset.mem_insert_of_mem hi))]
    obtain ⟨x, hx⟩ := hf a (Finset.mem_insert_self a s)
    obtain ⟨y, hy⟩ := isReal_sum s f (fun i hi => hf i (Finset.mem_insert_of_mem hi))
    obtain ⟨z, rfl⟩ := hw
    rw [hx, hy, ← EReal.coe_add, ← EReal.coe_mul, ← EReal.coe_mul, ← EReal.coe_mul, ← EReal.coe_add, add_mul]

theorem sum_fin272_split {M : Type*} [AddCommMonoid M] (g : Fin 272 → M) :
    ∑ k : Fin 272, g k
      = ((∑ k : Fin 128, g ⟨k.val, by have := k.isLt; omega⟩)
          + (∑ k : Fin 128, g ⟨128 + k.val, by have := k.isLt; omega⟩))
        + (∑ k : Fin 16, g ⟨256 + k.val, by have := k.isLt; omega⟩) := by
  have h1 := Fin.sum_univ_add (a := 128 + 128) (b := 16) g
  have h2 := Fin.sum_univ_add (a := 128) (b := 128) (fun i => g (Fin.castAdd 16 i))
  rw [h1, h2]
  rfl

theorem sum_fin256_split {M : Type*} [AddCommMonoid M] (g : Fin 256 → M) :
    ∑ k : Fin 256, g k
      = (∑ k : Fin 128, g ⟨k.val, by have := k.isLt; omega⟩)
        + (∑ k : Fin 128, g ⟨128 + k.val, by have := k.isLt; omega⟩) := by
  have h1 := Fin.sum_univ_add (a := 128) (b := 128) g
  rw [h1]
  rfl

theorem isReal_mi (hI : I.Finite) (e : Fin 320000) (k : Fin 272) : IsReal (mi I e k) := by
  unfold mi
  split_ifs
  · exact hI.nodes _ _
  · exact hI.nodes _ _
  · exact hI.ef _ _

theorem isReal_hR (hI : I.Finite) (e : Fin 320000) (j : Fin 64) : IsReal (hR I e j) := by
  unfold hR
  refine IsReal.max (IsReal.add (isReal_sum _ _ fun k _ => ?_) (hI.b1 j)) isReal_zero
  exact (isReal_mi I hI e k).mul (hI.w1 k j)

theorem mi_lo (e : Fin 320000) (k : Fin 128) :
    mi I e ⟨k.val, by have := k.isLt; omega⟩ = I.nodes (I.row e) k := by
  have hk := k.isLt
  simp only [mi, dif_pos hk]

theorem mi_mid (e : Fin 320000) (k : Fin 128) :
    mi I e ⟨128 + k.val, by have := k.isLt; omega⟩ = I.nodes (I.col e) k := by
  have hk := k.isLt
  have h1 : ¬ (128 + k.val < 128) := by omega
  have h2 : 128 + k.val < 256 := by omega
  simp only [mi, dif_neg h1, dif_pos h2]
  congr 1
  apply Fin.ext
  simp

theorem mi_hi (e : Fin 320000) (k : Fin 16) :
    mi I e ⟨256 + k.val, by have := k.isLt; omega⟩ = I.ef e k := by
  have hk := k.isLt
  have h1 : ¬ (256 + k.val < 128) := by omega
  have h2 : ¬ (256 + k.val < 256) := by omega
  simp only [mi, dif_neg h1, dif_neg h2]
  congr 1
  apply Fin.ext
  simp

theorem hK_eq_hR (hI : I.Finite) (e : Fin 320000) (j : Fin 64) : hK I e j = hR I e j := by
  unfold hK hR aTab bTab eh
  rw [sum_fin272_split]
  simp only [mi_lo, mi_mid, mi_hi]
  rw [add_assoc (_ + _)]

theorem isReal_hK (hI : I.Finite) (e : Fin 320000) (j : Fin 64) : IsReal (hK I e j) := by
  rw [hK_eq_hR I hI]
  exact isReal_hR I hI e j

theorem aggK_eq_agg (hI : I.Finite) (n : Fin 10000) (f : Fin 128) : aggK I n f = agg I n f := by
  unfold aggK agg msg hsum deg
  have h1 : ∀ j : Fin 64, (∑ e ∈ Finset.univ.filter (fun e => I.col e = n), hK I e j) * I.w2 j f
      = ∑ e ∈ Finset.univ.filter (fun e => I.col e = n), hK I e j * I.w2 j f := fun j =>
    sum_mul_of_isReal _ _ _ (fun e _ => isReal_hK I hI e j) (hI.w2 j f)
  have h2 : (∑ _e ∈ Finset.univ.filter (fun e => I.col e = n), (1 : EReal)) * I.b2 f
      = ∑ _e ∈ Finset.univ.filter (fun e => I.col e = n), I.b2 f := by
    rw [sum_mul_of_isReal _ _ _ (fun _ _ => isReal_one) (hI.b2 f)]
    simp only [one_mul]
  simp only [h1]
  rw [h2, Finset.sum_comm, ← Finset.sum_add_distrib]
  refine Finset.sum_congr rfl fun e _ => ?_
  simp only [hK_eq_hR I hI]

theorem ui_lo (n : Fin 10000) (k : Fin 128) :
    ui I n ⟨k.val, by have := k.isLt; omega⟩ = I.nodes n k := by
  have hk := k.isLt
  simp only [ui, dif_pos hk]

theorem ui_hi (n : Fin 10000) (k : Fin 128) :
    ui I n ⟨128 + k.val, by have := k.isLt; omega⟩ = agg I n k := by
  have h1 : ¬ (128 + k.val < 128) := by omega
  simp only [ui, dif_neg h1]
  congr 1
  apply Fin.ext
  simp

theorem uK_eq_h2 (hI : I.Finite) (n : Fin 10000) (j : Fin 64) : uK I n j = h2 I n j := by
  unfold uK h2
  rw [sum_fin256_split]
  simp only [ui_lo, ui_hi, aggK_eq_agg I hI]

/-- Both layers are linear: the first splits over the blocks of the concatenation, the second moves across the sum over a node's edges, every summand being finite. -/
theorem ker_eq_ref (hI : I.Finite) (n : Fin 10000) (f : Fin 128) : outK I n f = out I n f := by
  unfold outK out
  simp only [uK_eq_h2 I hI]

end Cert.Spec

end
-- ==== Proof.SpecOf.lean ====
import proofs.«208460_g27728308863843_cont_9to1_469_33_alg».proof.Proof.Spec
import Idealize.ShloMosaic.Lib.ValueIdx

noncomputable section

namespace Cert.Spec

open Idealize.ShloMosaic Idealize.ShloMosaic.ValueIdx

structure Arrays where
  a0 : Vec Ideal (⟨2, ![10000, 128]⟩ : Shape) .f32
  a1 : Vec Ideal (⟨2, ![2, 320000]⟩ : Shape) .i32
  a2 : Vec Ideal (⟨2, ![320000, 16]⟩ : Shape) .f32
  a3 : Vec Ideal (⟨2, ![272, 64]⟩ : Shape) .f32
  a4 : Vec Ideal (⟨1, ![64]⟩ : Shape) .f32
  a5 : Vec Ideal (⟨2, ![64, 128]⟩ : Shape) .f32
  a6 : Vec Ideal (⟨1, ![128]⟩ : Shape) .f32
  a7 : Vec Ideal (⟨2, ![256, 64]⟩ : Shape) .f32
  a8 : Vec Ideal (⟨1, ![64]⟩ : Shape) .f32
  a9 : Vec Ideal (⟨2, ![64, 128]⟩ : Shape) .f32
  a10 : Vec Ideal (⟨1, ![128]⟩ : Shape) .f32

def Arrays.InRange (A : Arrays) : Prop := ∀ i, (A.a1 i).toNat < 10000

structure Arrays.Finite (A : Arrays) : Prop where
  a0 : ∀ i, ∃ r : ℝ, A.a0 i = (r : EReal)
  a2 : ∀ i, ∃ r : ℝ, A.a2 i = (r : EReal)
  a3 : ∀ i, ∃ r : ℝ, A.a3 i = (r : EReal)
  a4 : ∀ i, ∃ r : ℝ, A.a4 i = (r : EReal)
  a5 : ∀ i, ∃ r : ℝ, A.a5 i = (r : EReal)
  a6 : ∀ i, ∃ r : ℝ, A.a6 i = (r : EReal)
  a7 : ∀ i, ∃ r : ℝ, A.a7 i = (r : EReal)
  a8 : ∀ i, ∃ r : ℝ, A.a8 i = (r : EReal)
  a9 : ∀ i, ∃ r : ℝ, A.a9 i = (r : EReal)
  a10 : ∀ i, ∃ r : ℝ, A.a10 i = (r : EReal)

def Arrays.inputs (A : Arrays) (h : A.InRange) : Inputs where
  nodes n k := A.a0 (ix2 n k)
  row e := ⟨(A.a1 (ix2 (0 : Fin 2) e)).toNat, h _⟩
  col e := ⟨(A.a1 (ix2 (1 : Fin 2) e)).toNat, h _⟩
  ef e k := A.a2 (ix2 e k)
  w1 k j := A.a3 (ix2 k j)
  b1 j := A.a4 (ix1 j)
  w2 j f := A.a5 (ix2 j f)
  b2 f := A.a6 (ix1 f)
  u1 k j := A.a7 (ix2 k j)
  ub1 j := A.a8 (ix1 j)
  u2 j f := A.a9 (ix2 j f)
  ub2 f := A.a10 (ix1 f)

theorem Arrays.inputs_finite (A : Arrays) (h : A.InRange) (hf : A.Finite) : (A.inputs h).Finite :=
  ⟨fun _ _ => hf.a0 _, fun _ _ => hf.a2 _, fun _ _ => hf.a3 _, fun _ => hf.a4 _, fun _ _ => hf.a5 _, fun _ => hf.a6 _,
    fun _ _ => hf.a7 _, fun _ => hf.a8 _, fun _ _ => hf.a9 _, fun _ => hf.a10 _⟩

def Arrays.refOut (A : Arrays) (h : A.InRange) : Vec Ideal (⟨2, ![10000, 128]⟩ : Shape) .f32 := fun i => out (A.inputs h) (i 0) (i 1)

def Arrays.kerOut (A : Arrays) (h : A.InRange) : Vec Ideal (⟨2, ![10000, 128]⟩ : Shape) .f32 := fun i => outK (A.inputs h) (i 0) (i 1)

end Cert.Spec

end
-- ==== Proof.PreDecode.lean ====
import proofs.«208460_g27728308863843_cont_9to1_469_33_alg».proof.Pre_input_domain
import proofs.«208460_g27728308863843_cont_9to1_469_33_alg».proof.Proof.SpecOf
import Idealize.ShloMosaic.PureOps.Ideal
import Idealize.ShloMosaic.Lib.Affine
import Idealize.ShloMosaic.Lib.ReduceAll
import Idealize.ShloMosaic.Lib.ValueIdx

noncomputable section

namespace Cert.PreDecode

open Idealize.ShloMosaic Cert.Pre_input_domain

instance : Subsingleton S_.Idx := ⟨fun a b => funext fun d => d.elim0⟩

def AbsLtInf {F : FTy → Type} [FloatOps F] (x : F .f32) : Prop :=
  FloatOps.cmpf .olt (FloatOps.hostAbsf x) (FloatOps.ofBits .f32 0x7F800000#32) = 1#1

def WordInRange (w : BitVec 32) : Prop :=
  IntOp.cmpi .sge w 0#32 = 1#1 ∧ IntOp.cmpi .sle w 9999#32 = 1#1

theorem toNat_lt_of_wordInRange (w : BitVec 32) (h : WordInRange w) : w.toNat < 10000 := by
  obtain ⟨h0, h1⟩ := h
  rw [IntOp.cmpi_sge, show (0#32 : BitVec 32).toInt = 0 from by decide] at h0
  rw [IntOp.cmpi_sle, show (9999#32 : BitVec 32).toInt = 9999 from by decide] at h1
  have hw := w.isLt
  rw [BitVec.toInt_eq_toNat_cond] at h0 h1
  split at h0 <;> omega

theorem ofBits_inf : Ideal.ofBits .f32 0x7F800000#32 = (⊤ : EReal) := by
  simp [Ideal.ofBits, Ideal.ieee]

theorem real_of_absLtInf (x : EReal) (h : AbsLtInf (F := Ideal) x) : ∃ r : ℝ, x = (r : EReal) := by
  have h' : Ideal.cmp .olt (max x (-x)) (Ideal.ofBits .f32 0x7F800000#32) = 1#1 := h
  rw [ofBits_inf] at h'
  induction x using EReal.rec with
  | bot => exact absurd h' (by simp [Ideal.cmp])
  | top => exact absurd h' (by simp [Ideal.cmp])
  | coe r => exact ⟨r, rfl⟩

theorem absLtInf_of_reduce {F : FTy → Type} [FloatOps F] {s : Shape} {axes : List (Fin s.rank)} (x : FVec F s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant S_ .f32 0x7F800000#32)))
      (constantI S_ 1 1#1) hr h0 ValueIdx.ix0 = 1#1) (i : s.Idx) : AbsLtInf (x i) :=
  Host.reduce_andi_all _ _ hr h0 _ e i

theorem wordInRange_of_reduce {s : Shape} {axes : List (Fin s.rank)} (x : IVec s 32)
    (hb : S_.BroadcastsInDim s (![] : Fin 0 → Fin s.rank)) (hr : s.ReducesTo axes S_) (h0 : 0 < S_.numel)
    (e : Host.reduce IntOp.andi (andi (cmpi .sge x (broadcastInDim s ![] hb (constantI S_ 32 0#32)))
        (cmpi .sle x (broadcastInDim s ![] hb (constantI S_ 32 9999#32))))
      (constantI S_ 1 1#1) hr h0 ValueIdx.ix0 = 1#1) (i : s.Idx) : WordInRange (x i) :=
  IntOp.andi_eq_one.1 (Host.reduce_andi_all _ _ hr h0 _ e i)

theorem andi_apply {s : Shape} {w : Nat} (x y : IVec s w) (i : s.Idx) : andi x y i = IntOp.andi (x i) (y i) := rfl

/-- The input predicate at all ones says every float is below +∞ in absolute value and every edge endpoint lies in [0, 9999]. -/
theorem decode {F : FTy → Type} [FloatOps F] [Cert.Pre_input_domain.Facts] (a0 : FVec F Cert.Pre_input_domain.S10000x128 .f32) (a1 : IVec Cert.Pre_input_domain.S2x320000 32) (a2 : FVec F Cert.Pre_input_domain.S320000x16 .f32) (a3 : FVec F Cert.Pre_input_domain.S272x64 .f32) (a4 : FVec F Cert.Pre_input_domain.S64 .f32) (a5 : FVec F Cert.Pre_input_domain.S64x128 .f32) (a6 : FVec F Cert.Pre_input_domain.S128 .f32) (a7 : FVec F Cert.Pre_input_domain.S256x64 .f32) (a8 : FVec F Cert.Pre_input_domain.S64 .f32) (a9 : FVec F Cert.Pre_input_domain.S64x128 .f32) (a10 : FVec F Cert.Pre_input_domain.S128 .f32)
    (h : Cert.Pre_input_domain.fn (F := F) a0 a1 a2 a3 a4 a5 a6 a7 a8 a9 a10 = fun _ => 1#1) :
    (∀ i, AbsLtInf (a0 i)) ∧ (∀ i, AbsLtInf (a2 i)) ∧ (∀ i, AbsLtInf (a3 i)) ∧ (∀ i, AbsLtInf (a4 i)) ∧ (∀ i, AbsLtInf (a5 i))
      ∧ (∀ i, AbsLtInf (a6 i)) ∧ (∀ i, AbsLtInf (a7 i)) ∧ (∀ i, AbsLtInf (a8 i)) ∧ (∀ i, AbsLtInf (a9 i)) ∧ (∀ i, AbsLtInf (a10 i))
      ∧ (∀ i, WordInRange (a1 i)) := by
  have e := congrFun h ValueIdx.ix0
  dsimp only [fn, fn_part1, fn_part2, fn_part3] at e
  simp only [andi_apply, IntOp.andi_eq_one] at e
  obtain ⟨⟨⟨⟨⟨⟨⟨⟨⟨⟨h0, h2⟩, h3⟩, h4⟩, h5⟩, h6⟩, h7⟩, h8⟩, h9⟩, h10⟩, h1⟩ := e
  exact ⟨absLtInf_of_reduce _ _ _ _ h0, absLtInf_of_reduce _ _ _ _ h2, absLtInf_of_reduce _ _ _ _ h3, absLtInf_of_reduce _ _ _ _ h4,
    absLtInf_of_reduce _ _ _ _ h5, absLtInf_of_reduce _ _ _ _ h6, absLtInf_of_reduce _ _ _ _ h7, absLtInf_of_reduce _ _ _ _ h8,
    absLtInf_of_reduce _ _ _ _ h9, absLtInf_of_reduce _ _ _ _ h10, wordInRange_of_reduce _ _ _ _ h1⟩

theorem inRange {F : FTy → Type} [FloatOps F] [Cert.Pre_input_domain.Facts] (a0 : FVec F Cert.Pre_input_domain.S10000x128 .f32) (a1 : IVec Cert.Pre_input_domain.S2x320000 32) (a2 : FVec F Cert.Pre_input_domain.S320000x16 .f32) (a3 : FVec F Cert.Pre_input_domain.S272x64 .f32) (a4 : FVec F Cert.Pre_input_domain.S64 .f32) (a5 : FVec F Cert.Pre_input_domain.S64x128 .f32) (a6 : FVec F Cert.Pre_input_domain.S128 .f32) (a7 : FVec F Cert.Pre_input_domain.S256x64 .f32) (a8 : FVec F Cert.Pre_input_domain.S64 .f32) (a9 : FVec F Cert.Pre_input_domain.S64x128 .f32) (a10 : FVec F Cert.Pre_input_domain.S128 .f32)
    (h : Cert.Pre_input_domain.fn (F := F) a0 a1 a2 a3 a4 a5 a6 a7 a8 a9 a10 = fun _ => 1#1) : ∀ i, (a1 i).toNat < 10000 :=
  fun i => toNat_lt_of_wordInRange _ ((decode a0 a1 a2 a3 a4 a5 a6 a7 a8 a9 a10 h).2.2.2.2.2.2.2.2.2.2 i)

theorem finite [Cert.Pre_input_domain.Facts] (A : Cert.Spec.Arrays) (h : Cert.Pre_input_domain.fn (F := Ideal) A.a0 A.a1 A.a2 A.a3 A.a4 A.a5 A.a6 A.a7 A.a8 A.a9 A.a10 = fun _ => 1#1) : A.Finite := by
  obtain ⟨h0, h2, h3, h4, h5, h6, h7, h8, h9, h10, -⟩ := decode (F := Ideal) A.a0 A.a1 A.a2 A.a3 A.a4 A.a5 A.a6 A.a7 A.a8 A.a9 A.a10 h
  exact ⟨fun i => real_of_absLtInf _ (h0 i), fun i => real_of_absLtInf _ (h2 i), fun i => real_of_absLtInf _ (h3 i),
    fun i => real_of_absLtInf _ (h4 i), fun i => real_of_absLtInf _ (h5 i), fun i => real_of_absLtInf _ (h6 i),
    fun i => real_of_absLtInf _ (h7 i), fun i => real_of_absLtInf _ (h8 i), fun i => real_of_absLtInf _ (h9 i),
    fun i => real_of_absLtInf _ (h10 i)⟩

theorem inRange_arrays [Cert.Pre_input_domain.Facts] (A : Cert.Spec.Arrays) (h : Cert.Pre_input_domain.fn (F := Ideal) A.a0 A.a1 A.a2 A.a3 A.a4 A.a5 A.a6 A.a7 A.a8 A.a9 A.a10 = fun _ => 1#1) : A.InRange :=
  inRange (F := Ideal) A.a0 A.a1 A.a2 A.a3 A.a4 A.a5 A.a6 A.a7 A.a8 A.a9 A.a10 h

end Cert.PreDecode

end
-- ==== Proof.KSetup.lean ====
import proofs.«208460_g27728308863843_cont_9to1_469_33_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Pipeline.FrameBody
import Idealize.ShloMosaic.Lib.Pipeline.FrameSuffix
import Idealize.ShloMosaic.Lib.Tactic
import proofs.«208460_g27728308863843_cont_9to1_469_33_alg».proof.Proof.Gen.KernelIdeal
import proofs.«208460_g27728308863843_cont_9to1_469_33_alg».proof.Proof.Gen.KernelIdeal.Skeleton
import proofs.«208460_g27728308863843_cont_9to1_469_33_alg».proof.Proof.Gen.KernelIdeal.Launch
import proofs.«208460_g27728308863843_cont_9to1_469_33_alg».proof.Proof.Gen.KernelIdeal.Points

noncomputable section

namespace Cert.KernelIdeal.KProof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 4) fun p => (pcfgs (F := F) p).Adm

abbrev K : SparseCore.Cfg τ sig (ΛP (F := F)) 1 := sc (F := F)
theorem nCore_zero : (K (F := F)).nCore 0 = 2 := rfl
theorem nSub_zero : (K (F := F)).nSub 0 = 16 := rfl

abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev adm : (p : Fin 4) → (pcfgs (F := F) p).Adm := fun p => (cfgs p).toPCfg_adm

abbrev UH : Type := URounds (GSem nD τ sig) ℕ

abbrev UP : Type := URounds (GSem nD τ sig) Unit
abbrev UU : Type := UH × (UP × Counters)

abbrev EH : Emb UH (MT nD τ sig (HIx 1) (Elt F) ℕ UU ℕ) := embL

def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.KernelIdeal.KProof

end
-- ==== Proof.KPay.lean ====
import proofs.«208460_g27728308863843_cont_9to1_469_33_alg».proof.Proof.KSetup
import Idealize.ShloMosaic.Lib.ValueIdx

noncomputable section

namespace Cert.KernelIdeal.KProof

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

def nch (w : ℕ) : ℕ := if w < 4 then 79 else 78

def base (w : ℕ) : ℕ := 78 * w + min w 4

def wid (c : Fin 2) (i : Fin 16) : ℕ := 2 * i.val + c.val

def rowsOf (w : ℕ) : Finset S320000x128.Idx :=
  Finset.univ.filter fun j => 128 * base w ≤ (j 0).val ∧ (j 0).val < 128 * (base w + nch w)

theorem mem_rowsOf {w : ℕ} {j : S320000x128.Idx} : j ∈ rowsOf w ↔ 128 * base w ≤ (j 0).val ∧ (j 0).val < 128 * (base w + nch w) := by
  simp [rowsOf]

def coreRows (c : Fin 2) : Finset S320000x128.Idx := Finset.univ.biUnion fun i : Fin 16 => rowsOf (wid c i)

def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

def half (c : Fin 2) : PosShare TreeShare := if c.val = 0 then fullShare.left else fullShare.right

def tq (c : Fin 2) (i : Fin 16) : PosShare TreeShare := leaf 4 (half c) i

abbrev rLoc (d : Dev nD) : Loc nD τ sig := (SparseCore.T d).loc main_v3
abbrev cLoc (d : Dev nD) : Loc nD τ sig := (SparseCore.T d).loc main_v7
abbrev aLoc (d : Dev nD) : Loc nD τ sig := (SparseCore.T d).loc main_v19_0
abbrev bLoc (d : Dev nD) : Loc nD τ sig := (SparseCore.T d).loc main_v19_1
abbrev sLoc (d : Dev nD) : Loc nD τ sig := (SparseCore.T d).loc main_v21_0
abbrev gLoc (d : Dev nD) : Loc nD τ sig := (SparseCore.T d).loc main_v21_1

def Gath (tab : Vec F S10000x128 .f32) (lst : Vec F S320128 .i32) (f : Vec F S320000x128 .f32) (j : S320000x128.Idx) : Prop :=
  ∀ h : (lst (ix1 (⟨(j 0).val, Nat.lt_trans (idx2_lt0 j) (by decide)⟩ : Fin 320128))).toNat < 10000,
    f j = tab (ix2 (⟨_, h⟩ : Fin 10000) (⟨(j 1).val, idx2_lt1 j⟩ : Fin 128))

theorem Gath_congr {tab : Vec F S10000x128 .f32} {lst : Vec F S320128 .i32} {f f' : Vec F S320000x128 .f32} {j : S320000x128.Idx}
    (e : f' j = f j) (h : Gath tab lst f j) : Gath tab lst f' j :=
  fun hh => e.trans (h hh)

structure CallVals (F : FTy → Type) (d : Dev nD) where
  rA : Buf (Elt F) (rLoc d)
  cA : Buf (Elt F) (cLoc d)
  aT : Buf (Elt F) (aLoc d)
  bT : Buf (Elt F) (bLoc d)
  s0 : Buf (Elt F) (sLoc d)
  g0 : Buf (Elt F) (gLoc d)

variable (X : (d : Dev nD) → CallVals F d)

abbrev inPts (d : Dev nD) (q : PosShare TreeShare) : sProp 𝕄 :=
  iprop((rLoc d ↦{q} (X d).rA) ∗ (cLoc d ↦{q} (X d).cA) ∗ (aLoc d ↦{q} (X d).aT) ∗ (bLoc d ↦{q} (X d).bT))

abbrev outPts (d : Dev nD) (R : Finset S320000x128.Idx) (fs : Buf (Elt F) (sLoc d)) (fg : Buf (Elt F) (gLoc d)) : sProp 𝕄 :=
  iprop((sLoc d ↦[R]{fullShare} fs) ∗ (gLoc d ↦[R]{fullShare} fg))

def outDone (d : Dev nD) (R : Finset S320000x128.Idx) : sProp 𝕄 :=
  iprop(∃ fs fg, outPts d R fs fg ∗ ⌜∀ j ∈ R, Gath (F := F) (X d).aT (X d).rA fs j ∧ Gath (F := F) (X d).bT (X d).cA fg j⌝)

set_option synthInstance.maxHeartbeats 400000 in
instance outDone_storable (d : Dev nD) (R : Finset S320000x128.Idx) : BI.Storable (upEmb : UEmb _ 𝕄) (outDone X d R) := by
  unfold outDone; infer_instance

def P : (K (F := F)).Pay (nD := nD) (Val := Elt F) (Name := ℕ) (U := UU) where
  st := fun q d c => match q with
    | 0 => iprop(inPts X d (half (Fin.cast nCore_zero c)) ∗ outPts d (coreRows (Fin.cast nCore_zero c)) (X d).s0 (X d).g0)
  dn := fun q d c => match q with
    | 0 => iprop(inPts X d (half (Fin.cast nCore_zero c)) ∗ outDone X d (coreRows (Fin.cast nCore_zero c)))
  go := fun q d c i => match q with
    | 0 => iprop(inPts X d (tq (Fin.cast nCore_zero c) (Fin.cast nSub_zero i))
        ∗ outPts d (rowsOf (wid (Fin.cast nCore_zero c) (Fin.cast nSub_zero i))) (X d).s0 (X d).g0)
  td := fun q d c i => match q with
    | 0 => iprop(inPts X d (tq (Fin.cast nCore_zero c) (Fin.cast nSub_zero i))
        ∗ outDone X d (rowsOf (wid (Fin.cast nCore_zero c) (Fin.cast nSub_zero i))))
  x := fun _ _ => iprop(emp)

instance P_storable : (P (F := F) X).IsStorable where
  st q d c := match q with
    | 0 => (inferInstance : BI.Storable (upEmb : UEmb _ 𝕄)
      iprop(inPts X d (half (Fin.cast nCore_zero c)) ∗ outPts d (coreRows (Fin.cast nCore_zero c)) (X d).s0 (X d).g0))
  dn q d c := match q with
    | 0 => (inferInstance : BI.Storable (upEmb : UEmb _ 𝕄)
      iprop(inPts X d (half (Fin.cast nCore_zero c)) ∗ outDone X d (coreRows (Fin.cast nCore_zero c))))
  go q d c i := match q with
    | 0 => (inferInstance : BI.Storable (upEmb : UEmb _ 𝕄)
      iprop(inPts X d (tq (Fin.cast nCore_zero c) (Fin.cast nSub_zero i))
        ∗ outPts d (rowsOf (wid (Fin.cast nCore_zero c) (Fin.cast nSub_zero i))) (X d).s0 (X d).g0))
  td q d c i := match q with
    | 0 => (inferInstance : BI.Storable (upEmb : UEmb _ 𝕄)
      iprop(inPts X d (tq (Fin.cast nCore_zero c) (Fin.cast nSub_zero i))
        ∗ outDone X d (rowsOf (wid (Fin.cast nCore_zero c) (Fin.cast nSub_zero i)))))

end Cert.KernelIdeal.KProof

end
-- ==== Proof.KOps.lean ====
/- The host operations of the printed @main before its first call (24) and between its fourth and fifth call (36), as lists, in order; the terms are the printed ones. -/
import proofs.«208460_g27728308863843_cont_9to1_469_33_alg».proof.KernelIdeal
import Idealize.ShloMosaic.Lib.StableHlo.Run

noncomputable section

namespace Cert.KernelIdeal.KProof

open Cert.KernelIdeal
open Idealize.ShloMosaic Idealize.SL.Sem

variable {F : FTy → Type} [FloatOps F] [Facts]
open Facts₀ Facts

/-- The host operations before the first pallas_call: the padded edge lists and the padded first-layer weights. -/
def opsA : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.nullary main_c (constantI S_ 32 0#32),
    StableHlo.unary main_c main_v2 (broadcastInDim S128 ![] bcast_S_S128 : (⟨S_, .i32⟩ : BufTy).Contents (Elt F) → (⟨S128, .i32⟩ : BufTy).Contents (Elt F)),
    StableHlo.binary main_v1 main_v2 main_v3 ((fun a b => concatenate S320128 0 [⟨S320000, a⟩, ⟨S128, b⟩] concatenates_S320000_S128_S320128_d0) : (⟨S320000, .i32⟩ : BufTy).Contents (Elt F) → (⟨S128, .i32⟩ : BufTy).Contents (Elt F) → (⟨S320128, .i32⟩ : BufTy).Contents (Elt F)),
    StableHlo.unary main_arg1 main_v4 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v4 main_v5 rfl shapeCasts_S1x320000_S320000,
    StableHlo.nullary main_c_0 (constantI S_ 32 0#32),
    StableHlo.unary main_c_0 main_v6 (broadcastInDim S128 ![] bcast_S_S128 : (⟨S_, .i32⟩ : BufTy).Contents (Elt F) → (⟨S128, .i32⟩ : BufTy).Contents (Elt F)),
    StableHlo.binary main_v5 main_v6 main_v7 ((fun a b => concatenate S320128 0 [⟨S320000, a⟩, ⟨S128, b⟩] concatenates_S320000_S128_S320128_d0) : (⟨S320000, .i32⟩ : BufTy).Contents (Elt F) → (⟨S128, .i32⟩ : BufTy).Contents (Elt F) → (⟨S320128, .i32⟩ : BufTy).Contents (Elt F)),
    StableHlo.nullary main_cst (constant S_ .f32 0x00000000#32),
    StableHlo.unary main_cst main_v8 (broadcastInDim S128x64 ![] bcast_S_S128x64 : (⟨S_, .f32⟩ : BufTy).Contents (Elt F) → (⟨S128x64, .f32⟩ : BufTy).Contents (Elt F)),
    StableHlo.unary main_arg3 main_v9 ((extractStridedSlice S128x64 ![0, 0] · slices_S272x64_S128x64_0_0) : (⟨S272x64, .f32⟩ : BufTy).Contents (Elt F) → (⟨S128x64, .f32⟩ : BufTy).Contents (Elt F)),
    StableHlo.binary main_v9 main_v8 main_v10 ((fun a b => concatenate S128x128 1 [⟨S128x64, a⟩, ⟨S128x64, b⟩] concatenates_S128x64_S128x64_S128x128_d1) : (⟨S128x64, .f32⟩ : BufTy).Contents (Elt F) → (⟨S128x64, .f32⟩ : BufTy).Contents (Elt F) → (⟨S128x128, .f32⟩ : BufTy).Contents (Elt F)),
    StableHlo.unary main_arg3 main_v11 ((extractStridedSlice S128x64 ![128, 0] · slices_S272x64_S128x64_128_0) : (⟨S272x64, .f32⟩ : BufTy).Contents (Elt F) → (⟨S128x64, .f32⟩ : BufTy).Contents (Elt F)),
    StableHlo.binary main_v11 main_v8 main_v12 ((fun a b => concatenate S128x128 1 [⟨S128x64, a⟩, ⟨S128x64, b⟩] concatenates_S128x64_S128x64_S128x128_d1) : (⟨S128x64, .f32⟩ : BufTy).Contents (Elt F) → (⟨S128x64, .f32⟩ : BufTy).Contents (Elt F) → (⟨S128x128, .f32⟩ : BufTy).Contents (Elt F)),
    StableHlo.unary main_arg3 main_v13 ((extractStridedSlice S16x64 ![256, 0] · slices_S272x64_S16x64_256_0) : (⟨S272x64, .f32⟩ : BufTy).Contents (Elt F) → (⟨S16x64, .f32⟩ : BufTy).Contents (Elt F)),
    StableHlo.nullary main_cst_1 (constant S_ .f32 0x00000000#32),
    StableHlo.unary main_cst_1 main_v14 (broadcastInDim S16x64 ![] bcast_S_S16x64 : (⟨S_, .f32⟩ : BufTy).Contents (Elt F) → (⟨S16x64, .f32⟩ : BufTy).Contents (Elt F)),
    StableHlo.binary main_v13 main_v14 main_v15 ((fun a b => concatenate S16x128 1 [⟨S16x64, a⟩, ⟨S16x64, b⟩] concatenates_S16x64_S16x64_S16x128_d1) : (⟨S16x64, .f32⟩ : BufTy).Contents (Elt F) → (⟨S16x64, .f32⟩ : BufTy).Contents (Elt F) → (⟨S16x128, .f32⟩ : BufTy).Contents (Elt F)),
    StableHlo.nullary main_cst_2 (constant S_ .f32 0x00000000#32),
    StableHlo.unary main_cst_2 main_v16 (broadcastInDim S64 ![] bcast_S_S64 : (⟨S_, .f32⟩ : BufTy).Contents (Elt F) → (⟨S64, .f32⟩ : BufTy).Contents (Elt F)),
    StableHlo.binary main_arg4 main_v16 main_v17 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    StableHlo.unary main_v17 main_v18 (broadcastInDim S1x128 ![1] bcast_S128_S1x128_1 : (⟨S128, .f32⟩ : BufTy).Contents (Elt F) → (⟨S1x128, .f32⟩ : BufTy).Contents (Elt F)) ]

/-- The host operations between the edge activation and the node update: the two scatter-adds and the operands they and the update take. -/
def opsB : List (HloOp τ sig (Elt F)) :=
  [ StableHlo.unary main_arg1 main_v23 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v23 main_v24 rfl shapeCasts_S1x320000_S320000,
    StableHlo.nullary main_cst_3 (constant S_ .f32 0x00000000#32),
    StableHlo.unary main_cst_3 main_v25 (broadcastInDim S10000x64 ![] bcast_S_S10000x64 : (⟨S_, .f32⟩ : BufTy).Contents (Elt F) → (⟨S10000x64, .f32⟩ : BufTy).Contents (Elt F)),
    StableHlo.nullary main_c_4 (constantI S_ 32 0#32),
    StableHlo.unary main_c_4 main_v26 (broadcastInDim S320000 ![] bcast_S_S320000 : (⟨S_, .i32⟩ : BufTy).Contents (Elt F) → (⟨S320000, .i32⟩ : BufTy).Contents (Elt F)),
    StableHlo.binary main_v24 main_v26 main_v27 (cmpi .slt : (⟨S320000, .i32⟩ : BufTy).Contents (Elt F) → (⟨S320000, .i32⟩ : BufTy).Contents (Elt F) → (⟨S320000, .i1⟩ : BufTy).Contents (Elt F)),
    StableHlo.nullary main_c_5 (constantI S_ 32 10000#32),
    StableHlo.unary main_c_5 main_v28 (broadcastInDim S320000 ![] bcast_S_S320000 : (⟨S_, .i32⟩ : BufTy).Contents (Elt F) → (⟨S320000, .i32⟩ : BufTy).Contents (Elt F)),
    StableHlo.binary main_v24 main_v28 main_v29 (addi : (⟨S320000, .i32⟩ : BufTy).Contents (Elt F) → (⟨S320000, .i32⟩ : BufTy).Contents (Elt F) → (⟨S320000, .i32⟩ : BufTy).Contents (Elt F)),
    StableHlo.ternary main_v27 main_v29 main_v24 main_v30 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v30 main_v31 (broadcastInDim S320000x1 ![0] bcast_S320000_S320000x1_0 : (⟨S320000, .i32⟩ : BufTy).Contents (Elt F) → (⟨S320000x1, .i32⟩ : BufTy).Contents (Elt F)),
    StableHlo.ternary main_v25 main_v31 main_v22 main_v32 ((fun x i u => Host.scatterAdd scatter_S10000x64_S320000x1_S320000x64_1_0_0_1 x i u) : (⟨S10000x64, .f32⟩ : BufTy).Contents (Elt F) → (⟨S320000x1, .i32⟩ : BufTy).Contents (Elt F) → (⟨S320000x64, .f32⟩ : BufTy).Contents (Elt F) → (⟨S10000x64, .f32⟩ : BufTy).Contents (Elt F)),
    StableHlo.nullary main_cst_6 (constant S_ .f32 0x00000000#32),
    StableHlo.unary main_cst_6 main_v33 (broadcastInDim S10000x1 ![] bcast_S_S10000x1 : (⟨S_, .f32⟩ : BufTy).Contents (Elt F) → (⟨S10000x1, .f32⟩ : BufTy).Contents (Elt F)),
    StableHlo.nullary main_c_7 (constantI S_ 32 0#32),
    StableHlo.unary main_c_7 main_v34 (broadcastInDim S320000 ![] bcast_S_S320000 : (⟨S_, .i32⟩ : BufTy).Contents (Elt F) → (⟨S320000, .i32⟩ : BufTy).Contents (Elt F)),
    StableHlo.binary main_v24 main_v34 main_v35 (cmpi .slt : (⟨S320000, .i32⟩ : BufTy).Contents (Elt F) → (⟨S320000, .i32⟩ : BufTy).Contents (Elt F) → (⟨S320000, .i1⟩ : BufTy).Contents (Elt F)),
    StableHlo.nullary main_c_8 (constantI S_ 32 10000#32),
    StableHlo.unary main_c_8 main_v36 (broadcastInDim S320000 ![] bcast_S_S320000 : (⟨S_, .i32⟩ : BufTy).Contents (Elt F) → (⟨S320000, .i32⟩ : BufTy).Contents (Elt F)),
    StableHlo.binary main_v24 main_v36 main_v37 (addi : (⟨S320000, .i32⟩ : BufTy).Contents (Elt F) → (⟨S320000, .i32⟩ : BufTy).Contents (Elt F) → (⟨S320000, .i32⟩ : BufTy).Contents (Elt F)),
    StableHlo.ternary main_v35 main_v37 main_v24 main_v38 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.nullary main_c_9 (constantI S_ 32 0#32),
    StableHlo.unary main_c_9 main_v39 (broadcastInDim S320000 ![] bcast_S_S320000 : (⟨S_, .i32⟩ : BufTy).Contents (Elt F) → (⟨S320000, .i32⟩ : BufTy).Contents (Elt F)),
    StableHlo.unary main_v39 main_v40 (id : (⟨S320000, .i32⟩ : BufTy).Contents (Elt F) → (⟨S320000, .i32⟩ : BufTy).Contents (Elt F)),
    StableHlo.unary main_v38 main_v41 (broadcastInDim S320000x1 ![0] bcast_S320000_S320000x1_0 : (⟨S320000, .i32⟩ : BufTy).Contents (Elt F) → (⟨S320000x1, .i32⟩ : BufTy).Contents (Elt F)),
    StableHlo.unary main_v40 main_v42 (broadcastInDim S320000x1 ![0] bcast_S320000_S320000x1_0 : (⟨S320000, .i32⟩ : BufTy).Contents (Elt F) → (⟨S320000x1, .i32⟩ : BufTy).Contents (Elt F)),
    StableHlo.binary main_v41 main_v42 main_v43 ((fun a b => concatenate S320000x2 1 [⟨S320000x1, a⟩, ⟨S320000x1, b⟩] concatenates_S320000x1_S320000x1_S320000x2_d1) : (⟨S320000x1, .i32⟩ : BufTy).Contents (Elt F) → (⟨S320000x1, .i32⟩ : BufTy).Contents (Elt F) → (⟨S320000x2, .i32⟩ : BufTy).Contents (Elt F)),
    StableHlo.nullary main_cst_10 (constant S_ .f32 0x3F800000#32),
    StableHlo.unary main_cst_10 main_v44 (broadcastInDim S320000 ![] bcast_S_S320000 : (⟨S_, .f32⟩ : BufTy).Contents (Elt F) → (⟨S320000, .f32⟩ : BufTy).Contents (Elt F)),
    StableHlo.ternary main_v33 main_v43 main_v44 main_v45 ((fun x i u => Host.scatterAdd scatter_S10000x1_S320000x2_S320000_n_01_01_1 x i u) : (⟨S10000x1, .f32⟩ : BufTy).Contents (Elt F) → (⟨S320000x2, .i32⟩ : BufTy).Contents (Elt F) → (⟨S320000, .f32⟩ : BufTy).Contents (Elt F) → (⟨S10000x1, .f32⟩ : BufTy).Contents (Elt F)),
    StableHlo.unary main_arg6 main_v46 (broadcastInDim S1x128 ![1] bcast_S128_S1x128_1 : (⟨S128, .f32⟩ : BufTy).Contents (Elt F) → (⟨S1x128, .f32⟩ : BufTy).Contents (Elt F)),
    StableHlo.unary main_arg7 main_v47 ((extractStridedSlice S128x64 ![0, 0] · slices_S256x64_S128x64_0_0) : (⟨S256x64, .f32⟩ : BufTy).Contents (Elt F) → (⟨S128x64, .f32⟩ : BufTy).Contents (Elt F)),
    StableHlo.unary main_arg7 main_v48 ((extractStridedSlice S128x64 ![128, 0] · slices_S256x64_S128x64_128_0) : (⟨S256x64, .f32⟩ : BufTy).Contents (Elt F) → (⟨S128x64, .f32⟩ : BufTy).Contents (Elt F)),
    StableHlo.unary main_arg8 main_v49 (broadcastInDim S1x64 ![1] bcast_S64_S1x64_1 : (⟨S64, .f32⟩ : BufTy).Contents (Elt F) → (⟨S1x64, .f32⟩ : BufTy).Contents (Elt F)),
    StableHlo.unary main_arg10 main_v50 (broadcastInDim S1x128 ![1] bcast_S128_S1x128_1 : (⟨S128, .f32⟩ : BufTy).Contents (Elt F) → (⟨S1x128, .f32⟩ : BufTy).Contents (Elt F)) ]

end Cert.KernelIdeal.KProof

end
-- ==== Proof.Region0.lean ====
import proofs.«208460_g27728308863843_cont_9to1_469_33_alg».proof.Proof.KSetup
import Idealize.ShloMosaic.Lib.Pipeline.FrameBody
import Idealize.ShloMosaic.Lib.Pipeline.Frame
import Idealize.ShloMosaic.Lib.Tactic

set_option maxRecDepth 16384

noncomputable section

namespace Cert.KernelIdeal.KProof

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

def out0_3 (x0 : Vec F S2000x128 .f32) (x1 : Vec F S128x128 .f32) (x2 : Vec F S128x128 .f32) : Vec F S2000x128 .f32 :=
  View.canon [⟨r0_0, k0_pay1 (View.ld x0 r0_0) (View.ld x1 r0_1)⟩]

theorem cover0_3 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

def out0_4 (x0 : Vec F S2000x128 .f32) (x1 : Vec F S128x128 .f32) (x2 : Vec F S128x128 .f32) : Vec F S2000x128 .f32 :=
  View.canon [⟨r0_0, k0_pay2 (View.ld x0 r0_0) (View.ld x2 r0_1)⟩]

theorem cover0_4 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

set_option maxHeartbeats 1000000 in

theorem sound_kernel0 (c : Dev nD) (E : Set ℕ) (i : grid0.Coords)
    (arg1 : Memref sig .tc .vmem S2000x128 .f32) (harg1 : arg1.IsWhole)
    (arg2 : Memref sig .tc .vmem S128x128 .f32) (harg2 : arg2.IsWhole)
    (arg3 : Memref sig .tc .vmem S128x128 .f32) (harg3 : arg3.IsWhole)
    (arg4 : Memref sig .tc .vmem S2000x128 .f32) (harg4 : arg4.IsWhole)
    (arg5 : Memref sig .tc .vmem S2000x128 .f32) (harg5 : arg5.IsWhole)
    (x0 : Vec F S2000x128 .f32) (x1 : Vec F S128x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__prep_ab_body i arg1 harg1 arg2 harg2 arg3 harg3 arg4 harg4 arg5 harg5) K := by
  simp only [cc0__prep_ab_body_eq_skeleton]; unfold cc0__prep_ab_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

def dat0 (O : CellTallies nD τ sig (HIx 1)) (B : Set (SemLoc sig × HIx 1)) (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := iprop(Pipeline.scopedRest (Ix := HIx 1) (Name := ℕ) (U := UU) (Lvl := ℕ) (Val := Elt F) spec0 c ∗ ∃ r, prngReg c r)
  q _ := fullShare
  owed _ := O
  recorded _ := B

theorem A_eq0 (O : CellTallies nD τ sig (HIx 1)) (B : Set (SemLoc sig × HIx 1)) (c : Dev nD) (w : Fin cfg0.W) : (dat0 V O B c).A w = V c (Pipeline.arrRef spec0 w) := by
  dsimp only [dat0]

theorem after0_0 (O : CellTallies nD τ sig (HIx 1)) (B : Set (SemLoc sig × HIx 1)) (c : Dev nD) (t : Fin cfg0.N) : (dat0 V O B c).after 0 t = iblk0 V c 0 t := by dsimp only [dat0]
theorem after0_1 (O : CellTallies nD τ sig (HIx 1)) (B : Set (SemLoc sig × HIx 1)) (c : Dev nD) (t : Fin cfg0.N) : (dat0 V O B c).after 1 t = iblk0 V c 1 t := by dsimp only [dat0]
theorem after0_2 (O : CellTallies nD τ sig (HIx 1)) (B : Set (SemLoc sig × HIx 1)) (c : Dev nD) (t : Fin cfg0.N) : (dat0 V O B c).after 2 t = iblk0 V c 2 t := by dsimp only [dat0]
theorem after0_3 (O : CellTallies nD τ sig (HIx 1)) (B : Set (SemLoc sig × HIx 1)) (c : Dev nD) (t : Fin cfg0.N) :
    (dat0 V O B c).after 3 t = out0_3 (iblk0 V c 0 t) (iblk0 V c 1 t) (iblk0 V c 2 t) := by dsimp only [dat0]
theorem after0_4 (O : CellTallies nD τ sig (HIx 1)) (B : Set (SemLoc sig × HIx 1)) (c : Dev nD) (t : Fin cfg0.N) :
    (dat0 V O B c).after 4 t = out0_4 (iblk0 V c 0 t) (iblk0 V c 1 t) (iblk0 V c 2 t) := by dsimp only [dat0]

theorem before0_0 (O : CellTallies nD τ sig (HIx 1)) (B : Set (SemLoc sig × HIx 1)) (c : Dev nD) (t : Fin cfg0.N) (d) : (dat0 V O B c).before 0 t d = iblk0 V c 0 t :=
  before0_0_of V (dat0 V O B c) (A_eq0 V O B c 0) (after0_0 V O B c) t d
theorem before0_1 (O : CellTallies nD τ sig (HIx 1)) (B : Set (SemLoc sig × HIx 1)) (c : Dev nD) (t : Fin cfg0.N) (d) : (dat0 V O B c).before 1 t d = iblk0 V c 1 t :=
  before0_1_of V (dat0 V O B c) (A_eq0 V O B c 1) (after0_1 V O B c) t d
theorem before0_2 (O : CellTallies nD τ sig (HIx 1)) (B : Set (SemLoc sig × HIx 1)) (c : Dev nD) (t : Fin cfg0.N) (d) : (dat0 V O B c).before 2 t d = iblk0 V c 2 t :=
  before0_2_of V (dat0 V O B c) (A_eq0 V O B c 2) (after0_2 V O B c) t d

def bodyPre0 (O : CellTallies nD τ sig (HIx 1)) (B : Set (SemLoc sig × HIx 1)) (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d))
    ∗ (∃ d, owns (c : Thread nD τ) (st0_3 t) fullShare ((dat0 V O B c).before 3 t d))
    ∗ (∃ d, owns (c : Thread nD τ) (st0_4 t) fullShare ((dat0 V O B c).before 4 t d)))

def bodyPost0 (O : CellTallies nD τ sig (HIx 1)) (B : Set (SemLoc sig × HIx 1)) (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t)
    ∗ owns (c : Thread nD τ) (st0_3 t) fullShare ((dat0 V O B c).after 3 t)
    ∗ owns (c : Thread nD τ) (st0_4 t) fullShare ((dat0 V O B c).after 4 t))

theorem sound_body0 (O : CellTallies nD τ sig (HIx 1)) (B : Set (SemLoc sig × HIx 1)) (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1, before0_2]
  rw [show (dat0 V O B c).Φ t.succ = (dat0 V O B c).Φ t.castSucc from rfl,
    show (dat0 V O B c).owesAt none t.succ = (dat0 V O B c).owesAt none t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (O : CellTallies nD τ sig (HIx 1)) (B : Set (SemLoc sig × HIx 1)) (c : Dev nD) :
    BodyObligation (dat0 (F := F) V O B c) (defs₀ (F := F)) Variants.none (none : HIx 1) Set.univ := fun t => by
  rw [bigSep_W0, bigSep_W0]
  exact sound_body0 V O B c t

end Cert.KernelIdeal.KProof

end
-- ==== Proof.Region1.lean ====
import proofs.«208460_g27728308863843_cont_9to1_469_33_alg».proof.Proof.KSetup
import Idealize.ShloMosaic.Lib.Pipeline.FrameBody
import Idealize.ShloMosaic.Lib.Writes
import Idealize.ShloMosaic.Lib.Tactic

set_option maxRecDepth 16384

noncomputable section

namespace Cert.KernelIdeal.KProof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) (HIx 1) ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x16 := Rect.unit (s := S10000x16) ![0, 0] S10000x16.size inb_S10000x16_S10000x16_0_0
abbrev r1_1 : Rect S16x128 := Rect.unit (s := S16x128) ![0, 0] S16x128.size inb_S16x128_S16x128_0_0
abbrev r1_2 : Rect S1x128 := Rect.unit (s := S1x128) ![0, 0] S1x128.size inb_S1x128_S1x128_0_0
abbrev r1_3 : Rect S10000x128 := Rect.unit (s := S10000x128) ![0, 0] S10000x128.size inb_S10000x128_S10000x128_0_0

def out1_3 (x0 : Vec F S10000x16 .f32) (x1 : Vec F S16x128 .f32) (x2 : Vec F S1x128 .f32) : Vec F S10000x128 .f32 :=
  View.canon [⟨r1_3, k1_pay1 (View.ld x0 r1_0) (View.ld x1 r1_1) (View.ld x2 r1_2)⟩]

theorem cover1_3 (p0 : Vec F S10000x128 .f32) (y : S10000x128.Idx) :
    ∃ pc ∈ ([⟨r1_3, p0⟩] : List (View.Piece (Elt F) S10000x128 .f32)), y ∈ pc.1.set :=
  View.cover_of_tiled [⟨r1_3, p0⟩] S10000x128.size (by rfl) y

set_option maxHeartbeats 1000000 in

theorem sound_kernel1 (c : Dev nD) (E : Set ℕ) (i : grid1.Coords) (arg1 : Memref sig .tc .vmem S10000x16 .f32) (harg1 : arg1.IsWhole) (arg2 : Memref sig .tc .vmem S16x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x16 .f32) (x1 : Vec F S16x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__prep_eh_body i arg1 harg1 arg2 harg2 arg3 harg3 arg4 harg4) K := by
  simp only [cc1__prep_eh_body_eq_skeleton]; unfold cc1__prep_eh_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (O : CellTallies nD τ sig (HIx 1)) (B : Set (SemLoc sig × HIx 1)) (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := iprop(Pipeline.scopedRest (Ix := HIx 1) (Name := ℕ) (U := UU) (Lvl := ℕ) (Val := Elt F) spec1 c ∗ ∃ r, prngReg c r)
  q _ := fullShare
  owed _ := O
  recorded _ := B

theorem A_eq1 (O : CellTallies nD τ sig (HIx 1)) (B : Set (SemLoc sig × HIx 1)) (c : Dev nD) (w : Fin cfg1.W) : (dat1 V O B c).A w = V c (Pipeline.arrRef spec1 w) := by
  dsimp only [dat1]

theorem after1_0 (O : CellTallies nD τ sig (HIx 1)) (B : Set (SemLoc sig × HIx 1)) (c : Dev nD) (t : Fin cfg1.N) : (dat1 V O B c).after 0 t = iblk1 V c 0 t := by dsimp only [dat1]
theorem after1_1 (O : CellTallies nD τ sig (HIx 1)) (B : Set (SemLoc sig × HIx 1)) (c : Dev nD) (t : Fin cfg1.N) : (dat1 V O B c).after 1 t = iblk1 V c 1 t := by dsimp only [dat1]
theorem after1_2 (O : CellTallies nD τ sig (HIx 1)) (B : Set (SemLoc sig × HIx 1)) (c : Dev nD) (t : Fin cfg1.N) : (dat1 V O B c).after 2 t = iblk1 V c 2 t := by dsimp only [dat1]
theorem after1_3 (O : CellTallies nD τ sig (HIx 1)) (B : Set (SemLoc sig × HIx 1)) (c : Dev nD) (t : Fin cfg1.N) :
    (dat1 V O B c).after 3 t = out1_3 (iblk1 V c 0 t) (iblk1 V c 1 t) (iblk1 V c 2 t) := by dsimp only [dat1]

theorem before1_0 (O : CellTallies nD τ sig (HIx 1)) (B : Set (SemLoc sig × HIx 1)) (c : Dev nD) (t : Fin cfg1.N) (d) : (dat1 V O B c).before 0 t d = iblk1 V c 0 t :=
  before1_0_of V (dat1 V O B c) (A_eq1 V O B c 0) (after1_0 V O B c) t d
theorem before1_1 (O : CellTallies nD τ sig (HIx 1)) (B : Set (SemLoc sig × HIx 1)) (c : Dev nD) (t : Fin cfg1.N) (d) : (dat1 V O B c).before 1 t d = iblk1 V c 1 t :=
  before1_1_of V (dat1 V O B c) (A_eq1 V O B c 1) (after1_1 V O B c) t d
theorem before1_2 (O : CellTallies nD τ sig (HIx 1)) (B : Set (SemLoc sig × HIx 1)) (c : Dev nD) (t : Fin cfg1.N) (d) : (dat1 V O B c).before 2 t d = iblk1 V c 2 t :=
  before1_2_of V (dat1 V O B c) (A_eq1 V O B c 2) (after1_2 V O B c) t d

def bodyPre1 (O : CellTallies nD τ sig (HIx 1)) (B : Set (SemLoc sig × HIx 1)) (c : Dev nD) (t : Fin cfg1.N) : sProp 𝕄 :=
  iprop((dat1 V O B c).Φ t.castSucc ∗ (dat1 V O B c).owesAt none t.castSucc
    ∗ (∃ d, owns (c : Thread nD τ) (st1_0 t) fullShare ((dat1 V O B c).before 0 t d))
    ∗ (∃ d, owns (c : Thread nD τ) (st1_1 t) fullShare ((dat1 V O B c).before 1 t d))
    ∗ (∃ d, owns (c : Thread nD τ) (st1_2 t) fullShare ((dat1 V O B c).before 2 t d))
    ∗ (∃ d, owns (c : Thread nD τ) (st1_3 t) fullShare ((dat1 V O B c).before 3 t d)))

def bodyPost1 (O : CellTallies nD τ sig (HIx 1)) (B : Set (SemLoc sig × HIx 1)) (c : Dev nD) (t : Fin cfg1.N) : sProp 𝕄 :=
  iprop((dat1 V O B c).Φ t.succ ∗ (dat1 V O B c).owesAt none t.succ
    ∗ owns (c : Thread nD τ) (st1_0 t) fullShare ((dat1 V O B c).after 0 t)
    ∗ owns (c : Thread nD τ) (st1_1 t) fullShare ((dat1 V O B c).after 1 t)
    ∗ owns (c : Thread nD τ) (st1_2 t) fullShare ((dat1 V O B c).after 2 t)
    ∗ owns (c : Thread nD τ) (st1_3 t) fullShare ((dat1 V O B c).after 3 t))

theorem sound_body1 (O : CellTallies nD τ sig (HIx 1)) (B : Set (SemLoc sig × HIx 1)) (c : Dev nD) (t : Fin cfg1.N) :
    bodyPre1 V O B c t ⊢ wp frame (wpE (defs₀ (F := F)) Variants.none c none) Set.univ (bodyAt1 t) (fun _ => bodyPost1 V O B c t) := by
  unfold bodyPre1 bodyPost1 bodyAt1
  simp only [before1_0, before1_1, before1_2]
  rw [show (dat1 V O B c).Φ t.succ = (dat1 V O B c).Φ t.castSucc from rfl,
    show (dat1 V O B c).owesAt none t.succ = (dat1 V O B c).owesAt none t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (O : CellTallies nD τ sig (HIx 1)) (B : Set (SemLoc sig × HIx 1)) (c : Dev nD) :
    BodyObligation (dat1 (F := F) V O B c) (defs₀ (F := F)) Variants.none (none : HIx 1) Set.univ := fun t => by
  rw [bigSep_W1, bigSep_W1]
  exact sound_body1 V O B c t

end Cert.KernelIdeal.KProof

end
-- ==== Proof.Region3.lean ====
import proofs.«208460_g27728308863843_cont_9to1_469_33_alg».proof.Proof.KSetup
import Idealize.ShloMosaic.Lib.Pipeline.FrameBody
import Idealize.ShloMosaic.Lib.Tactic

set_option maxRecDepth 16384

noncomputable section

namespace Cert.KernelIdeal.KProof

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) (HIx 1) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) (HIx 1) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) (HIx 1) ℕ UU ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S10000x128 := Rect.unit (s := S10000x128) ![0, 0] S10000x128.size inb_S10000x128_S10000x128_0_0

abbrev r3_1 : Rect S10000x64 := Rect.unit (s := S10000x64) ![0, 0] S10000x64.size inb_S10000x64_S10000x64_0_0

def out3_3 (x0 : Vec F S10000x128 .f32) (x1 : Vec F S10000x128 .f32) (x2 : Vec F S10000x128 .f32) : Vec F S10000x64 .f32 :=
  View.canon [⟨r3_1, k3_pay1 (View.ld x0 r3_0) (View.ld x1 r3_0) (View.ld x2 r3_0)⟩]

theorem cover3_3 (p0 : Vec F S10000x64 .f32) (y : S10000x64.Idx) :
    ∃ pc ∈ ([⟨r3_1, p0⟩] : List (View.Piece (Elt F) S10000x64 .f32)), y ∈ pc.1.set :=
  View.cover_of_tiled [⟨r3_1, p0⟩] S10000x64.size (by rfl) y

set_option maxHeartbeats 1000000 in

theorem sound_kernel3 (c : Dev nD) (E : Set ℕ) (i : grid3.Coords)
    (arg1 : Memref sig .tc .vmem S10000x128 .f32) (harg1 : arg1.IsWhole) (arg2 : Memref sig .tc .vmem S10000x128 .f32) (harg2 : arg2.IsWhole)
    (arg3 : Memref sig .tc .vmem S10000x128 .f32) (harg3 : arg3.IsWhole) (arg4 : Memref sig .tc .vmem S10000x64 .f32) (harg4 : arg4.IsWhole)
    (x0 : Vec F S10000x128 .f32) (x1 : Vec F S10000x128 .f32) (x2 : Vec F S10000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__edge_relu_body i arg1 harg1 arg2 harg2 arg3 harg3 arg4 harg4) K := by
  simp only [cc3__edge_relu_body_eq_skeleton]; unfold cc3__edge_relu_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (O : CellTallies nD τ sig (HIx 1)) (B : Set (SemLoc sig × HIx 1)) (c : Dev nD) : Dat τ (Elt F) (HIx 1) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := iprop(Pipeline.scopedRest (Ix := HIx 1) (Name := ℕ) (U := UU) (Lvl := ℕ) (Val := Elt F) spec3 c ∗ ∃ r, prngReg c r)
  q _ := fullShare
  owed _ := O
  recorded _ := B

theorem A_eq3 (O : CellTallies nD τ sig (HIx 1)) (B : Set (SemLoc sig × HIx 1)) (c : Dev nD) (w : Fin cfg3.W) : (dat3 V O B c).A w = V c (Pipeline.arrRef spec3 w) := by
  dsimp only [dat3]

theorem after3_0 (O : CellTallies nD τ sig (HIx 1)) (B : Set (SemLoc sig × HIx 1)) (c : Dev nD) (t : Fin cfg3.N) : (dat3 V O B c).after 0 t = iblk3 V c 0 t := by dsimp only [dat3]
theorem after3_1 (O : CellTallies nD τ sig (HIx 1)) (B : Set (SemLoc sig × HIx 1)) (c : Dev nD) (t : Fin cfg3.N) : (dat3 V O B c).after 1 t = iblk3 V c 1 t := by dsimp only [dat3]
theorem after3_2 (O : CellTallies nD τ sig (HIx 1)) (B : Set (SemLoc sig × HIx 1)) (c : Dev nD) (t : Fin cfg3.N) : (dat3 V O B c).after 2 t = iblk3 V c 2 t := by dsimp only [dat3]
theorem after3_3 (O : CellTallies nD τ sig (HIx 1)) (B : Set (SemLoc sig × HIx 1)) (c : Dev nD) (t : Fin cfg3.N) :
    (dat3 V O B c).after 3 t = out3_3 (iblk3 V c 0 t) (iblk3 V c 1 t) (iblk3 V c 2 t) := by dsimp only [dat3]

theorem before3_0 (O : CellTallies nD τ sig (HIx 1)) (B : Set (SemLoc sig × HIx 1)) (c : Dev nD) (t : Fin cfg3.N) (d) : (dat3 V O B c).before 0 t d = iblk3 V c 0 t :=
  before3_0_of V (dat3 V O B c) (A_eq3 V O B c 0) (after3_0 V O B c) t d
theorem before3_1 (O : CellTallies nD τ sig (HIx 1)) (B : Set (SemLoc sig × HIx 1)) (c : Dev nD) (t : Fin cfg3.N) (d) : (dat3 V O B c).before 1 t d = iblk3 V c 1 t :=
  before3_1_of V (dat3 V O B c) (A_eq3 V O B c 1) (after3_1 V O B c) t d
theorem before3_2 (O : CellTallies nD τ sig (HIx 1)) (B : Set (SemLoc sig × HIx 1)) (c : Dev nD) (t : Fin cfg3.N) (d) : (dat3 V O B c).before 2 t d = iblk3 V c 2 t :=
  before3_2_of V (dat3 V O B c) (A_eq3 V O B c 2) (after3_2 V O B c) t d

def bodyPre3 (O : CellTallies nD τ sig (HIx 1)) (B : Set (SemLoc sig × HIx 1)) (c : Dev nD) (t : Fin cfg3.N) : sProp 𝕄 :=
  iprop((dat3 V O B c).Φ t.castSucc ∗ (dat3 V O B c).owesAt none t.castSucc
    ∗ (∃ d, owns (c : Thread nD τ) (st3_0 t) fullShare ((dat3 V O B c).before 0 t d))
    ∗ (∃ d, owns (c : Thread nD τ) (st3_1 t) fullShare ((dat3 V O B c).before 1 t d))
    ∗ (∃ d, owns (c : Thread nD τ) (st3_2 t) fullShare ((dat3 V O B c).before 2 t d))
    ∗ (∃ d, owns (c : Thread nD τ) (st3_3 t) fullShare ((dat3 V O B c).before 3 t d)))

def bodyPost3 (O : CellTallies nD τ sig (HIx 1)) (B : Set (SemLoc sig × HIx 1)) (c : Dev nD) (t : Fin cfg3.N) : sProp 𝕄 :=
  iprop((dat3 V O B c).Φ t.succ ∗ (dat3 V O B c).owesAt none t.succ
    ∗ owns (c : Thread nD τ) (st3_0 t) fullShare ((dat3 V O B c).after 0 t)
    ∗ owns (c : Thread nD τ) (st3_1 t) fullShare ((dat3 V O B c).after 1 t)
    ∗ owns (c : Thread nD τ) (st3_2 t) fullShare ((dat3 V O B c).after 2 t)
    ∗ owns (c : Thread nD τ) (st3_3 t) fullShare ((dat3 V O B c).after 3 t))

theorem sound_body3 (O : CellTallies nD τ sig (HIx 1)) (B : Set (SemLoc sig × HIx 1)) (c : Dev nD) (t : Fin cfg3.N) :
    bodyPre3 V O B c t ⊢ wp frame (wpE (defs₀ (F := F)) Variants.none c none) Set.univ (bodyAt3 t) (fun _ => bodyPost3 V O B c t) := by
  unfold bodyPre3 bodyPost3 bodyAt3
  simp only [before3_0, before3_1, before3_2]
  rw [show (dat3 V O B c).Φ t.succ = (dat3 V O B c).Φ t.castSucc from rfl,
    show (dat3 V O B c).owesAt none t.succ = (dat3 V O B c).owesAt none t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (O : CellTallies nD τ sig (HIx 1)) (B : Set (SemLoc sig × HIx 1)) (c : Dev nD) :
    BodyObligation (dat3 (F := F) V O B c) (defs₀ (F := F)) Variants.none (none : HIx 1) Set.univ := fun t => by
  rw [bigSep_W3, bigSep_W3]
  exact sound_body3 V O B c t

end Cert.KernelIdeal.KProof

end
-- ==== Proof.Region4.lean ====
import proofs.«208460_g27728308863843_cont_9to1_469_33_alg».proof.Proof.KSetup
import Idealize.ShloMosaic.Lib.Pipeline.FrameBody
import Idealize.ShloMosaic.Lib.Tactic

set_option maxRecDepth 16384

noncomputable section

namespace Cert.KernelIdeal.KProof

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) (HIx 1) ℕ UU ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) (HIx 1) ℕ UU ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) (HIx 1) ℕ UU ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) (HIx 1) ℕ UU ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

theorem before4_4_of {c : Dev nD} (dat : Dat τ (Elt F) (HIx 1) ℕ UU ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

theorem before4_5_of {c : Dev nD} (dat : Dat τ (Elt F) (HIx 1) ℕ UU ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_6_of {c : Dev nD} (dat : Dat τ (Elt F) (HIx 1) ℕ UU ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

theorem before4_7_of {c : Dev nD} (dat : Dat τ (Elt F) (HIx 1) ℕ UU ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

theorem before4_8_of {c : Dev nD} (dat : Dat τ (Elt F) (HIx 1) ℕ UU ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

theorem before4_9_of {c : Dev nD} (dat : Dat τ (Elt F) (HIx 1) ℕ UU ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S2000x64 := Rect.unit (s := S2000x64) ![0, 0] S2000x64.size inb_S2000x64_S2000x64_0_0
abbrev r4_1 : Rect S64x128 := Rect.unit (s := S64x128) ![0, 0] S64x128.size inb_S64x128_S64x128_0_0
abbrev r4_2 : Rect S2000x1 := Rect.unit (s := S2000x1) ![0, 0] S2000x1.size inb_S2000x1_S2000x1_0_0
abbrev r4_3 : Rect S1x128 := Rect.unit (s := S1x128) ![0, 0] S1x128.size inb_S1x128_S1x128_0_0
abbrev r4_4 : Rect S2000x128 := Rect.unit (s := S2000x128) ![0, 0] S2000x128.size inb_S2000x128_S2000x128_0_0
abbrev r4_5 : Rect S128x64 := Rect.unit (s := S128x64) ![0, 0] S128x64.size inb_S128x64_S128x64_0_0
abbrev r4_6 : Rect S1x64 := Rect.unit (s := S1x64) ![0, 0] S1x64.size inb_S1x64_S1x64_0_0

def out4_10 (x0 : Vec F S2000x64 .f32) (x1 : Vec F S2000x1 .f32) (x2 : Vec F S2000x128 .f32) (x3 : Vec F S64x128 .f32) (x4 : Vec F S1x128 .f32) (x5 : Vec F S128x64 .f32) (x6 : Vec F S128x64 .f32) (x7 : Vec F S1x64 .f32) (x8 : Vec F S64x128 .f32) (x9 : Vec F S1x128 .f32) : Vec F S2000x128 .f32 :=
  View.canon [⟨r4_4, k4_pay1 (View.ld x0 r4_0) (View.ld x3 r4_1) (View.ld x1 r4_2) (View.ld x4 r4_3) (View.ld x2 r4_4) (View.ld x5 r4_5) (View.ld x6 r4_5) (View.ld x7 r4_6) (View.ld x8 r4_1) (View.ld x9 r4_3)⟩]

theorem cover4_10 (p0 : Vec F S2000x128 .f32) (y : S2000x128.Idx) :
    ∃ pc ∈ ([⟨r4_4, p0⟩] : List (View.Piece (Elt F) S2000x128 .f32)), y ∈ pc.1.set :=
  View.cover_of_tiled [⟨r4_4, p0⟩] S2000x128.size (by rfl) y

set_option maxHeartbeats 1000000 in

theorem sound_kernel4 (c : Dev nD) (E : Set ℕ) (i : grid4.Coords) (arg1 : Memref sig .tc .vmem S2000x64 .f32) (harg1 : arg1.IsWhole) (arg2 : Memref sig .tc .vmem S2000x1 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x128 .f32) (harg9 : arg9.IsWhole) (arg10 : Memref sig .tc .vmem S1x128 .f32) (harg10 : arg10.IsWhole) (arg11 : Memref sig .tc .vmem S2000x128 .f32) (harg11 : arg11.IsWhole)
    (x0 : Vec F S2000x64 .f32) (x1 : Vec F S2000x1 .f32) (x2 : Vec F S2000x128 .f32) (x3 : Vec F S64x128 .f32) (x4 : Vec F S1x128 .f32) (x5 : Vec F S128x64 .f32) (x6 : Vec F S128x64 .f32) (x7 : Vec F S1x64 .f32) (x8 : Vec F S64x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out4_10 x0 x1 x2 x3 x4 x5 x6 x7 x8 x9)) -∗ K ⟨⟩))
      ⊢ wp frame (wpE (defs₀ (F := F)) Variants.none c none) E (cc4__post_body i arg1 harg1 arg2 harg2 arg3 harg3 arg4 harg4 arg5 harg5 arg6 harg6 arg7 harg7 arg8 harg8 arg9 harg9 arg10 harg10 arg11 harg11) K := by
  simp only [cc4__post_body_eq_skeleton]; unfold cc4__post_body_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover4_10 _)

def dat4 (O : CellTallies nD τ sig (HIx 1)) (B : Set (SemLoc sig × HIx 1)) (c : Dev nD) : Dat τ (Elt F) (HIx 1) ℕ UU ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
  Φ _ := iprop(Pipeline.scopedRest (Ix := HIx 1) (Name := ℕ) (U := UU) (Lvl := ℕ) (Val := Elt F) spec4 c ∗ ∃ r, prngReg c r)
  q _ := fullShare
  owed _ := O
  recorded _ := B

theorem A_eq4 (O : CellTallies nD τ sig (HIx 1)) (B : Set (SemLoc sig × HIx 1)) (c : Dev nD) (w : Fin cfg4.W) : (dat4 V O B c).A w = V c (Pipeline.arrRef spec4 w) := by
  dsimp only [dat4]

variable (O : CellTallies nD τ sig (HIx 1)) (B : Set (SemLoc sig × HIx 1))

theorem after4_0 (c : Dev nD) (t : Fin cfg4.N) : (dat4 V O B c).after 0 t = iblk4 V c 0 t := by dsimp only [dat4]
theorem after4_1 (c : Dev nD) (t : Fin cfg4.N) : (dat4 V O B c).after 1 t = iblk4 V c 1 t := by dsimp only [dat4]
theorem after4_2 (c : Dev nD) (t : Fin cfg4.N) : (dat4 V O B c).after 2 t = iblk4 V c 2 t := by dsimp only [dat4]
theorem after4_3 (c : Dev nD) (t : Fin cfg4.N) : (dat4 V O B c).after 3 t = iblk4 V c 3 t := by dsimp only [dat4]
theorem after4_4 (c : Dev nD) (t : Fin cfg4.N) : (dat4 V O B c).after 4 t = iblk4 V c 4 t := by dsimp only [dat4]
theorem after4_5 (c : Dev nD) (t : Fin cfg4.N) : (dat4 V O B c).after 5 t = iblk4 V c 5 t := by dsimp only [dat4]
theorem after4_6 (c : Dev nD) (t : Fin cfg4.N) : (dat4 V O B c).after 6 t = iblk4 V c 6 t := by dsimp only [dat4]
theorem after4_7 (c : Dev nD) (t : Fin cfg4.N) : (dat4 V O B c).after 7 t = iblk4 V c 7 t := by dsimp only [dat4]
theorem after4_8 (c : Dev nD) (t : Fin cfg4.N) : (dat4 V O B c).after 8 t = iblk4 V c 8 t := by dsimp only [dat4]
theorem after4_9 (c : Dev nD) (t : Fin cfg4.N) : (dat4 V O B c).after 9 t = iblk4 V c 9 t := by dsimp only [dat4]
theorem after4_10 (c : Dev nD) (t : Fin cfg4.N) : (dat4 V O B c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]

theorem before4_0 (c : Dev nD) (t : Fin cfg4.N) (d) : (dat4 V O B c).before 0 t d = iblk4 V c 0 t :=
  before4_0_of V (dat4 V O B c) (A_eq4 V O B c 0) (after4_0 V O B c) t d
theorem before4_1 (c : Dev nD) (t : Fin cfg4.N) (d) : (dat4 V O B c).before 1 t d = iblk4 V c 1 t :=
  before4_1_of V (dat4 V O B c) (A_eq4 V O B c 1) (after4_1 V O B c) t d
theorem before4_2 (c : Dev nD) (t : Fin cfg4.N) (d) : (dat4 V O B c).before 2 t d = iblk4 V c 2 t :=
  before4_2_of V (dat4 V O B c) (A_eq4 V O B c 2) (after4_2 V O B c) t d
theorem before4_3 (c : Dev nD) (t : Fin cfg4.N) (d) : (dat4 V O B c).before 3 t d = iblk4 V c 3 t :=
  before4_3_of V (dat4 V O B c) (A_eq4 V O B c 3) (after4_3 V O B c) t d
theorem before4_4 (c : Dev nD) (t : Fin cfg4.N) (d) : (dat4 V O B c).before 4 t d = iblk4 V c 4 t :=
  before4_4_of V (dat4 V O B c) (A_eq4 V O B c 4) (after4_4 V O B c) t d
theorem before4_5 (c : Dev nD) (t : Fin cfg4.N) (d) : (dat4 V O B c).before 5 t d = iblk4 V c 5 t :=
  before4_5_of V (dat4 V O B c) (A_eq4 V O B c 5) (after4_5 V O B c) t d
theorem before4_6 (c : Dev nD) (t : Fin cfg4.N) (d) : (dat4 V O B c).before 6 t d = iblk4 V c 6 t :=
  before4_6_of V (dat4 V O B c) (A_eq4 V O B c 6) (after4_6 V O B c) t d
theorem before4_7 (c : Dev nD) (t : Fin cfg4.N) (d) : (dat4 V O B c).before 7 t d = iblk4 V c 7 t :=
  before4_7_of V (dat4 V O B c) (A_eq4 V O B c 7) (after4_7 V O B c) t d
theorem before4_8 (c : Dev nD) (t : Fin cfg4.N) (d) : (dat4 V O B c).before 8 t d = iblk4 V c 8 t :=
  before4_8_of V (dat4 V O B c) (A_eq4 V O B c 8) (after4_8 V O B c) t d
theorem before4_9 (c : Dev nD) (t : Fin cfg4.N) (d) : (dat4 V O B c).before 9 t d = iblk4 V c 9 t :=
  before4_9_of V (dat4 V O B c) (A_eq4 V O B c 9) (after4_9 V O B c) t d

def bodyPre4 (c : Dev nD) (t : Fin cfg4.N) : sProp 𝕄 :=
  iprop((dat4 V O B c).Φ t.castSucc ∗ (dat4 V O B c).owesAt none t.castSucc
    ∗ (∃ d, owns (c : Thread nD τ) (st4_0 t) fullShare ((dat4 V O B c).before 0 t d))
    ∗ (∃ d, owns (c : Thread nD τ) (st4_1 t) fullShare ((dat4 V O B c).before 1 t d))
    ∗ (∃ d, owns (c : Thread nD τ) (st4_2 t) fullShare ((dat4 V O B c).before 2 t d))
    ∗ (∃ d, owns (c : Thread nD τ) (st4_3 t) fullShare ((dat4 V O B c).before 3 t d))
    ∗ (∃ d, owns (c : Thread nD τ) (st4_4 t) fullShare ((dat4 V O B c).before 4 t d))
    ∗ (∃ d, owns (c : Thread nD τ) (st4_5 t) fullShare ((dat4 V O B c).before 5 t d))
    ∗ (∃ d, owns (c : Thread nD τ) (st4_6 t) fullShare ((dat4 V O B c).before 6 t d))
    ∗ (∃ d, owns (c : Thread nD τ) (st4_7 t) fullShare ((dat4 V O B c).before 7 t d))
    ∗ (∃ d, owns (c : Thread nD τ) (st4_8 t) fullShare ((dat4 V O B c).before 8 t d))
    ∗ (∃ d, owns (c : Thread nD τ) (st4_9 t) fullShare ((dat4 V O B c).before 9 t d))
    ∗ (∃ d, owns (c : Thread nD τ) (st4_10 t) fullShare ((dat4 V O B c).before 10 t d)))

def bodyPost4 (c : Dev nD) (t : Fin cfg4.N) : sProp 𝕄 :=
  iprop((dat4 V O B c).Φ t.succ ∗ (dat4 V O B c).owesAt none t.succ
    ∗ owns (c : Thread nD τ) (st4_0 t) fullShare ((dat4 V O B c).after 0 t)
    ∗ owns (c : Thread nD τ) (st4_1 t) fullShare ((dat4 V O B c).after 1 t)
    ∗ owns (c : Thread nD τ) (st4_2 t) fullShare ((dat4 V O B c).after 2 t)
    ∗ owns (c : Thread nD τ) (st4_3 t) fullShare ((dat4 V O B c).after 3 t)
    ∗ owns (c : Thread nD τ) (st4_4 t) fullShare ((dat4 V O B c).after 4 t)
    ∗ owns (c : Thread nD τ) (st4_5 t) fullShare ((dat4 V O B c).after 5 t)
    ∗ owns (c : Thread nD τ) (st4_6 t) fullShare ((dat4 V O B c).after 6 t)
    ∗ owns (c : Thread nD τ) (st4_7 t) fullShare ((dat4 V O B c).after 7 t)
    ∗ owns (c : Thread nD τ) (st4_8 t) fullShare ((dat4 V O B c).after 8 t)
    ∗ owns (c : Thread nD τ) (st4_9 t) fullShare ((dat4 V O B c).after 9 t)
    ∗ owns (c : Thread nD τ) (st4_10 t) fullShare ((dat4 V O B c).after 10 t))

theorem sound_body4 (c : Dev nD) (t : Fin cfg4.N) :
    bodyPre4 V O B c t ⊢ wp frame (wpE (defs₀ (F := F)) Variants.none c none) Set.univ (bodyAt4 t) (fun _ => bodyPost4 V O B c t) := by
  unfold bodyPre4 bodyPost4 bodyAt4
  simp only [before4_0, before4_1, before4_2, before4_3, before4_4, before4_5, before4_6, before4_7, before4_8, before4_9]
  rw [show (dat4 V O B c).Φ t.succ = (dat4 V O B c).Φ t.castSucc from rfl,
    show (dat4 V O B c).owesAt none t.succ = (dat4 V O B c).owesAt none t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ (grid4.coords t) _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation4 (c : Dev nD) : BodyObligation (dat4 (F := F) V O B c) (defs₀ (F := F)) Variants.none (none : HIx 1) Set.univ := fun t => by
  rw [bigSep_W4, bigSep_W4]
  exact sound_body4 V O B c t

end Cert.KernelIdeal.KProof

end
-- ==== Proof.KVals.lean ====
import proofs.«208460_g27728308863843_cont_9to1_469_33_alg».proof.Proof.KPay
import proofs.«208460_g27728308863843_cont_9to1_469_33_alg».proof.Proof.KOps
import proofs.«208460_g27728308863843_cont_9to1_469_33_alg».proof.Proof.Region0
import proofs.«208460_g27728308863843_cont_9to1_469_33_alg».proof.Proof.Region1
import proofs.«208460_g27728308863843_cont_9to1_469_33_alg».proof.Proof.Region3
import proofs.«208460_g27728308863843_cont_9to1_469_33_alg».proof.Proof.Region4

set_option maxRecDepth 16384

noncomputable section

namespace Cert.KernelIdeal.KProof

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

def gath (tab : Vec F S10000x128 .f32) (lst : Vec F S320128 .i32) : Vec F S320000x128 .f32 := fun j =>
  tab (ix2 (⟨(lst (ix1 (⟨(j 0).val, Nat.lt_trans (idx2_lt0 j) (by decide)⟩ : Fin 320128))).toNat % 10000, Nat.mod_lt _ (by decide)⟩ : Fin 10000)
    (⟨(j 1).val, idx2_lt1 j⟩ : Fin 128))

theorem eq_gath_of_Gath {tab : Vec F S10000x128 .f32} {lst : Vec F S320128 .i32} {f : Vec F S320000x128 .f32}
    (h : ∀ x, (lst x).toNat < 10000) (hf : ∀ j, Gath (F := F) tab lst f j) : f = gath tab lst := by
  funext j
  rw [hf j (h _)]
  unfold gath
  congr 2
  exact Fin.ext (Nat.mod_eq_of_lt (h _)).symm

variable (m : (ℓ : Loc nD τ sig) → Buf (Elt F) ℓ)

abbrev Ob (c : Dev nD) (n : ℕ) : CellTallies nD τ sig (HIx 1) := (K (F := F)).Otc c n

abbrev Bd (c : Dev nD) (n : ℕ) : Set (SemLoc sig × HIx 1) := {p | (K (F := F)).lev ((SparseCore.T c), p.1) p.2 ≤ 8 * n}

abbrev Wl (c : Dev nD) : Valuation τ sig (Elt F) := fun b => m (c, b)

def Wa (c : Dev nD) : Valuation τ sig (Elt F) := StableHlo.after (opsA (F := F)) (Wl m c)
abbrev Va : (c : Dev nD) → (b : Ref sig .tc) → Buf (Elt F) ((c : Thread nD τ).loc b) := fun c b => Wa m c b

def W0 (c : Dev nD) : Valuation τ sig (Elt F) :=
  Pipeline.withArrays spec0 c (Wa m c) fun w => (dat0 (Va m) (Ob (F := F) c 0) (Bd (F := F) c 0) c).arrAt w cfg0.N
abbrev V0 : (c : Dev nD) → (b : Ref sig .tc) → Buf (Elt F) ((c : Thread nD τ).loc b) := fun c b => W0 m c b

def W1 (c : Dev nD) : Valuation τ sig (Elt F) :=
  Pipeline.withArrays spec1 c (W0 m c) fun w => (dat1 (V0 m) (Ob (F := F) c 0) (Bd (F := F) c 0) c).arrAt w cfg1.N
abbrev V1 : (c : Dev nD) → (b : Ref sig .tc) → Buf (Elt F) ((c : Thread nD τ).loc b) := fun c b => W1 m c b

def X (c : Dev nD) : CallVals F c := ⟨V1 m c main_v3, V1 m c main_v7, V1 m c main_v19_0, V1 m c main_v19_1, V1 m c main_v21_0, V1 m c main_v21_1⟩

def W2 (c : Dev nD) : Valuation τ sig (Elt F) :=
  Function.update (Function.update (W1 m c) (Proc.devRef .tc main_v21_0) (gath (X m c).aT (X m c).rA))
    (Proc.devRef .tc main_v21_1) (gath (X m c).bT (X m c).cA)
abbrev V2 : (c : Dev nD) → (b : Ref sig .tc) → Buf (Elt F) ((c : Thread nD τ).loc b) := fun c b => W2 m c b

def W3 (c : Dev nD) : Valuation τ sig (Elt F) :=
  Pipeline.withArrays spec3 c (W2 m c) fun w => (dat3 (V2 m) (Ob (F := F) c 1) (Bd (F := F) c 1) c).arrAt w cfg3.N

def Wb (c : Dev nD) : Valuation τ sig (Elt F) := StableHlo.after (opsB (F := F)) (W3 m c)
abbrev Vb : (c : Dev nD) → (b : Ref sig .tc) → Buf (Elt F) ((c : Thread nD τ).loc b) := fun c b => Wb m c b

def W4 (c : Dev nD) : Valuation τ sig (Elt F) :=
  Pipeline.withArrays spec4 c (Wb m c) fun w => (dat4 (Vb m) (Ob (F := F) c 1) (Bd (F := F) c 1) c).arrAt w cfg4.N

def pdats : (p : Fin 4) → (c : Dev nD) → Dat τ (Elt F) (HIx 1) ℕ UU ℕ (Pipeline.pin (pcfgs (F := F)) adm p) c
  | ⟨0, _⟩ => fun c => dat0 (Va m) (Ob (F := F) c 0) (Bd (F := F) c 0) c
  | ⟨1, _⟩ => fun c => dat1 (V0 m) (Ob (F := F) c 0) (Bd (F := F) c 0) c
  | ⟨2, _⟩ => fun c => dat3 (V2 m) (Ob (F := F) c 1) (Bd (F := F) c 1) c
  | ⟨3, _⟩ => fun c => dat4 (Vb m) (Ob (F := F) c 1) (Bd (F := F) c 1) c

end Cert.KernelIdeal.KProof

end
-- ==== Proof.KHostA.lean ====
import proofs.«208460_g27728308863843_cont_9to1_469_33_alg».proof.Proof.KVals
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal
import Idealize.ShloMosaic.PureOps.Ideal.Laws

set_option maxRecDepth 16384

noncomputable section

namespace Cert.KernelIdeal.KProof

open Cert.KernelIdeal Cert.KernelIdeal.Gen
open Idealize.ShloMosaic Idealize.ShloMosaic.TcCoe Idealize.ShloMosaic.ValueIdx
open Idealize.SL Idealize.SL.Sem

section Writes
variable {F : FTy → Type} [FloatOps F] (m : (ℓ : Loc nD τ sig) → Buf (Elt F) ℓ) (c : Dev nD)

abbrev hostA_W : List (Ref sig .tc) :=
  [main_v0, main_v1, main_c, main_v2, main_v3, main_v4, main_v5, main_c_0, main_v6, main_v7, main_cst, main_v8, main_v9, main_v10,
    main_v11, main_v12, main_v13, main_cst_1, main_v14, main_v15, main_cst_2, main_v16, main_v17, main_v18]

theorem hostA_writes : (opsA : List (HloOp τ sig (Elt F))).Forall fun op => op.writes ⊆ (hostA_W.map (Proc.devRef (τ := τ) .tc)).toFinset := by
  unfold opsA
  simp only [List.Forall]
  repeat' apply And.intro
  all_goals (simp only [StableHlo.nullary_writes, StableHlo.unary_writes, StableHlo.binary_writes, StableHlo.reshape_writes, Finset.singleton_subset_iff, List.mem_toFinset]; exact List.mem_map_of_mem (by decide))

theorem Wa_of (r : Ref sig .tc) (h : r ∉ hostA_W) : Wa m c r = m ((c : Thread nD τ).loc r) :=
  StableHlo.after_of_writes_sub opsA _ hostA_writes h

theorem Wa_arg (b : Ref sig .tc) (hb : b ∈ [main_arg0, main_arg1, main_arg2, main_arg3, main_arg4, main_arg5, main_arg6, main_arg7, main_arg8, main_arg9, main_arg10]) :
    Wa m c b = m ((c : Thread nD τ).loc b) :=
  Wa_of m c b (by revert b; decide)

end Writes

section Lists
variable {F : FTy → Type} [FloatOps F] (m : (ℓ : Loc nD τ sig) → Buf (Elt F) ℓ) (c : Dev nD)

theorem Wa_v3_eq : (Wa m c main_v3 : Vec F S320128 .i32)
    = concatenate S320128 0 [⟨S320000, shapeCast S320000 (extractStridedSlice S1x320000 ![0, 0]
          (m ((c : Thread nD τ).loc main_arg1) : Vec F S2x320000 .i32) slices_S2x320000_S1x320000_0_0) shapeCasts_S1x320000_S320000⟩,
        ⟨S128, broadcastInDim S128 ![] bcast_S_S128 (constantI S_ 32 0#32)⟩] concatenates_S320000_S128_S320128_d0 := by
  dsimp only [Wa]; unfold opsA; after_results; rfl

theorem Wa_v7_eq : (Wa m c main_v7 : Vec F S320128 .i32)
    = concatenate S320128 0 [⟨S320000, shapeCast S320000 (extractStridedSlice S1x320000 ![1, 0]
          (m ((c : Thread nD τ).loc main_arg1) : Vec F S2x320000 .i32) slices_S2x320000_S1x320000_1_0) shapeCasts_S1x320000_S320000⟩,
        ⟨S128, broadcastInDim S128 ![] bcast_S_S128 (constantI S_ 32 0#32)⟩] concatenates_S320000_S128_S320128_d0 := by
  dsimp only [Wa]; unfold opsA; after_results; rfl

theorem padded_row_apply (X : Vec F S2x320000 .i32) (r : Fin 2) (hs : S2x320000.Slices ![r.val, 0] S1x320000) (e : Fin 320128) :
    concatenate S320128 0 [⟨S320000, shapeCast S320000 (extractStridedSlice S1x320000 ![r.val, 0] X hs) shapeCasts_S1x320000_S320000⟩,
        ⟨S128, broadcastInDim S128 ![] bcast_S_S128 (constantI S_ 32 0#32)⟩] concatenates_S320000_S128_S320128_d0 (ix1 e)
      = if h : e.val < 320000 then X (ix2 r ⟨e.val, h⟩) else 0#32 := by
  by_cases h : e.val < 320000
  · rw [dif_pos h]
    refine (concatenate_pair_apply_left (t := S320128) (s₁ := S320000) (s₂ := S128) (0 : Fin 1) _ _ _ (ix1 e) rfl (ix1 (⟨e.val, h⟩ : Fin 320000)) (fun b => ?_)).trans ?_
    · match b with
      | ⟨0, _⟩ => rfl
    · refine (shapeCast_1a_a_apply _ _ (⟨e.val, h⟩ : Fin 320000)).trans ?_
      exact slice2_axis0_apply r.val X hs (0 : Fin 1) (⟨e.val, h⟩ : Fin 320000) r (Nat.add_zero _).symm
  · rw [dif_neg h]
    have h' : 320000 ≤ e.val := Nat.le_of_not_lt h
    have he : e.val < 320128 := e.isLt
    refine (concatenate_pair_apply_right (t := S320128) (s₁ := S320000) (s₂ := S128) (0 : Fin 1) _ _ _ (ix1 e) rfl rfl (ix1 (⟨e.val - 320000, by omega⟩ : Fin 128)) (fun b hb => ?_) ?_).trans ?_
    · exact absurd (Subsingleton.elim _ _) hb
    · show (e.val - 320000) + 320000 = e.val
      omega
    · rfl

theorem Wa_v3 (e : Fin 320128) : (Wa m c main_v3 : Vec F S320128 .i32) (ix1 e)
    = if h : e.val < 320000 then (m ((c : Thread nD τ).loc main_arg1) : Vec F S2x320000 .i32) (ix2 (0 : Fin 2) ⟨e.val, h⟩) else 0#32 := by
  rw [Wa_v3_eq]
  exact padded_row_apply _ (0 : Fin 2) _ e

theorem Wa_v7 (e : Fin 320128) : (Wa m c main_v7 : Vec F S320128 .i32) (ix1 e)
    = if h : e.val < 320000 then (m ((c : Thread nD τ).loc main_arg1) : Vec F S2x320000 .i32) (ix2 (1 : Fin 2) ⟨e.val, h⟩) else 0#32 := by
  rw [Wa_v7_eq]
  exact padded_row_apply _ (1 : Fin 2) _ e

end Lists

section Weights
variable (m : (ℓ : Loc nD τ sig) → Buf (Elt Ideal) ℓ) (c : Dev nD)

theorem Wa_v10_eq : (Wa m c main_v10 : Vec Ideal S128x128 .f32)
    = concatenate S128x128 1 [⟨S128x64, extractStridedSlice S128x64 ![0, 0] (m ((c : Thread nD τ).loc main_arg3) : Vec Ideal S272x64 .f32) slices_S272x64_S128x64_0_0⟩,
        ⟨S128x64, broadcastInDim S128x64 ![] bcast_S_S128x64 (constant (F := Ideal) S_ .f32 0x00000000#32)⟩] concatenates_S128x64_S128x64_S128x128_d1 := by
  dsimp only [Wa]; unfold opsA; after_results

theorem Wa_v12_eq : (Wa m c main_v12 : Vec Ideal S128x128 .f32)
    = concatenate S128x128 1 [⟨S128x64, extractStridedSlice S128x64 ![128, 0] (m ((c : Thread nD τ).loc main_arg3) : Vec Ideal S272x64 .f32) slices_S272x64_S128x64_128_0⟩,
        ⟨S128x64, broadcastInDim S128x64 ![] bcast_S_S128x64 (constant (F := Ideal) S_ .f32 0x00000000#32)⟩] concatenates_S128x64_S128x64_S128x128_d1 := by
  dsimp only [Wa]; unfold opsA; after_results

theorem Wa_v15_eq : (Wa m c main_v15 : Vec Ideal S16x128 .f32)
    = concatenate S16x128 1 [⟨S16x64, extractStridedSlice S16x64 ![256, 0] (m ((c : Thread nD τ).loc main_arg3) : Vec Ideal S272x64 .f32) slices_S272x64_S16x64_256_0⟩,
        ⟨S16x64, broadcastInDim S16x64 ![] bcast_S_S16x64 (constant (F := Ideal) S_ .f32 0x00000000#32)⟩] concatenates_S16x64_S16x64_S16x128_d1 := by
  dsimp only [Wa]; unfold opsA; after_results

theorem Wa_v18_eq : (Wa m c main_v18 : Vec Ideal S1x128 .f32)
    = broadcastInDim S1x128 ![1] bcast_S128_S1x128_1 (concatenate S128 0 [⟨S64, (m ((c : Thread nD τ).loc main_arg4) : Vec Ideal S64 .f32)⟩,
        ⟨S64, broadcastInDim S64 ![] bcast_S_S64 (constant (F := Ideal) S_ .f32 0x00000000#32)⟩] concatenates_S64_S64_S128_d0) := by
  dsimp only [Wa]; unfold opsA; after_results

theorem widened_rows_apply {R : Nat} (X : Vec Ideal S272x64 .f32) (o : Nat)
    (hs : S272x64.Slices ![o, 0] ⟨2, ![R, 64]⟩) (hb : S_.BroadcastsInDim ⟨2, ![R, 64]⟩ (![] : Fin 0 → Fin 2))
    (hc : Shape.Concatenates [⟨2, ![R, 64]⟩, ⟨2, ![R, 64]⟩] ⟨2, ![R, 128]⟩ 1)
    (k : Fin R) (j : Fin 128) (r : Fin 272) (hr : r.val = o + k.val) :
    concatenate ⟨2, ![R, 128]⟩ 1 [⟨⟨2, ![R, 64]⟩, extractStridedSlice ⟨2, ![R, 64]⟩ ![o, 0] X hs⟩,
        ⟨⟨2, ![R, 64]⟩, broadcastInDim ⟨2, ![R, 64]⟩ ![] hb (constant (F := Ideal) S_ .f32 0x00000000#32)⟩] hc (ix2 k j)
      = (if h : j.val < 64 then X (ix2 r ⟨j.val, h⟩) else 0 : Ideal .f32) := by
  by_cases h : j.val < 64
  · rw [dif_pos h]
    refine (concatenate_pair_apply_left (t := ⟨2, ![R, 128]⟩) (s₁ := ⟨2, ![R, 64]⟩) (s₂ := ⟨2, ![R, 64]⟩) (1 : Fin 2) _ _ hc (ix2 k j) rfl (ix2 k (⟨j.val, h⟩ : Fin 64)) (fun b => ?_)).trans ?_
    · match b with
      | ⟨0, _⟩ => rfl
      | ⟨1, _⟩ => rfl
    · exact slice2_axis0_apply o X hs k (⟨j.val, h⟩ : Fin 64) r hr
  · rw [dif_neg h]
    have h' : 64 ≤ j.val := Nat.le_of_not_lt h
    have hj : j.val < 128 := j.isLt
    refine (concatenate_pair_apply_right (t := ⟨2, ![R, 128]⟩) (s₁ := ⟨2, ![R, 64]⟩) (s₂ := ⟨2, ![R, 64]⟩) (1 : Fin 2) _ _ hc (ix2 k j) rfl rfl (ix2 k (⟨j.val - 64, by omega⟩ : Fin 64)) (fun b hb' => ?_) ?_).trans ?_
    · match b with
      | ⟨0, _⟩ => rfl
      | ⟨1, _⟩ => exact absurd rfl hb'
    · show (j.val - 64) + 64 = j.val
      omega
    · show Ideal.ofBits .f32 0x00000000#32 = 0
      exact Ideal.ofBits_zero_f32

theorem Wa_v10 (k j : Fin 128) : (Wa m c main_v10 : Vec Ideal S128x128 .f32) (ix2 k j)
    = (if h : j.val < 64 then (m ((c : Thread nD τ).loc main_arg3) : Vec Ideal S272x64 .f32) (ix2 ⟨k.val, Nat.lt_trans k.isLt (by decide)⟩ ⟨j.val, h⟩) else 0 : Ideal .f32) := by
  rw [Wa_v10_eq]
  exact widened_rows_apply _ 0 _ _ _ k j ⟨k.val, Nat.lt_trans k.isLt (by decide)⟩ (Nat.zero_add _).symm

theorem Wa_v12 (k j : Fin 128) : (Wa m c main_v12 : Vec Ideal S128x128 .f32) (ix2 k j)
    = (if h : j.val < 64 then (m ((c : Thread nD τ).loc main_arg3) : Vec Ideal S272x64 .f32) (ix2 ⟨128 + k.val, by have := k.isLt; omega⟩ ⟨j.val, h⟩) else 0 : Ideal .f32) := by
  rw [Wa_v12_eq]
  exact widened_rows_apply _ 128 _ _ _ k j ⟨128 + k.val, by have := k.isLt; omega⟩ rfl

theorem Wa_v15 (k : Fin 16) (j : Fin 128) : (Wa m c main_v15 : Vec Ideal S16x128 .f32) (ix2 k j)
    = (if h : j.val < 64 then (m ((c : Thread nD τ).loc main_arg3) : Vec Ideal S272x64 .f32) (ix2 ⟨256 + k.val, by have := k.isLt; omega⟩ ⟨j.val, h⟩) else 0 : Ideal .f32) := by
  rw [Wa_v15_eq]
  exact widened_rows_apply _ 256 _ _ _ k j ⟨256 + k.val, by have := k.isLt; omega⟩ rfl

theorem Wa_v18 (j : Fin 128) : (Wa m c main_v18 : Vec Ideal S1x128 .f32) (ix2 (0 : Fin 1) j)
    = (if h : j.val < 64 then (m ((c : Thread nD τ).loc main_arg4) : Vec Ideal S64 .f32) (ix1 ⟨j.val, h⟩) else 0 : Ideal .f32) := by
  rw [Wa_v18_eq]
  refine (broadcastInDim_apply (s := S128) (t := S1x128) _ _ _ (ix2 (0 : Fin 1) j) (ix1 j) (fun a => ?_)).trans ?_
  · match a with
    | ⟨0, _⟩ =>
      show j.val = if (128 : Nat) = 1 then 0 else j.val
      rw [if_neg (by decide)]
  · by_cases h : j.val < 64
    · rw [dif_pos h]
      refine concatenate_pair_apply_left (t := S128) (s₁ := S64) (s₂ := S64) (0 : Fin 1) _ _ _ (ix1 j) rfl (ix1 (⟨j.val, h⟩ : Fin 64)) (fun b => ?_)
      match b with
      | ⟨0, _⟩ => rfl
    · rw [dif_neg h]
      have h' : 64 ≤ j.val := Nat.le_of_not_lt h
      have hj : j.val < 128 := j.isLt
      refine (concatenate_pair_apply_right (t := S128) (s₁ := S64) (s₂ := S64) (0 : Fin 1) _ _ _ (ix1 j) rfl rfl (ix1 (⟨j.val - 64, by omega⟩ : Fin 64)) (fun b hb' => ?_) ?_).trans ?_
      · exact absurd (Subsingleton.elim _ _) hb'
      · show (j.val - 64) + 64 = j.val
        omega
      · show Ideal.ofBits .f32 0x00000000#32 = 0
        exact Ideal.ofBits_zero_f32

end Weights

end Cert.KernelIdeal.KProof

end
-- ==== Proof.KFold.lean ====
import proofs.«208460_g27728308863843_cont_9to1_469_33_alg».proof.Proof.KVals
import proofs.«208460_g27728308863843_cont_9to1_469_33_alg».proof.Proof.KHostA

set_option maxRecDepth 16384

noncomputable section

namespace Cert.KernelIdeal.KProof

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ)

theorem W0_arr (c : Dev nD) (w : Fin cfg0.W) :
    W0 m c (Proc.devRef .tc (Pipeline.arrRef spec0 w)) = (dat0 (Va m) (Ob (F := F) c 0) (Bd (F := F) c 0) c).arrAt w cfg0.N := by
  unfold W0; exact Pipeline.withArrays_arr spec0 launch0.win.arr_inj c _ _ w
theorem W0_of_ne (c : Dev nD) (b : Ref sig .tc) (hb : ∀ w, Pipeline.arrRef spec0 w ≠ b) :
    W0 m c (Proc.devRef .tc b) = Wa m c (Proc.devRef .tc b) := by
  unfold W0; exact Pipeline.withArrays_of_ne spec0 c _ _ b hb
theorem hF0 (c : Dev nD) (w : Fin cfg0.W) :
    (dat0 (Va m) (Ob (F := F) c 0) (Bd (F := F) c 0) c).arrAt w cfg0.N = V0 m c (Pipeline.arrRef spec0 w) :=
  (W0_arr m c w).symm
theorem hrest0 (c : Dev nD) : ∀ b, b ∉ Finset.univ.image (Pipeline.arrRef spec0) → V0 m c b = Va m c b :=
  fun b hb => W0_of_ne m c b fun w e => hb (Finset.mem_image.mpr ⟨w, Finset.mem_univ _, e⟩)

theorem W1_arr (c : Dev nD) (w : Fin cfg1.W) :
    W1 m c (Proc.devRef .tc (Pipeline.arrRef spec1 w)) = (dat1 (V0 m) (Ob (F := F) c 0) (Bd (F := F) c 0) c).arrAt w cfg1.N := by
  unfold W1; exact Pipeline.withArrays_arr spec1 launch1.win.arr_inj c _ _ w
theorem W1_of_ne (c : Dev nD) (b : Ref sig .tc) (hb : ∀ w, Pipeline.arrRef spec1 w ≠ b) :
    W1 m c (Proc.devRef .tc b) = W0 m c (Proc.devRef .tc b) := by
  unfold W1; exact Pipeline.withArrays_of_ne spec1 c _ _ b hb
theorem hF1 (c : Dev nD) (w : Fin cfg1.W) :
    (dat1 (V0 m) (Ob (F := F) c 0) (Bd (F := F) c 0) c).arrAt w cfg1.N = V1 m c (Pipeline.arrRef spec1 w) :=
  (W1_arr m c w).symm
theorem hrest1 (c : Dev nD) : ∀ b, b ∉ Finset.univ.image (Pipeline.arrRef spec1) → V1 m c b = V0 m c b :=
  fun b hb => W1_of_ne m c b fun w e => hb (Finset.mem_image.mpr ⟨w, Finset.mem_univ _, e⟩)

theorem W3_arr (c : Dev nD) (w : Fin cfg3.W) :
    W3 m c (Proc.devRef .tc (Pipeline.arrRef spec3 w)) = (dat3 (V2 m) (Ob (F := F) c 1) (Bd (F := F) c 1) c).arrAt w cfg3.N := by
  unfold W3; exact Pipeline.withArrays_arr spec3 launch3.win.arr_inj c _ _ w
theorem W3_of_ne (c : Dev nD) (b : Ref sig .tc) (hb : ∀ w, Pipeline.arrRef spec3 w ≠ b) :
    W3 m c (Proc.devRef .tc b) = W2 m c (Proc.devRef .tc b) := by
  unfold W3; exact Pipeline.withArrays_of_ne spec3 c _ _ b hb

abbrev V3 : (c : Dev nD) → (b : Ref sig .tc) → Buf (Elt F) ((c : Thread nD τ).loc b) := fun c b => W3 m c b
theorem hF3 (c : Dev nD) (w : Fin cfg3.W) :
    (dat3 (V2 m) (Ob (F := F) c 1) (Bd (F := F) c 1) c).arrAt w cfg3.N = V3 m c (Pipeline.arrRef spec3 w) :=
  (W3_arr m c w).symm
theorem hrest3 (c : Dev nD) : ∀ b, b ∉ Finset.univ.image (Pipeline.arrRef spec3) → V3 m c b = V2 m c b :=
  fun b hb => W3_of_ne m c b fun w e => hb (Finset.mem_image.mpr ⟨w, Finset.mem_univ _, e⟩)

theorem W4_arr (c : Dev nD) (w : Fin cfg4.W) :
    W4 m c (Proc.devRef .tc (Pipeline.arrRef spec4 w)) = (dat4 (Vb m) (Ob (F := F) c 1) (Bd (F := F) c 1) c).arrAt w cfg4.N := by
  unfold W4; exact Pipeline.withArrays_arr spec4 launch4.win.arr_inj c _ _ w
theorem W4_of_ne (c : Dev nD) (b : Ref sig .tc) (hb : ∀ w, Pipeline.arrRef spec4 w ≠ b) :
    W4 m c (Proc.devRef .tc b) = Wb m c (Proc.devRef .tc b) := by
  unfold W4; exact Pipeline.withArrays_of_ne spec4 c _ _ b hb

abbrev V4 : (c : Dev nD) → (b : Ref sig .tc) → Buf (Elt F) ((c : Thread nD τ).loc b) := fun c b => W4 m c b
theorem hF4 (c : Dev nD) (w : Fin cfg4.W) :
    (dat4 (Vb m) (Ob (F := F) c 1) (Bd (F := F) c 1) c).arrAt w cfg4.N = V4 m c (Pipeline.arrRef spec4 w) :=
  (W4_arr m c w).symm
theorem hrest4 (c : Dev nD) : ∀ b, b ∉ Finset.univ.image (Pipeline.arrRef spec4) → V4 m c b = Vb m c b :=
  fun b hb => W4_of_ne m c b fun w e => hb (Finset.mem_image.mpr ⟨w, Finset.mem_univ _, e⟩)

theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

abbrev opsA_W : List (Ref sig .tc) :=
  [main_v0, main_v1, main_c, main_v2, main_v3, main_v4, main_v5, main_c_0, main_v6, main_v7, main_cst, main_v8, main_v9, main_v10,
   main_v11, main_v12, main_v13, main_cst_1, main_v14, main_v15, main_cst_2, main_v16, main_v17, main_v18]
theorem opsA_writes :
    (opsA (F := F) : List (HloOp τ sig (Elt F))).Forall fun op => op.writes ⊆ (opsA_W.map (Proc.devRef (τ := τ) .tc)).toFinset := by
  unfold opsA
  simp only [List.Forall, StableHlo.nullary_writes, StableHlo.unary_writes, StableHlo.binary_writes, StableHlo.ternary_writes,
    StableHlo.reshape_writes]
  and_intros <;> exact single_sub_of_mem (by decide)

abbrev opsB_W : List (Ref sig .tc) :=
  [main_v23, main_v24, main_cst_3, main_v25, main_c_4, main_v26, main_v27, main_c_5, main_v28, main_v29, main_v30, main_v31, main_v32,
   main_cst_6, main_v33, main_c_7, main_v34, main_v35, main_c_8, main_v36, main_v37, main_v38, main_c_9, main_v39, main_v40, main_v41,
   main_v42, main_v43, main_cst_10, main_v44, main_v45, main_v46, main_v47, main_v48, main_v49, main_v50]
theorem opsB_writes :
    (opsB (F := F) : List (HloOp τ sig (Elt F))).Forall fun op => op.writes ⊆ (opsB_W.map (Proc.devRef (τ := τ) .tc)).toFinset := by
  unfold opsB
  simp only [List.Forall, StableHlo.nullary_writes, StableHlo.unary_writes, StableHlo.binary_writes, StableHlo.ternary_writes,
    StableHlo.reshape_writes]
  and_intros <;> exact single_sub_of_mem (by decide)

theorem Wa_of_not_mem (c : Dev nD) {r : Ref sig .tc} (h : r ∉ opsA_W) :
    Wa m c (Proc.devRef .tc r) = m ((c : Thread nD τ).loc r) := by
  unfold Wa; exact StableHlo.after_of_writes_sub opsA _ opsA_writes h

theorem Wb_of_not_mem (c : Dev nD) {r : Ref sig .tc} (h : r ∉ opsB_W) :
    Wb m c (Proc.devRef .tc r) = W3 m c (Proc.devRef .tc r) := by
  unfold Wb; exact StableHlo.after_of_writes_sub opsB _ opsB_writes h

theorem W2_of_ne (c : Dev nD) {r : Ref sig .tc} (h0 : r ≠ main_v21_0) (h1 : r ≠ main_v21_1) :
    W2 m c (Proc.devRef .tc r) = W1 m c (Proc.devRef .tc r) := by
  unfold W2
  rw [Function.update_of_ne (StableHlo.devRef_ne_of_ne h1), Function.update_of_ne (StableHlo.devRef_ne_of_ne h0)]

theorem isOut_false {o : Bool} {x : Ref sig .tc} (hb : o = true → x ≠ x) : o = false := by
  cases o with
  | false => rfl
  | true => exact absurd rfl (hb rfl)

theorem W0_keep (c : Dev nD) (b : Ref sig .tc) (hb : ∀ w, (cfg0.win w).isOut = true → Pipeline.arrRef spec0 w ≠ b) :
    W0 m c (Proc.devRef .tc b) = Wa m c (Proc.devRef .tc b) := by
  by_cases h : ∃ w, Pipeline.arrRef spec0 w = b
  · obtain ⟨w, rfl⟩ := h
    exact (W0_arr m c w).trans (((dat0 (Va m) _ _ c).arrAt_in w (isOut_false (hb w)) _).trans (A_eq0 (Va m) _ _ c w))
  · exact W0_of_ne m c b fun w e => h ⟨w, e⟩
theorem W1_keep (c : Dev nD) (b : Ref sig .tc) (hb : ∀ w, (cfg1.win w).isOut = true → Pipeline.arrRef spec1 w ≠ b) :
    W1 m c (Proc.devRef .tc b) = W0 m c (Proc.devRef .tc b) := by
  by_cases h : ∃ w, Pipeline.arrRef spec1 w = b
  · obtain ⟨w, rfl⟩ := h
    exact (W1_arr m c w).trans (((dat1 (V0 m) _ _ c).arrAt_in w (isOut_false (hb w)) _).trans (A_eq1 (V0 m) _ _ c w))
  · exact W1_of_ne m c b fun w e => h ⟨w, e⟩
theorem W3_keep (c : Dev nD) (b : Ref sig .tc) (hb : ∀ w, (cfg3.win w).isOut = true → Pipeline.arrRef spec3 w ≠ b) :
    W3 m c (Proc.devRef .tc b) = W2 m c (Proc.devRef .tc b) := by
  by_cases h : ∃ w, Pipeline.arrRef spec3 w = b
  · obtain ⟨w, rfl⟩ := h
    exact (W3_arr m c w).trans (((dat3 (V2 m) _ _ c).arrAt_in w (isOut_false (hb w)) _).trans (A_eq3 (V2 m) _ _ c w))
  · exact W3_of_ne m c b fun w e => h ⟨w, e⟩
theorem W4_keep (c : Dev nD) (b : Ref sig .tc) (hb : ∀ w, (cfg4.win w).isOut = true → Pipeline.arrRef spec4 w ≠ b) :
    W4 m c (Proc.devRef .tc b) = Wb m c (Proc.devRef .tc b) := by
  by_cases h : ∃ w, Pipeline.arrRef spec4 w = b
  · obtain ⟨w, rfl⟩ := h
    exact (W4_arr m c w).trans (((dat4 (Vb m) _ _ c).arrAt_in w (isOut_false (hb w)) _).trans (A_eq4 (Vb m) _ _ c w))
  · exact W4_of_ne m c b fun w e => h ⟨w, e⟩

theorem W3_of_unwritten (c : Dev nD) (b : Ref sig .tc)
    (h3 : ∀ w, (cfg3.win w).isOut = true → Pipeline.arrRef spec3 w ≠ b) (hs0 : b ≠ main_v21_0) (hs1 : b ≠ main_v21_1)
    (h1 : ∀ w, (cfg1.win w).isOut = true → Pipeline.arrRef spec1 w ≠ b)
    (h0 : ∀ w, (cfg0.win w).isOut = true → Pipeline.arrRef spec0 w ≠ b) (hA : b ∉ opsA_W) :
    W3 m c (Proc.devRef .tc b) = m ((c : Thread nD τ).loc b) :=
  (W3_keep m c b h3).trans ((W2_of_ne m c hs0 hs1).trans ((W1_keep m c b h1).trans ((W0_keep m c b h0).trans (Wa_of_not_mem m c hA))))

abbrev argRefs : List (Ref sig .tc) :=
  [main_arg0, main_arg1, main_arg2, main_arg3, main_arg4, main_arg5, main_arg6, main_arg7, main_arg8, main_arg9, main_arg10]

/-- Nothing up to the third region's exit writes an argument array, so each still reads as launched. -/
theorem W3_arg (c : Dev nD) (b : Ref sig .tc) (hb : b ∈ argRefs) : W3 m c (Proc.devRef .tc b) = m ((c : Thread nD τ).loc b) :=
  W3_of_unwritten m c b
    ((by decide : ∀ b ∈ argRefs, ∀ w, (cfg3.win w).isOut = true → Pipeline.arrRef spec3 w ≠ b) b hb)
    ((by decide : ∀ b ∈ argRefs, b ≠ main_v21_0) b hb) ((by decide : ∀ b ∈ argRefs, b ≠ main_v21_1) b hb)
    ((by decide : ∀ b ∈ argRefs, ∀ w, (cfg1.win w).isOut = true → Pipeline.arrRef spec1 w ≠ b) b hb)
    ((by decide : ∀ b ∈ argRefs, ∀ w, (cfg0.win w).isOut = true → Pipeline.arrRef spec0 w ≠ b) b hb)
    ((by decide : ∀ b ∈ argRefs, b ∉ opsA_W) b hb)

theorem W4_arg (c : Dev nD) (b : Ref sig .tc) (hb : b ∈ argRefs) : W4 m c (Proc.devRef .tc b) = m ((c : Thread nD τ).loc b) :=
  (W4_keep m c b ((by decide : ∀ b ∈ argRefs, ∀ w, (cfg4.win w).isOut = true → Pipeline.arrRef spec4 w ≠ b) b hb)).trans
    ((Wb_of_not_mem m c ((by decide : ∀ b ∈ argRefs, b ∉ opsB_W) b hb)).trans (W3_arg m c b hb))

theorem X_rA (d : Dev nD) : (X m d).rA = Wa m d (Proc.devRef .tc main_v3) :=
  calc (X m d).rA
    _ = W1 m d (Proc.devRef .tc main_v3) := rfl
    _ = W0 m d (Proc.devRef .tc main_v3) := W1_of_ne m d main_v3 (by decide)
    _ = Wa m d (Proc.devRef .tc main_v3) := W0_of_ne m d main_v3 (by decide)

theorem X_cA (d : Dev nD) : (X m d).cA = Wa m d (Proc.devRef .tc main_v7) :=
  calc (X m d).cA
    _ = W1 m d (Proc.devRef .tc main_v7) := rfl
    _ = W0 m d (Proc.devRef .tc main_v7) := W1_of_ne m d main_v7 (by decide)
    _ = Wa m d (Proc.devRef .tc main_v7) := W0_of_ne m d main_v7 (by decide)

theorem lists_inRange (h : ∀ (c : Dev nD) i, ((m ((c : Thread nD τ).loc main_arg1) : Vec F S2x320000 .i32) i).toNat < 10000) :
    ∀ d, (∀ x, ((X m d).rA x).toNat < 10000) ∧ (∀ x, ((X m d).cA x).toNat < 10000) := by
  intro d
  constructor
  · intro x
    rw [X_rA, eq_ix1 x]
    refine lt_of_eq_of_lt (congrArg BitVec.toNat (Wa_v3 m d (x 0))) ?_
    by_cases hx : (x 0).val < 320000
    · rw [dif_pos hx]; exact h d _
    · rw [dif_neg hx]; decide
  · intro x
    rw [X_cA, eq_ix1 x]
    refine lt_of_eq_of_lt (congrArg BitVec.toNat (Wa_v7 m d (x 0))) ?_
    by_cases hx : (x 0).val < 320000
    · rw [dif_pos hx]; exact h d _
    · rw [dif_neg hx]; decide

end Cert.KernelIdeal.KProof

end
-- ==== Proof.KSplit.lean ====
import proofs.«208460_g27728308863843_cont_9to1_469_33_alg».proof.Proof.KPay
import Idealize.SL.ProofMode.BigOp
import Idealize.ShloMosaic.Rules.PointsTo
import Mathlib.Logic.Equiv.Fin.Basic

noncomputable section

namespace Cert.KernelIdeal.KProof

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

theorem base_end_le {w w' : ℕ} (h : w < w') : base w + nch w ≤ base w' := by
  unfold base nch; split <;> omega

theorem rows_apart {w w' r : ℕ} (hw : w ≠ w')
    (h : 128 * base w ≤ r ∧ r < 128 * (base w + nch w)) (h' : 128 * base w' ≤ r ∧ r < 128 * (base w' + nch w')) : False := by
  rcases Nat.lt_or_gt_of_ne hw with l | l
  · have := base_end_le l; omega
  · have := base_end_le l; omega

theorem row_tile (r : ℕ) (h : r < 320000) : ∃ w, w < 32 ∧ 128 * base w ≤ r ∧ r < 128 * (base w + nch w) := by
  by_cases hk : r / 128 < 316
  · have hw : r / 128 / 79 < 4 := by omega
    have hn : nch (r / 128 / 79) = 79 := if_pos hw
    refine ⟨r / 128 / 79, by omega, ?_, ?_⟩
    · unfold base; omega
    · rw [hn]; unfold base; omega
  · have hw : ¬ (r / 128 - 4) / 78 < 4 := by omega
    have hn : nch ((r / 128 - 4) / 78) = 78 := if_neg hw
    refine ⟨(r / 128 - 4) / 78, by omega, ?_, ?_⟩
    · unfold base; omega
    · rw [hn]; unfold base; omega

theorem wid_inj {c c' : Fin 2} {i i' : Fin 16} (h : wid c i = wid c' i') : c = c' ∧ i = i' := by
  unfold wid at h; exact ⟨Fin.ext (by omega), Fin.ext (by omega)⟩

theorem wid_surj {w : ℕ} (h : w < 32) : ∃ (c : Fin 2) (i : Fin 16), wid c i = w :=
  ⟨⟨w % 2, by omega⟩, ⟨w / 2, by omega⟩, by unfold wid; show 2 * (w / 2) + w % 2 = w; omega⟩

theorem mem_coreRows {c : Fin 2} {j : S320000x128.Idx} : j ∈ coreRows c ↔ ∃ i : Fin 16, j ∈ rowsOf (wid c i) := by
  unfold coreRows; rw [Finset.mem_biUnion]
  exact ⟨fun ⟨i, _, h⟩ => ⟨i, h⟩, fun ⟨i, h⟩ => ⟨i, Finset.mem_univ _, h⟩⟩

theorem rowsOf_disjoint {w w' : ℕ} (h : w ≠ w') : Disjoint (rowsOf w) (rowsOf w') :=
  Finset.disjoint_left.mpr fun _ hj hj' => rows_apart h (mem_rowsOf.mp hj) (mem_rowsOf.mp hj')

theorem tiles_disjoint (c : Fin 2) : ∀ i ∈ (Finset.univ : Finset (Fin 16)), ∀ i' ∈ (Finset.univ : Finset (Fin 16)),
    i ≠ i' → Disjoint (rowsOf (wid c i)) (rowsOf (wid c i')) :=
  fun _ _ _ _ h => rowsOf_disjoint fun e => h (wid_inj e).2

theorem cores_disjoint : ∀ c ∈ (Finset.univ : Finset (Fin 2)), ∀ c' ∈ (Finset.univ : Finset (Fin 2)),
    c ≠ c' → Disjoint (coreRows c) (coreRows c') :=
  fun _ _ _ _ h => Finset.disjoint_left.mpr fun _ hj hj' => by
    obtain ⟨i, hi⟩ := mem_coreRows.mp hj
    obtain ⟨i', hi'⟩ := mem_coreRows.mp hj'
    exact Finset.disjoint_left.mp (rowsOf_disjoint fun e => h (wid_inj e).1) hi hi'

theorem cores_cover : (Finset.univ : Finset (Fin 2)).biUnion coreRows = Finset.univ := by
  refine Finset.eq_univ_iff_forall.mpr fun j => ?_
  obtain ⟨w, hw, h1, h2⟩ := row_tile (j 0).val (idx2_lt0 j)
  obtain ⟨c, i, rfl⟩ := wid_surj hw
  exact Finset.mem_biUnion.mpr ⟨c, Finset.mem_univ _, mem_coreRows.mpr ⟨i, mem_rowsOf.mpr ⟨h1, h2⟩⟩⟩

def halves (n : ℕ) : Fin (2 ^ n) ⊕ Fin (2 ^ n) ≃ Fin (2 ^ (n + 1)) :=
  finSumFinEquiv.trans (finCongr (by omega))

theorem halves_val (n : ℕ) (s : Fin (2 ^ n) ⊕ Fin (2 ^ n)) :
    (halves n s).val = Sum.elim (fun a => a.val) (fun b => 2 ^ n + b.val) s := by
  rcases s with a | b
  · simp [halves]
  · simp [halves]; omega

theorem leaf_halves (n : ℕ) (q : PosShare TreeShare) (s : Fin (2 ^ n) ⊕ Fin (2 ^ n)) :
    leaf (n + 1) q (halves n s) = Sum.elim (leaf n q.left) (leaf n q.right) s := by
  rcases s with a | b
  · have h : (halves n (Sum.inl a)).val < 2 ^ n := by rw [halves_val]; exact a.isLt
    rw [leaf, dif_pos h]
    exact congrArg (leaf n q.left) (Fin.ext (by rw [halves_val]; rfl))
  · have h : ¬ (halves n (Sum.inr b)).val < 2 ^ n := by rw [halves_val]; show ¬ 2 ^ n + b.val < 2 ^ n; omega
    rw [leaf, dif_neg h]
    exact congrArg (leaf n q.right) (Fin.ext (by show (halves n (Sum.inr b)).val - 2 ^ n = b.val; rw [halves_val]; show 2 ^ n + b.val - 2 ^ n = b.val; omega))

theorem pointsTo_leaves {ℓ : Loc nD τ sig} (I : Finset (Idx ℓ)) (f : Buf (Elt F) ℓ) (n : ℕ) :
    ∀ q : PosShare TreeShare, (ℓ ↦[I]{q} f : sProp 𝕄) = bigSep Finset.univ fun i : Fin (2 ^ n) => ℓ ↦[I]{leaf n q i} f := by
  induction n with
  | zero =>
    intro q
    exact (bigSep_univ_of_subsingleton (I := Fin 1) 0 (Φ := fun i : Fin (2 ^ 0) => (ℓ ↦[I]{leaf 0 q i} f : sProp 𝕄))).symm
  | succ n ih =>
    intro q
    have hq : (ℓ ↦[I]{q} f : sProp 𝕄) = iprop((ℓ ↦[I]{q.left} f) ∗ ℓ ↦[I]{q.right} f) :=
      BI.Entails.antisymm (pointsTo_share (PosShare.mem_left_op_right q)).1 (pointsTo_share (PosShare.mem_left_op_right q)).2
    have hs : (bigSep Finset.univ fun i : Fin (2 ^ (n + 1)) => (ℓ ↦[I]{leaf (n + 1) q i} f : sProp 𝕄))
        = bigSep Finset.univ fun s : Fin (2 ^ n) ⊕ Fin (2 ^ n) => ℓ ↦[I]{Sum.elim (leaf n q.left) (leaf n q.right) s} f :=
      (bigSep_univ_equiv (halves n) _).trans (bigSep_congr fun s _ => by rw [leaf_halves])
    rw [hs, bigSep_univ_sum, hq, ih q.left, ih q.right]
    rfl

theorem half_zero : half 0 = fullShare.left := rfl
theorem half_one : half 1 = fullShare.right := rfl

theorem pts_halves {ℓ : Loc nD τ sig} (I : Finset (Idx ℓ)) (f : Buf (Elt F) ℓ) :
    (ℓ ↦[I]{fullShare} f : sProp 𝕄) = bigSep Finset.univ fun c : Fin 2 => ℓ ↦[I]{half c} f := by
  rw [bigSep_univ_two, half_zero, half_one]
  exact BI.Entails.antisymm (pointsTo_share (PosShare.mem_left_op_right fullShare)).1
    (pointsTo_share (PosShare.mem_left_op_right fullShare)).2

theorem pts_tiles {ℓ : Loc nD τ sig} (I : Finset (Idx ℓ)) (f : Buf (Elt F) ℓ) (c : Fin 2) :
    (ℓ ↦[I]{half c} f : sProp 𝕄) = bigSep Finset.univ fun i : Fin 16 => ℓ ↦[I]{tq c i} f :=
  pointsTo_leaves I f 4 (half c)

variable (X : (d : Dev nD) → CallVals F d)

theorem sPts_tiles (d : Dev nD) (c : Fin 2) (f : Buf (Elt F) (sLoc d)) :
    (sLoc d ↦[coreRows c]{fullShare} f : sProp 𝕄) = bigSep Finset.univ fun i : Fin 16 => sLoc d ↦[rowsOf (wid c i)]{fullShare} f :=
  pointsTo_biUnion Finset.univ (ℓ := sLoc d) (fun i : Fin 16 => rowsOf (wid c i)) (tiles_disjoint c)

theorem gPts_tiles (d : Dev nD) (c : Fin 2) (f : Buf (Elt F) (gLoc d)) :
    (gLoc d ↦[coreRows c]{fullShare} f : sProp 𝕄) = bigSep Finset.univ fun i : Fin 16 => gLoc d ↦[rowsOf (wid c i)]{fullShare} f :=
  pointsTo_biUnion Finset.univ (ℓ := gLoc d) (fun i : Fin 16 => rowsOf (wid c i)) (tiles_disjoint c)

theorem sPts_cores (d : Dev nD) (f : Buf (Elt F) (sLoc d)) :
    (sLoc d ↦{fullShare} f : sProp 𝕄) = bigSep Finset.univ fun c : Fin 2 => sLoc d ↦[coreRows c]{fullShare} f := by
  rw [← pointsTo_biUnion Finset.univ (ℓ := sLoc d) coreRows cores_disjoint, cores_cover]; try rfl

theorem gPts_cores (d : Dev nD) (f : Buf (Elt F) (gLoc d)) :
    (gLoc d ↦{fullShare} f : sProp 𝕄) = bigSep Finset.univ fun c : Fin 2 => gLoc d ↦[coreRows c]{fullShare} f := by
  rw [← pointsTo_biUnion Finset.univ (ℓ := gLoc d) coreRows cores_disjoint, cores_cover]; try rfl

theorem bigSep_sep_pure {I : Type} [DecidableEq I] (St : Finset I) (φ : I → Prop) (Ψ : I → sProp 𝕄) :
    (bigSep St fun i => iprop(Ψ i ∗ ⌜φ i⌝)) ⊢ iprop(bigSep St Ψ ∗ ⌜∀ i ∈ St, φ i⌝) :=
by
  refine (show (bigSep St fun i => iprop(Ψ i ∗ ⌜φ i⌝)) ⊢ bigSep St fun i => iprop(⌜φ i⌝ ∗ Ψ i) from
    bigSep_mono fun i _ => (sep_comm.1 : iprop(Ψ i ∗ ⌜φ i⌝) ⊢ iprop(⌜φ i⌝ ∗ Ψ i))).trans ?_
  refine (bigSep_pure_sep St φ Ψ).trans ?_
  exact (sep_comm.1 : iprop(⌜∀ i ∈ St, φ i⌝ ∗ bigSep St Ψ) ⊢ iprop(bigSep St Ψ ∗ ⌜∀ i ∈ St, φ i⌝))

/-- A row's requirement reads that row only, so disjoint row sets each holding their gathered rows join into their union. -/
theorem outDone_join {T : Type} [DecidableEq T] (d : Dev nD) (St : Finset T) (R : T → Finset S320000x128.Idx)
    (hd : ∀ t ∈ St, ∀ t' ∈ St, t ≠ t' → Disjoint (R t) (R t')) :
    (bigSep St fun t => outDone X d (R t)) ⊢ outDone X d (St.biUnion R) := by
  haveI : Nonempty (Buf (Elt F) (sLoc d)) := ⟨(X d).s0⟩
  haveI : Nonempty (Buf (Elt F) (gLoc d)) := ⟨(X d).g0⟩
  unfold outDone
  refine (bigSep_exists_pi St (fun t (fs : Buf (Elt F) (sLoc d)) => iprop(∃ fg, outPts d (R t) fs fg
    ∗ ⌜∀ j ∈ R t, Gath (F := F) (X d).aT (X d).rA fs j ∧ Gath (F := F) (X d).bT (X d).cA fg j⌝))).trans ?_
  iintro ⟨%fs, H⟩
  ihave H := (bigSep_exists_pi St (fun t (fg : Buf (Elt F) (gLoc d)) => iprop(outPts d (R t) (fs t) fg
    ∗ ⌜∀ j ∈ R t, Gath (F := F) (X d).aT (X d).rA (fs t) j ∧ Gath (F := F) (X d).bT (X d).cA fg j⌝))) $$ H
  icases H with ⟨%fg, H⟩
  ihave H := (bigSep_sep_pure (F := F) St
    (fun t => ∀ j ∈ R t, Gath (F := F) (X d).aT (X d).rA (fs t) j ∧ Gath (F := F) (X d).bT (X d).cA (fg t) j)
    (fun t => outPts d (R t) (fs t) (fg t))) $$ H
  icases H with ⟨H, %hG⟩
  ihave H := (Entails.of_eq (bigSep_sep' St (fun t => (sLoc d ↦[R t]{fullShare} fs t : sProp 𝕄))
    (fun t => (gLoc d ↦[R t]{fullShare} fg t : sProp 𝕄)))) $$ H
  icases H with ⟨Hs, Hg⟩
  ihave Hs := (pointsTo_biUnion_join (ℓ := sLoc d) (q := fullShare) (Val := Elt F) St R fs (X d).s0 hd) $$ Hs
  ihave Hg := (pointsTo_biUnion_join (ℓ := gLoc d) (q := fullShare) (Val := Elt F) St R fg (X d).g0 hd) $$ Hg
  icases Hs with ⟨%ks, %hs, Hs⟩
  icases Hg with ⟨%kg, %hg, Hg⟩
  iexists ks, kg
  isplitl [Hs Hg]
  · isplitl [Hs]; · iexact Hs
    iexact Hg
  · ipureintro
    intro j hj
    obtain ⟨t, ht, hjt⟩ := Finset.mem_biUnion.mp hj
    exact ⟨Gath_congr (hs t ht j hjt) (hG t ht j hjt).1, Gath_congr (hg t ht j hjt) (hG t ht j hjt).2⟩

theorem outDone_cores (d : Dev nD) : (bigSep Finset.univ fun c : Fin 2 => outDone X d (coreRows c)) ⊢ outDone X d Finset.univ := by
  have h := outDone_join X d Finset.univ coreRows cores_disjoint
  rwa [cores_cover] at h

theorem inPts_tiles (d : Dev nD) (c : Fin 2) :
    inPts X d (half c) = bigSep Finset.univ fun i : Fin 16 => inPts X d (tq c i) := by
  rw [bigSep_sep', bigSep_sep', bigSep_sep',
    ← pts_tiles (ℓ := rLoc d) Finset.univ (X d).rA c, ← pts_tiles (ℓ := cLoc d) Finset.univ (X d).cA c,
    ← pts_tiles (ℓ := aLoc d) Finset.univ (X d).aT c, ← pts_tiles (ℓ := bLoc d) Finset.univ (X d).bT c]

theorem inPts_cores (d : Dev nD) :
    inPts X d fullShare = bigSep Finset.univ fun c : Fin 2 => inPts X d (half c) := by
  rw [bigSep_sep', bigSep_sep', bigSep_sep',
    ← pts_halves (ℓ := rLoc d) Finset.univ (X d).rA, ← pts_halves (ℓ := cLoc d) Finset.univ (X d).cA,
    ← pts_halves (ℓ := aLoc d) Finset.univ (X d).aT, ← pts_halves (ℓ := bLoc d) Finset.univ (X d).bT]

theorem outPts_tiles (d : Dev nD) (c : Fin 2) (fs : Buf (Elt F) (sLoc d)) (fg : Buf (Elt F) (gLoc d)) :
    outPts d (coreRows c) fs fg = bigSep Finset.univ fun i : Fin 16 => outPts d (rowsOf (wid c i)) fs fg := by
  rw [bigSep_sep', ← sPts_tiles, ← gPts_tiles]

theorem outPts_cores (d : Dev nD) (fs : Buf (Elt F) (sLoc d)) (fg : Buf (Elt F) (gLoc d)) :
    outPts d Finset.univ fs fg = bigSep Finset.univ fun c : Fin 2 => outPts d (coreRows c) fs fg := by
  rw [bigSep_sep', ← sPts_cores, ← gPts_cores]

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P X) 0 := by
  intro d c
  show iprop(inPts X d (half (Fin.cast nCore_zero c)) ∗ outPts d (coreRows (Fin.cast nCore_zero c)) (X d).s0 (X d).g0)
    ⊢ |={Set.univ}=> iprop(
      (bigSep Finset.univ fun i : Fin ((K (F := F)).nSub 0) =>
        iprop(inPts X d (tq (Fin.cast nCore_zero c) (Fin.cast nSub_zero i))
          ∗ outPts d (rowsOf (wid (Fin.cast nCore_zero c) (Fin.cast nSub_zero i))) (X d).s0 (X d).g0))
      ∗ ((bigSep Finset.univ fun i : Fin ((K (F := F)).nSub 0) =>
          iprop(inPts X d (tq (Fin.cast nCore_zero c) (Fin.cast nSub_zero i))
            ∗ outDone X d (rowsOf (wid (Fin.cast nCore_zero c) (Fin.cast nSub_zero i)))))
        -∗ iprop(inPts X d (half (Fin.cast nCore_zero c)) ∗ outDone X d (coreRows (Fin.cast nCore_zero c)))))
  generalize Fin.cast nCore_zero c = c'
  rw [bigSep_tiles (F := F) (fun i => iprop(inPts X d (tq c' i) ∗ outPts d (rowsOf (wid c' i)) (X d).s0 (X d).g0)),
    bigSep_tiles (F := F) (fun i => iprop(inPts X d (tq c' i) ∗ outDone X d (rowsOf (wid c' i)))),
    bigSep_sep' Finset.univ (fun i => inPts X d (tq c' i)) (fun i => outPts d (rowsOf (wid c' i)) (X d).s0 (X d).g0),
    bigSep_sep' Finset.univ (fun i => inPts X d (tq c' i)) (fun i => outDone X d (rowsOf (wid c' i))),
    ← inPts_tiles, ← outPts_tiles]
  iintro H; imodintro
  isplitl [H]; · iexact H
  iintro ⟨Hi, Ho⟩
  isplitl [Hi]; · iexact Hi
  iapply (outDone_join X d Finset.univ (fun i : Fin 16 => rowsOf (wid c' i)) (tiles_disjoint c')); iexact Ho

theorem st_of_whole (d : Dev nD) :
    iprop((rLoc d ↦{fullShare} (X d).rA) ∗ (cLoc d ↦{fullShare} (X d).cA) ∗ (aLoc d ↦{fullShare} (X d).aT) ∗ (bLoc d ↦{fullShare} (X d).bT)
        ∗ (sLoc d ↦{fullShare} (X d).s0) ∗ (gLoc d ↦{fullShare} (X d).g0))
      ⊢ (bigSep Finset.univ fun c : Fin ((K (F := F)).nCore 0) => (P X).st 0 d c : sProp 𝕄) := by
  show _ ⊢ bigSep Finset.univ fun c : Fin ((K (F := F)).nCore 0) =>
    iprop(inPts X d (half (Fin.cast nCore_zero c)) ∗ outPts d (coreRows (Fin.cast nCore_zero c)) (X d).s0 (X d).g0)
  rw [bigSep_cores (F := F) (fun c => iprop(inPts X d (half c) ∗ outPts d (coreRows c) (X d).s0 (X d).g0)),
    bigSep_sep', ← inPts_cores, ← outPts_cores]
  iintro ⟨Hr, Hc, Ha, Hb, Hs, Hg⟩
  isplitl [Hr Hc Ha Hb]
  · isplitl [Hr]; · iexact Hr
    isplitl [Hc]; · iexact Hc
    isplitl [Ha]; · iexact Ha
    iexact Hb
  · isplitl [Hs]; · iexact Hs
    iexact Hg

theorem whole_of_dn (d : Dev nD) :
    (bigSep Finset.univ fun c : Fin ((K (F := F)).nCore 0) => (P X).dn 0 d c : sProp 𝕄)
      ⊢ iprop((rLoc d ↦{fullShare} (X d).rA) ∗ (cLoc d ↦{fullShare} (X d).cA) ∗ (aLoc d ↦{fullShare} (X d).aT) ∗ (bLoc d ↦{fullShare} (X d).bT)
          ∗ ∃ fs fg, (sLoc d ↦{fullShare} fs) ∗ (gLoc d ↦{fullShare} fg)
            ∗ ⌜∀ j, Gath (F := F) (X d).aT (X d).rA fs j ∧ Gath (F := F) (X d).bT (X d).cA fg j⌝) := by
  show (bigSep Finset.univ fun c : Fin ((K (F := F)).nCore 0) =>
    iprop(inPts X d (half (Fin.cast nCore_zero c)) ∗ outDone X d (coreRows (Fin.cast nCore_zero c)))) ⊢ _
  rw [bigSep_cores (F := F) (fun c => iprop(inPts X d (half c) ∗ outDone X d (coreRows c))), bigSep_sep', ← inPts_cores]
  iintro ⟨⟨Hr, Hc, Ha, Hb⟩, Ho⟩
  ihave Ho := (outDone_cores X d) $$ Ho
  unfold outDone
  icases Ho with ⟨%fs, %fg, ⟨Hs, Hg⟩, %hG⟩
  isplitl [Hr]; · iexact Hr
  isplitl [Hc]; · iexact Hc
  isplitl [Ha]; · iexact Ha
  isplitl [Hb]; · iexact Hb
  iexists fs, fg
  isplitl [Hs]; · iexact Hs
  isplitl [Hg]; · iexact Hg
  ipureintro
  exact fun j => hG j (Finset.mem_univ j)

end Cert.KernelIdeal.KProof

end
-- ==== Proof.KCall.lean ====
import proofs.«208460_g27728308863843_cont_9to1_469_33_alg».proof.Proof.KVals
import proofs.«208460_g27728308863843_cont_9to1_469_33_alg».proof.Proof.KSplit

set_option maxRecDepth 16384

noncomputable section

namespace Cert.KernelIdeal.KProof

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev kcR : DevRef τ sig := Proc.devRef .tc (main_v3 : Ref sig .tc)
abbrev kcC : DevRef τ sig := Proc.devRef .tc (main_v7 : Ref sig .tc)
abbrev kcA : DevRef τ sig := Proc.devRef .tc (main_v19_0 : Ref sig .tc)
abbrev kcB : DevRef τ sig := Proc.devRef .tc (main_v19_1 : Ref sig .tc)
abbrev kcS : DevRef τ sig := Proc.devRef .tc (main_v21_0 : Ref sig .tc)
abbrev kcG : DevRef τ sig := Proc.devRef .tc (main_v21_1 : Ref sig .tc)

abbrev S6 : Finset (DevRef τ sig) := {kcR, kcC, kcA, kcB, kcS, kcG}

theorem S6_sub : S6 ⊆ Pipeline.ucRefs τ sig := by decide

omit [FloatOps F] in

theorem held_S6 (d : Dev nD) (W : Valuation τ sig (Elt F)) :
    (StableHlo.held (d : Thread nD τ) S6 W : sProp 𝕄)
      = iprop((rLoc d ↦{fullShare} W kcR) ∗ (cLoc d ↦{fullShare} W kcC) ∗ (aLoc d ↦{fullShare} W kcA) ∗ (bLoc d ↦{fullShare} W kcB)
          ∗ (sLoc d ↦{fullShare} W kcS) ∗ (gLoc d ↦{fullShare} W kcG)) := by
  unfold StableHlo.held S6
  rw [SparseCore.bigSep_insert' (by decide), SparseCore.bigSep_insert' (by decide), SparseCore.bigSep_insert' (by decide),
    SparseCore.bigSep_insert' (by decide), SparseCore.bigSep_insert' (by decide), bigSep_singleton]

variable (m : (ℓ : Loc nD τ sig) → Buf (Elt F) ℓ)

theorem kcW2_S (d : Dev nD) : W2 m d kcS = gath (X m d).aT (X m d).rA :=
  (Function.update_of_ne (show kcS ≠ kcG by decide) _ _).trans (Function.update_self _ _ _)
theorem kcW2_G (d : Dev nD) : W2 m d kcG = gath (X m d).bT (X m d).cA := Function.update_self _ _ _

theorem kcW2_of_ne (d : Dev nD) {b : DevRef τ sig} (hs : b ≠ kcS) (hg : b ≠ kcG) : W2 m d b = W1 m d b :=
  (Function.update_of_ne hg _ _).trans (Function.update_of_ne hs _ _)

theorem held_rest (d : Dev nD) :
    (StableHlo.held (d : Thread nD τ) (Pipeline.ucRefs τ sig \ S6) (W1 m d) : sProp 𝕄)
      = StableHlo.held (d : Thread nD τ) (Pipeline.ucRefs τ sig \ S6) (W2 m d) :=
  StableHlo.held_congr (d : Thread nD τ) fun b hb => by
    have hn : b ∉ S6 := (Finset.mem_sdiff.mp hb).2
    have hs : b ≠ kcS := fun h => hn (by rw [h]; decide)
    have hg : b ≠ kcG := fun h => hn (by rw [h]; decide)
    exact (kcW2_of_ne m d hs hg).symm

theorem wp_call (hr : ∀ d, (∀ x, ((X m d).rA x).toNat < 10000) ∧ (∀ x, ((X m d).cA x).toNat < 10000)) (κ : GSem nD τ sig → ℕ) (d : Dev nD)
    {α : Type} (k : PUnit → Prog (TpuEff nD τ sig (Elt F) (SparseCore.Sig (ΛP (F := F)) 1) .tc) α) (Q : α → sProp 𝕄) :
    iprop((K (F := F)).ctx EH (P (X m)) κ ∗ (K (F := F)).tcSt EH d 0 ∗ StableHlo.held (d : Thread nD τ) (Pipeline.ucRefs τ sig) (W1 m d)
        ∗ (iprop((K (F := F)).tcSt EH d 1 ∗ StableHlo.held (d : Thread nD τ) (Pipeline.ucRefs τ sig) (W2 m d))
            -∗ wp frame (wpE ((K (F := F)).defs (D (F := F))) 𝒱 (d : Thread nD τ) none) Set.univ (k ⟨⟩) Q))
      ⊢ wp frame (wpE ((K (F := F)).defs (D (F := F))) 𝒱 (d : Thread nD τ) none) Set.univ ((sc (F := F)).run d 0 >>= k) Q := by
  rw [wp_bind, StableHlo.held_sub_split (d : Thread nD τ) S6_sub (W1 m d), held_S6,
    StableHlo.held_sub_split (d : Thread nD τ) S6_sub (W2 m d), held_S6, ← held_rest m d,
    kcW2_S, kcW2_G, kcW2_of_ne m d (show kcR ≠ kcS by decide) (show kcR ≠ kcG by decide),
    kcW2_of_ne m d (show kcC ≠ kcS by decide) (show kcC ≠ kcG by decide),
    kcW2_of_ne m d (show kcA ≠ kcS by decide) (show kcA ≠ kcG by decide),
    kcW2_of_ne m d (show kcB ≠ kcS by decide) (show kcB ≠ kcG by decide)]
  iintro ⟨#Hctx, Hst, ⟨⟨Hr, Hc, Ha, Hb, Hs, Hg⟩, Hrest⟩, Hk⟩
  iapply ((K (F := F)).wp_run (D (F := F)) 𝒱 (EH := EH) (P := P (X m)) κ d 0) $$ [Hst Hr Hc Ha Hb Hs Hg Hrest Hk]
  isplitr; · iexact Hctx
  isplitl [Hst]; · iexact Hst
  isplitl [Hr Hc Ha Hb Hs Hg]
  · iapply (st_of_whole (X m) d)
    isplitl [Hr]; · iexact Hr
    isplitl [Hc]; · iexact Hc
    isplitl [Ha]; · iexact Ha
    isplitl [Hb]; · iexact Hb
    isplitl [Hs]; · iexact Hs
    iexact Hg
  iintro ⟨Hst, Hdn⟩
  ihave Hw := (whole_of_dn (X m) d) $$ Hdn
  icases Hw with ⟨Hr, Hc, Ha, Hb, %fs, %fg, Hs, Hg, %hG⟩
  obtain rfl : fs = gath (X m d).aT (X m d).rA := eq_gath_of_Gath (hr d).1 (fun j => (hG j).1)
  obtain rfl : fg = gath (X m d).bT (X m d).cA := eq_gath_of_Gath (hr d).2 (fun j => (hG j).2)
  iapply Hk
  isplitl [Hst]; · iexact Hst
  isplitr [Hrest]
  swap; · iexact Hrest
  isplitl [Hr]; · iexact Hr
  isplitl [Hc]; · iexact Hc
  isplitl [Ha]; · iexact Ha
  isplitl [Hb]; · iexact Hb
  isplitl [Hs]; · iexact Hs
  iexact Hg

end Cert.KernelIdeal.KProof

end
-- ==== Proof.KMain.lean ====
import proofs.«208460_g27728308863843_cont_9to1_469_33_alg».proof.Proof.KVals
import proofs.«208460_g27728308863843_cont_9to1_469_33_alg».proof.Proof.KFold
import proofs.«208460_g27728308863843_cont_9to1_469_33_alg».proof.Proof.KCall
import Idealize.ShloMosaic.Lib.Pipeline.RegionsLoop

set_option maxRecDepth 16384

noncomputable section

namespace Cert.KernelIdeal.KProof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig (HIx 1) (Elt F) ℕ UU ℕ

variable (m : (ℓ : Loc nD τ sig) → Buf (Elt F) ℓ)

abbrev Hd (c : Dev nD) (W : Valuation τ sig (Elt F)) : sProp 𝕄 := StableHlo.held (c : Thread nD τ) (Pipeline.ucRefs τ sig) W

abbrev Rr (c : Dev nD) (n : ℕ) : sProp 𝕄 :=
  iprop((∃ r, prngReg c r) ∗ ∃ W, ⌜(K (F := F)).WBelow (SparseCore.T c) W (8 * n)⌝ ∗ owes (c : Thread nD τ) ((K (F := F)).Otc c n) W)

set_option backward.isDefEq.respectTransparency.types false in

theorem wp_region {p : Fin 4} (R : Pipeline.RegionSeg (pcfgs (F := F)) adm (pdats m) (none : HIx 1) defs₀ 𝒱₀ (K (F := F)).L (K (F := F)).lev p)
    (c : Dev nD) {α : Type} (k : PUnit → Prog (TpuEff nD τ sig (Elt F) (SparseCore.Sig (ΛP (F := F)) 1) .tc) α) (Q : α → sProp 𝕄) :
    iprop((iprop(boundary (c : Thread nD τ) ∗ R.post c) -∗ wp frame (wpE ((K (F := F)).defs (D (F := F))) 𝒱 (c : Thread nD τ) none) Set.univ (k ⟨⟩) Q)
        ∗ boundary (c : Thread nD τ) ∗ R.pre c ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE ((K (F := F)).defs (D (F := F))) 𝒱 (c : Thread nD τ) none) Set.univ
          (Prog.lift (.customCall (SparseCore.inner (Pipeline.entry p)) ()) >>= k) Q := by
  rw [wp_bind]
  refine BI.Entails.trans ?_ ((K (F := F)).wp_liftProg (D (F := F)) 𝒱 (c : Thread nD τ) Set.univ none
    (.op (.customCall (Pipeline.entry p) ()) fun x => .ret x) (fun x => wp frame (wpE ((K (F := F)).defs (D (F := F))) 𝒱 (c : Thread nD τ) none) Set.univ (k x) Q))
  refine BI.Entails.trans ?_ (Pipeline.RegionSeg.wp (pcfgs (F := F)) adm (pdats m) (none : HIx 1) cellOf_inj EP defs₀ 𝒱₀ (K (F := F)).L (K (F := F)).lev R c none
    (fun u hu => nomatch hu) (fun x => .ret x) _)
  show (_ : sProp 𝕄) ⊢ (_ : sProp 𝕄)
  iintro ⟨Hk, Hb, Hpre, Hlev, Hg, Ht⟩
  isplitl [Hk]
  · iintro H
    rw [wp_ret]; imodintro
    iapply Hk; iexact H
  isplitl [Hb]; · iexact Hb
  isplitl [Hpre]; · iexact Hpre
  isplitl [Hlev]; · iexact Hlev
  isplitl [Hg] <;> iassumption

set_option backward.isDefEq.respectTransparency.types false in

def reg0 : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (Va m) (Ob (F := F) c 0) (Bd (F := F) c 0) c).loose
  hwaits c := Pipeline.cellsWaits_of_cut (Pipeline.pin (pcfgs (F := F)) adm) (pdats m) (none : HIx 1) 0 c (0 : ℕ) (Ob (F := F) c 0) (fun _ => rfl)
    (fun _ _ => Finset.mem_univ _) (fun _ _ => le_rfl)
    (fun g i h => ⟨Finset.mem_univ _, lt_of_lt_of_le (Nat.succ_pos _) ((K (F := F)).lev_of_Otc_pos h)⟩)
  pre c := iprop(Hd c (Wa m c) ∗ Rr (F := F) c 0)
  post c := iprop(Hd c (W0 m c) ∗ Rr (F := F) c 0)
  X c := iprop(∃ r, prngReg c r)
  Y c := iprop(∃ r, prngReg c r)
  Z c := Pipeline.unscopedRest (Ix := HIx 1) (Name := ℕ) (U := UU) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    icases HO with ⟨%W, %hW, HO⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitl [Hp]; · iexact Hp
    iexact Hrest
  hin c := by
    change _ ⊢ iprop(Pipeline.scopedRest (Ix := HIx 1) (Name := ℕ) (U := UU) (Lvl := ℕ) (Val := Elt F) spec0 c ∗ ∃ r, prngReg c r)
    iintro ⟨Hp, -, Hr⟩
    isplitl [Hr]; · iexact Hr
    iexact Hp
  hout c := by
    rw [Pipeline.ownSems0_none]
    change iprop(Pipeline.scopedRest (Ix := HIx 1) (Name := ℕ) (U := UU) (Lvl := ℕ) (Val := Elt F) spec0 c ∗ ∃ r, prngReg c r) ⊢ _
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (Va m c) (fun b => W0 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

set_option backward.isDefEq.respectTransparency.types false in

def reg1 : Pipeline.RegionSeg (pcfgs (F := F)) adm (pdats m) (none : HIx 1) defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (body_obligation1 (V0 m) (Ob (F := F) c 0) (Bd (F := F) c 0) c).loose
  hwaits c := Pipeline.cellsWaits_of_cut (Pipeline.pin (pcfgs (F := F)) adm) (pdats m) (none : HIx 1) 1 c (0 : ℕ) (Ob (F := F) c 0) (fun _ => rfl)
    (fun _ _ => Finset.mem_univ _) (fun _ _ => le_rfl)
    (fun g i h => ⟨Finset.mem_univ _, lt_of_lt_of_le (Nat.succ_pos _) ((K (F := F)).lev_of_Otc_pos h)⟩)
  pre c := iprop(Hd c (W0 m c) ∗ Rr (F := F) c 0)
  post c := iprop(Hd c (W1 m c) ∗ Rr (F := F) c 0)
  X c := iprop(∃ r, prngReg c r)
  Y c := iprop(∃ r, prngReg c r)
  Z c := Pipeline.unscopedRest (Ix := HIx 1) (Name := ℕ) (U := UU) (Lvl := ℕ) spec1 c (V0 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    icases HO with ⟨%W, %hW, HO⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitl [Hp]; · iexact Hp
    iexact Hrest
  hin c := by
    change _ ⊢ iprop(Pipeline.scopedRest (Ix := HIx 1) (Name := ℕ) (U := UU) (Lvl := ℕ) (Val := Elt F) spec1 c ∗ ∃ r, prngReg c r)
    iintro ⟨Hp, -, Hr⟩
    isplitl [Hr]; · iexact Hr
    iexact Hp
  hout c := by
    rw [Pipeline.ownSems0_none]
    change iprop(Pipeline.scopedRest (Ix := HIx 1) (Name := ℕ) (U := UU) (Lvl := ℕ) (Val := Elt F) spec1 c ∗ ∃ r, prngReg c r) ⊢ _
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch1.win launch1.arr_whole c (pdats m) ((pdats m 1 c).share_full fun _ => rfl)
      (V0 m c) (fun b => W1 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

set_option backward.isDefEq.respectTransparency.types false in

def reg3 : Pipeline.RegionSeg (pcfgs (F := F)) adm (pdats m) (none : HIx 1) defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body_obligation3 (V2 m) (Ob (F := F) c 1) (Bd (F := F) c 1) c).loose
  hwaits c := Pipeline.cellsWaits_of_cut (Pipeline.pin (pcfgs (F := F)) adm) (pdats m) (none : HIx 1) 2 c (0 : ℕ) (Ob (F := F) c 1) (fun _ => rfl)
    (fun _ _ => Finset.mem_univ _) (fun _ _ => le_rfl)
    (fun g i h => ⟨Finset.mem_univ _, lt_of_lt_of_le (Nat.succ_pos _) ((K (F := F)).lev_of_Otc_pos h)⟩)
  pre c := iprop(Hd c (W2 m c) ∗ Rr (F := F) c 1)
  post c := iprop(Hd c (W3 m c) ∗ Rr (F := F) c 1)
  X c := iprop(∃ r, prngReg c r)
  Y c := iprop(∃ r, prngReg c r)
  Z c := Pipeline.unscopedRest (Ix := HIx 1) (Name := ℕ) (U := UU) (Lvl := ℕ) spec3 c (V2 m c)
  hentry c := by
    rw [Pipeline.ownSems0_none]
    have hsplit := Pipeline.arrays_of_unscopedBufs (p := 2) (pcfgs (F := F)) adm (pdats m) launch3.win launch3.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    icases HO with ⟨%W, %hW, HO⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitl [Hp]; · iexact Hp
    iexact Hrest
  hin c := by
    change _ ⊢ iprop(Pipeline.scopedRest (Ix := HIx 1) (Name := ℕ) (U := UU) (Lvl := ℕ) (Val := Elt F) spec3 c ∗ ∃ r, prngReg c r)
    iintro ⟨Hp, -, Hr⟩
    isplitl [Hr]; · iexact Hr
    iexact Hp
  hout c := by
    rw [Pipeline.ownSems0_none]
    change iprop(Pipeline.scopedRest (Ix := HIx 1) (Name := ℕ) (U := UU) (Lvl := ℕ) (Val := Elt F) spec3 c ∗ ∃ r, prngReg c r) ⊢ _
    iintro ⟨Hr, Hp⟩
    isplitl [Hp]; · iexact Hp
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats m) ((pdats m 2 c).share_full fun _ => rfl)
      (V2 m c) (fun b => W3 m c b) ((pdats m 2 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

set_option backward.isDefEq.respectTransparency.types false in

def reg4 : Pipeline.RegionSeg (pcfgs (F := F)) adm (pdats m) (none : HIx 1) defs₀ 𝒱₀ (K (F := F)).L (K (F := F)).lev 3 where
  win := launch4.win.to₀
  block_pos := launch4.block_pos
  stage_whole := launch4.stage_whole
  K := PEmpty
  osem k := k.elim
  ho := Pipeline.OwnSemFacts.none _
  hbody c := (body_obligation4 (Vb m) (Ob (F := F) c 1) (Bd (F := F) c 1) c).loose
  hwaits c := Pipeline.cellsWaits_of_cut (Pipeline.pin (pcfgs (F := F)) adm) (pdats m) (none : HIx 1) 3 c (0 : ℕ) (Ob (F := F) c 1) (fun _ => rfl)
    (fun _ _ => Finset.mem_univ _) (fun _ _ => le_rfl)
    (fun g i h => ⟨Finset.mem_univ _, lt_of_lt_of_le (Nat.succ_pos _) ((K (F := F)).lev_of_Otc_pos h)⟩)
  pre c := iprop(Hd c (Wb m c) ∗ Rr (F := F) c 1)
  post c := iprop(Hd c (W4 m c) ∗ Rr (F := F) c 1)
  X c := iprop(∃ r, prngReg c r)
  Y c := iprop(∃ r, prngReg c r)
  Z c := Pipeline.unscopedRest (Ix := HIx 1) (Name := ℕ) (U := UU) (Lvl := ℕ) spec4 c (Vb m c)
  hentry c := by
    rw [Pipeline.ownSems0_none]
    have hsplit := Pipeline.arrays_of_unscopedBufs (p := 3) (pcfgs (F := F)) adm (pdats m) launch4.win launch4.arr_whole c
      ((pdats m 3 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    icases HO with ⟨%W, %hW, HO⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitl [Hp]; · iexact Hp
    iexact Hrest
  hin c := by
    change _ ⊢ iprop(Pipeline.scopedRest (Ix := HIx 1) (Name := ℕ) (U := UU) (Lvl := ℕ) (Val := Elt F) spec4 c ∗ ∃ r, prngReg c r)
    iintro ⟨Hp, -, Hr⟩
    isplitl [Hr]; · iexact Hr
    iexact Hp
  hout c := by
    rw [Pipeline.ownSems0_none]
    change iprop(Pipeline.scopedRest (Ix := HIx 1) (Name := ℕ) (U := UU) (Lvl := ℕ) (Val := Elt F) spec4 c ∗ ∃ r, prngReg c r) ⊢ _
    iintro ⟨Hr, Hp⟩
    isplitl [Hp]; · iexact Hp
    isplitr; · iempintro
    iexact Hr
  hexit c := by
    have hjoin := Pipeline.unscopedBufs_of_arrays (p := 3) (pcfgs (F := F)) adm (Ix := HIx 1) (Name := ℕ) (U := UU) (Lvl := ℕ)
      launch4.win launch4.arr_whole c (pdats m) ((pdats m 3 c).share_full fun _ => rfl)
      (Vb m c) (fun b => W4 m c b) ((pdats m 3 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

theorem reg0_pre (d : Dev nD) : (reg0 m).pre d = iprop(Hd d (Wa m d) ∗ Rr (F := F) d 0) := rfl
theorem reg0_post (d : Dev nD) : (reg0 m).post d = iprop(Hd d (W0 m d) ∗ Rr (F := F) d 0) := rfl

theorem reg1_pre (d : Dev nD) : (reg1 m).pre d = iprop(Hd d (W0 m d) ∗ Rr (F := F) d 0) := rfl
theorem reg1_post (d : Dev nD) : (reg1 m).post d = iprop(Hd d (W1 m d) ∗ Rr (F := F) d 0) := rfl

theorem reg3_pre (d : Dev nD) : (reg3 m).pre d = iprop(Hd d (W2 m d) ∗ Rr (F := F) d 1) := rfl
theorem reg3_post (d : Dev nD) : (reg3 m).post d = iprop(Hd d (W3 m d) ∗ Rr (F := F) d 1) := rfl

theorem reg4_pre (d : Dev nD) : (reg4 m).pre d = iprop(Hd d (Wb m d) ∗ Rr (F := F) d 1) := rfl
theorem reg4_post (d : Dev nD) : (reg4 m).post d = iprop(Hd d (W4 m d) ∗ Rr (F := F) d 1) := rfl

theorem opsA_sub : (opsA (F := F)).Forall fun op => op.bufs ⊆ StableHlo.tcRefs τ sig := by
  simp [opsA, List.Forall]

theorem opsA_fresh : (opsA (F := F)).Forall fun op => op.fresh = ∅ := by
  simp only [opsA, List.Forall]; repeat' constructor
theorem opsB_sub : (opsB (F := F)).Forall fun op => op.bufs ⊆ StableHlo.tcRefs τ sig := by
  simp [opsB, List.Forall]
theorem opsB_fresh : (opsB (F := F)).Forall fun op => op.fresh = ∅ := by
  simp only [opsB, List.Forall]; repeat' constructor

set_option maxRecDepth 100000 in
set_option maxHeartbeats 4000000 in

theorem main_eq (d : Dev nD) :
    main (F := F) d = (StableHlo.seq (opsA (F := F)) >>= fun _ =>
      Prog.lift (.customCall (SparseCore.inner (Pipeline.entry 0)) ()) >>= fun _ =>
      Prog.lift (.customCall (SparseCore.inner (Pipeline.entry 1)) ()) >>= fun _ =>
      (sc (F := F)).run d 0 >>= fun _ =>
      Prog.lift (.customCall (SparseCore.inner (Pipeline.entry 2)) ()) >>= fun _ =>
      StableHlo.seq (opsB (F := F)) >>= fun _ =>
      Prog.lift (.customCall (SparseCore.inner (Pipeline.entry 3)) ()) >>= fun _ => pure ⟨⟩) := rfl

abbrev gh (p : Fin 4) (d : Dev nD) : sProp 𝕄 :=
  iprop(Pipeline.cellsGhost (Pipeline.pin (pcfgs (F := F)) adm) EP p d ∗ Pipeline.toksInit (Pipeline.pin (pcfgs (F := F)) adm) EP p d)

abbrev OW (d : Dev nD) (n : ℕ) : sProp 𝕄 :=
  iprop(∃ W, ⌜(K (F := F)).WBelow (SparseCore.T d) W (8 * n)⌝ ∗ owes (SparseCore.T d) ((K (F := F)).Otc d n) W)

def TR (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))
theorem tcSt_eq (d : Dev nD) (n : ℕ) : ((K (F := F)).tcSt EH d n : sProp 𝕄) = iprop(OW (F := F) d n ∗ TR (F := F) d n) := by
  unfold SparseCore.Cfg.tcSt TR; rfl

set_option maxHeartbeats 8000000 in

theorem hmain (ρ : Dev nD → PrngReg)
    (hr : ∀ d, (∀ x, ((X m d).rA x).toNat < 10000) ∧ (∀ x, ((X m d).cA x).toNat < 10000))
    (κ : GSem nD τ sig → ℕ) (d : Dev nD) :
    iprop((K (F := F)).ctx EH (P (X m)) κ ∗ (K (F := F)).tcSt EH d 0 ∗ (K (F := F)).tcRes m ρ d
        ∗ (gh (F := F) 0 d ∗ gh (F := F) 1 d ∗ gh (F := F) 2 d ∗ gh (F := F) 3 d))
      ⊢ wp frame (wpE ((K (F := F)).defs (D (F := F))) 𝒱 (SparseCore.T d) none) Set.univ (main d)
          fun _ => iprop((K (F := F)).tcSt EH d 1 ∗ Hd d (W4 m d)) := by
  unfold SparseCore.Cfg.tcRes
  rw [show (unscopedBufs d (fun b => m ((SparseCore.T d).loc b)) : sProp 𝕄) = Hd d (Wl m d) from Pipeline.unscopedBufs_held d (Wl m d), main_eq]
  iintro ⟨#Hctx, Hst, ⟨Hb, Hheld, -, Hp⟩, ⟨Hg0, Hg1, Hg2, Hg3⟩⟩
  ihave #Hlev := ((K (F := F)).ctx_levAts (EH := EH) (P := P (X m)) κ) $$ Hctx
  ihave Hst' := (Entails.of_eq (tcSt_eq (F := F) d 0)) $$ Hst
  icases Hst' with ⟨HO, Htr⟩

  iapply (StableHlo.wp_seq (defs := (K (F := F)).defs (D (F := F))) 𝒱 none Set.univ d (Pipeline.ucRefs τ sig) _ (opsA (F := F))
    (fun op h => Pipeline.sub_ucRefs op ((List.forall_iff_forall_mem.mp opsA_sub) op h))
    (fun op h => (List.forall_iff_forall_mem.mp opsA_fresh) op h) (Wl m d)) $$ [Hb Hheld]
  · isplitl [Hb] <;> iassumption
  iintro ⟨Hb, Hheld⟩

  iapply (wp_region m (reg0 m) d _ _)
  rw [reg0_pre, reg0_post]
  isplitr [Hb Hheld Hp HO Hg0]
  swap
  · isplitl [Hb]; · iexact Hb
    isplitl [Hheld Hp HO]
    · isplitl [Hheld]; · iexact Hheld
      isplitl [Hp]; · iexists _; iexact Hp
      iexact HO
    isplitr; · iexact Hlev
    iexact Hg0
  iintro ⟨Hb, Hheld, Hp, HO⟩

  iapply (wp_region m (reg1 m) d _ _)
  rw [reg1_pre, reg1_post]
  isplitr [Hb Hheld Hp HO Hg1]
  swap
  · isplitl [Hb]; · iexact Hb
    isplitl [Hheld Hp HO]
    · isplitl [Hheld]; · iexact Hheld
      isplitl [Hp]; · iexact Hp
      iexact HO
    isplitr; · iexact Hlev
    iexact Hg1
  iintro ⟨Hb, Hheld, Hp, HO⟩

  ihave Hst := (Entails.of_eq (tcSt_eq (F := F) d 0).symm) $$ [HO Htr]
  · isplitl [HO] <;> iassumption
  iapply (wp_call m hr κ d _ _)
  isplitr; · iexact Hctx
  isplitl [Hst]; · iexact Hst
  isplitl [Hheld]; · iexact Hheld
  iintro ⟨Hst, Hheld⟩
  ihave Hst' := (Entails.of_eq (tcSt_eq (F := F) d 1)) $$ Hst
  icases Hst' with ⟨HO, Htr⟩

  iapply (wp_region m (reg3 m) d _ _)
  rw [reg3_pre, reg3_post]
  isplitr [Hb Hheld Hp HO Hg2]
  swap
  · isplitl [Hb]; · iexact Hb
    isplitl [Hheld Hp HO]
    · isplitl [Hheld]; · iexact Hheld
      isplitl [Hp]; · iexact Hp
      iexact HO
    isplitr; · iexact Hlev
    iexact Hg2
  iintro ⟨Hb, Hheld, Hp, HO⟩

  iapply (StableHlo.wp_seq (defs := (K (F := F)).defs (D (F := F))) 𝒱 none Set.univ d (Pipeline.ucRefs τ sig) _ (opsB (F := F))
    (fun op h => Pipeline.sub_ucRefs op ((List.forall_iff_forall_mem.mp opsB_sub) op h))
    (fun op h => (List.forall_iff_forall_mem.mp opsB_fresh) op h) (W3 m d)) $$ [Hb Hheld]
  · isplitl [Hb] <;> iassumption
  iintro ⟨Hb, Hheld⟩

  iapply (wp_region m (reg4 m) d _ _)
  rw [reg4_pre, reg4_post]
  isplitr [Hb Hheld Hp HO Hg3]
  swap
  · isplitl [Hb]; · iexact Hb
    isplitl [Hheld Hp HO]
    · isplitl [Hheld]; · iexact Hheld
      isplitl [Hp]; · iexact Hp
      iexact HO
    isplitr; · iexact Hlev
    iexact Hg3
  iintro ⟨-, Hheld, -, HO⟩
  rw [show (pure ⟨⟩ : Prog (TpuEff nD τ sig (Elt F) (SparseCore.Sig (ΛP (F := F)) 1) .tc) PUnit) = .ret ⟨⟩ from rfl, wp_ret]
  imodintro
  isplitl [HO Htr]
  · iapply (Entails.of_eq (tcSt_eq (F := F) d 1).symm)
    isplitl [HO] <;> iassumption
  iexact Hheld

end Cert.KernelIdeal.KProof

end
-- ==== Proof.KTile.lean ====
import proofs.«208460_g27728308863843_cont_9to1_469_33_alg».proof.Proof.KPay

noncomputable section

namespace Cert.KernelIdeal.KProof

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

def chunkSet (n : ℕ) : Finset S320000x128.Idx :=
  Finset.univ.filter fun j => 128 * n ≤ (j 0).val ∧ (j 0).val < 128 * (n + 1)

theorem mem_chunkSet {n : ℕ} {j : S320000x128.Idx} : j ∈ chunkSet n ↔ 128 * n ≤ (j 0).val ∧ (j 0).val < 128 * (n + 1) := by
  simp [chunkSet]

theorem chunk_subset {w k : ℕ} (hk : k < nch w) : chunkSet (base w + k) ⊆ rowsOf w := by
  intro j hj; rw [mem_chunkSet] at hj; rw [mem_rowsOf]; omega

theorem trips1 : ∀ i : grid2.Coords, (k2_t1_loop i).trips = nch (2 * (i 1).val + (i 0).val) := by decide +kernel
theorem trips3 : ∀ i : grid2.Coords, (k2_t3_loop i).trips = nch (2 * (i 1).val + (i 0).val) := by decide +kernel

local notation "rW" => (Memref.whole Cert.KernelIdeal.main_v3_scv : Memref Cert.KernelIdeal.sig Kind.scVector Space.hbm Cert.KernelIdeal.S320128 EltTy.i32)
local notation "cW" => (Memref.whole Cert.KernelIdeal.main_v7_scv : Memref Cert.KernelIdeal.sig Kind.scVector Space.hbm Cert.KernelIdeal.S320128 EltTy.i32)
local notation "aW" => (Memref.whole Cert.KernelIdeal.main_v19_0_scv : Memref Cert.KernelIdeal.sig Kind.scVector Space.hbm Cert.KernelIdeal.S10000x128 EltTy.f32)
local notation "bW" => (Memref.whole Cert.KernelIdeal.main_v19_1_scv : Memref Cert.KernelIdeal.sig Kind.scVector Space.hbm Cert.KernelIdeal.S10000x128 EltTy.f32)
local notation "sW" => (Memref.whole Cert.KernelIdeal.main_v21_0_scv : Memref Cert.KernelIdeal.sig Kind.scVector Space.hbm Cert.KernelIdeal.S320000x128 EltTy.f32)
local notation "gW" => (Memref.whole Cert.KernelIdeal.main_v21_1_scv : Memref Cert.KernelIdeal.sig Kind.scVector Space.hbm Cert.KernelIdeal.S320000x128 EltTy.f32)
local notation "i8" => (Memref.whole Cert.KernelIdeal.cc2_scratch0 : Memref Cert.KernelIdeal.sig Kind.scVector Space.vmem Cert.KernelIdeal.S128 EltTy.i32)
local notation "i9" => (Memref.whole Cert.KernelIdeal.cc2_scratch1 : Memref Cert.KernelIdeal.sig Kind.scVector Space.vmem Cert.KernelIdeal.S128 EltTy.i32)
local notation "r10" => (Memref.whole Cert.KernelIdeal.cc2_scratch2 : Memref Cert.KernelIdeal.sig Kind.scVector Space.vmem Cert.KernelIdeal.S128x128 EltTy.f32)
local notation "r11" => (Memref.whole Cert.KernelIdeal.cc2_scratch3 : Memref Cert.KernelIdeal.sig Kind.scVector Space.vmem Cert.KernelIdeal.S128x128 EltTy.f32)

section Tile

variable (X : (d : Dev nD) → CallVals F d)

def XOK : Prop := ∀ d, (∀ x, ((X d).rA x).toNat < 10000) ∧ (∀ x, ((X d).cA x).toNat < 10000)

variable (d : Dev nD) (L : grid2.Coords)

abbrev cV (L : grid2.Coords) : Fin τ.nSC := (L 0).castLE hcore2
abbrev jV (L : grid2.Coords) : Fin τ.nSub := (L 1).castLE hsub2
theorem bound_zero : grid2.bound 0 = 2 := rfl
theorem bound_one : grid2.bound 1 = 16 := rfl
abbrev cL (L : grid2.Coords) : Fin 2 := Fin.cast bound_zero (L 0)
abbrev iL (L : grid2.Coords) : Fin 16 := Fin.cast bound_one (L 1)

abbrev wL (L : grid2.Coords) : ℕ := wid (cL L) (iL L)

theorem wL_eq : wL L = 2 * (L 1).val + (L 0).val := rfl

abbrev rCh (L : grid2.Coords) (k : Fin (k2_t1_loop L).trips) : Memref sig .scVector .hbm S128 .i32 :=
  (rW).slice (Rect.unit (s := S320128) (k2_off1 L k) S128.size (k2_off1_inb L k)) (fun _ => rfl)
abbrev aAll : Memref sig .scVector .hbm S10000x128 .f32 :=
  (aW).slice (Rect.unit (s := S10000x128) ![0, 0] S10000x128.size inb_S10000x128_S10000x128_0_0) (fun _ => rfl)
abbrev sCh (L : grid2.Coords) (k : Fin (k2_t1_loop L).trips) : Memref sig .scVector .hbm S128x128 .f32 :=
  (sW).slice (Rect.unit (s := S320000x128) (k2_off2 L k) S128x128.size (k2_off2_inb L k)) (fun _ => rfl)

abbrev cCh (L : grid2.Coords) (k : Fin (k2_t3_loop L).trips) : Memref sig .scVector .hbm S128 .i32 :=
  (cW).slice (Rect.unit (s := S320128) (k2_off5 L k) S128.size (k2_off5_inb L k)) (fun _ => rfl)
abbrev bAll : Memref sig .scVector .hbm S10000x128 .f32 :=
  (bW).slice (Rect.unit (s := S10000x128) ![0, 0] S10000x128.size inb_S10000x128_S10000x128_0_0) (fun _ => rfl)
abbrev gCh (L : grid2.Coords) (k : Fin (k2_t3_loop L).trips) : Memref sig .scVector .hbm S128x128 .f32 :=
  (gW).slice (Rect.unit (s := S320000x128) (k2_off6 L k) S128x128.size (k2_off6_inb L k)) (fun _ => rfl)

theorem set_sCh (k : Fin (k2_t1_loop L).trips) : (sCh L k).view.set = chunkSet (base (wL L) + k.val) := by
  have h : (sCh L k).view.set = (Rect.unit (s := S320000x128) (k2_off2 L k) S128x128.size (k2_off2_inb L k)).set := by
    show ((View.whole (main_v21_0_scv : Ref sig .scVector)).slice _).set = _
    rw [View.set_slice]; exact Finset.map_refl
  rw [h]; ext j
  rw [Rect.mem_set_unit, mem_chunkSet, k2_off2_eq, Fin.forall_fin_two, wL_eq]
  have h1 : (j 1).val < 128 := idx2_lt1 j
  simp only [base, Matrix.cons_val_zero, Matrix.cons_val_one, Shape.size]
  omega
theorem set_gCh (k : Fin (k2_t3_loop L).trips) : (gCh L k).view.set = chunkSet (base (wL L) + k.val) := by
  have h : (gCh L k).view.set = (Rect.unit (s := S320000x128) (k2_off6 L k) S128x128.size (k2_off6_inb L k)).set := by
    show ((View.whole (main_v21_1_scv : Ref sig .scVector)).slice _).set = _
    rw [View.set_slice]; exact Finset.map_refl
  rw [h]; ext j
  rw [Rect.mem_set_unit, mem_chunkSet, k2_off6_eq, Fin.forall_fin_two, wL_eq]
  have h1 : (j 1).val < 128 := idx2_lt1 j
  simp only [base, Matrix.cons_val_zero, Matrix.cons_val_one, Shape.size]
  omega

local notation "𝕥" => V d (cV L) (jV L)

abbrev cell (d : Dev nD) (L : grid2.Coords) (s : DmaSems sig S_) : GSem nD τ sig := (V d (cV L) (jV L), .dma s.sem)

theorem cell_ne {a b : DmaSems sig S_} (h : (SemLoc.dma a.sem : SemLoc sig) ≠ SemLoc.dma b.sem) : cell d L a ≠ cell d L b :=
  fun e => h (congrArg Prod.snd e)
theorem cell_mem (s : DmaSems sig S_) (h : (SemLoc.dma s.sem : SemLoc sig).isScoped .scVector = true) : cell d L s ∈ ownCells (nD := nD) 𝕥 :=
  (mem_ownCells (g := cell d L s)).mpr ⟨rfl, h⟩

theorem ownSems0_V :
    (ownSems0 𝕥 : sProp 𝕄)
      = iprop(semVal (cell d L cc2_scoped0) 0 ∗ semVal (cell d L cc2_scoped1) 0 ∗ semVal (cell d L cc2_scoped4) 0 ∗ semVal (cell d L cc2_scoped5) 0
          ∗ semVal (cell d L cc2_scratch4) 0
          ∗ bigSep ((((((ownCells 𝕥).erase (cell d L cc2_scoped0)).erase (cell d L cc2_scoped1)).erase (cell d L cc2_scoped4)).erase (cell d L cc2_scoped5)).erase
              (cell d L cc2_scratch4)) fun g => semVal g 0) := by
  unfold SparseCore.Cfg.ownSems0
  rw [SparseCore.bigSep_erase' (cell_mem d L cc2_scoped0 (by decide)),
    SparseCore.bigSep_erase' (Finset.mem_erase.mpr ⟨cell_ne d L (by decide), cell_mem d L cc2_scoped1 (by decide)⟩),
    SparseCore.bigSep_erase' (Finset.mem_erase.mpr ⟨cell_ne d L (by decide), Finset.mem_erase.mpr ⟨cell_ne d L (by decide), cell_mem d L cc2_scoped4 (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc2_scoped5 (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L cc2_scratch4 (by decide)⟩⟩⟩⟩)]

abbrev sref (L : grid2.Coords) (b : Ref sig .scVector) : DevRef τ sig := (Proc.scVector (cV L) (jV L)).devRef b
theorem sref_ne {a b : Ref sig .scVector} (h : a ≠ b) : sref L a ≠ sref L b := fun e => h (Proc.devRef_injective _ e)
theorem sref_mem (b : Ref sig .scVector) (h : (sref L b).owner = .proc (Proc.scVector (cV L) (jV L))) : sref L b ∈ ownRefs (τ := τ) (.scVector (cV L) (jV L)) :=
  SparseCore.Cfg.mem_ownRefs_of_owner h

theorem ownBufs_V :
    (ownBufs 𝕥 : sProp 𝕄)
      = iprop((∃ f, (𝕥).loc cc2_scratch0 ↦{fullShare} f) ∗ (∃ f, (𝕥).loc cc2_scratch1 ↦{fullShare} f)
          ∗ (∃ f, (𝕥).loc cc2_scratch2 ↦{fullShare} f) ∗ (∃ f, (𝕥).loc cc2_scratch3 ↦{fullShare} f)
          ∗ bigSep (((((ownRefs (τ := τ) (.scVector (cV L) (jV L))).erase (sref L cc2_scratch0)).erase (sref L cc2_scratch1)).erase (sref L cc2_scratch2)).erase
              (sref L cc2_scratch3)) fun b => iprop(∃ f, ((d, b) : Loc nD τ sig) ↦{fullShare} f)) := by
  unfold SparseCore.Cfg.ownBufs
  refine (SparseCore.bigSep_erase' (sref_mem L cc2_scratch0 rfl)).trans ?_
  rw [SparseCore.bigSep_erase' (Finset.mem_erase.mpr ⟨sref_ne L (by decide), sref_mem L cc2_scratch1 rfl⟩),
    SparseCore.bigSep_erase' (Finset.mem_erase.mpr ⟨sref_ne L (by decide), Finset.mem_erase.mpr ⟨sref_ne L (by decide), sref_mem L cc2_scratch2 rfl⟩⟩),
    SparseCore.bigSep_erase' (Finset.mem_erase.mpr ⟨sref_ne L (by decide), Finset.mem_erase.mpr ⟨sref_ne L (by decide),
      Finset.mem_erase.mpr ⟨sref_ne L (by decide), sref_mem L cc2_scratch3 rfl⟩⟩⟩)]

def DoneTo (tab : Vec F S10000x128 .f32) (lst : Vec F S320128 .i32) (f₀ : Vec F S320000x128 .f32) (w k : ℕ)
    (f : Vec F S320000x128 .f32) : Prop :=
  ∀ j ∈ rowsOf w, ((j 0).val < 128 * (base w + k) → Gath tab lst f j) ∧ (128 * (base w + k) ≤ (j 0).val → f j = f₀ j)

theorem doneTo_zero (tab : Vec F S10000x128 .f32) (lst : Vec F S320128 .i32) (f₀ : Vec F S320000x128 .f32) (w : ℕ) :
    DoneTo tab lst f₀ w 0 f₀ := by
  intro j hj; rw [mem_rowsOf] at hj
  exact ⟨fun h => by omega, fun _ => rfl⟩

theorem doneTo_all {tab : Vec F S10000x128 .f32} {lst : Vec F S320128 .i32} {f₀ f : Vec F S320000x128 .f32} {w : ℕ}
    (h : DoneTo tab lst f₀ w (nch w) f) : ∀ j ∈ rowsOf w, Gath tab lst f j := by
  intro j hj; exact (h j hj).1 (mem_rowsOf.mp hj).2

/-- Writing chunk k's gathered rows keeps the earlier chunks gathered and the later rows as they were. -/
theorem doneTo_step {tab : Vec F S10000x128 .f32} {lst : Vec F S320128 .i32} {f₀ f f' : Vec F S320000x128 .f32} {w k : ℕ}
    (h : DoneTo tab lst f₀ w k f) (hin : ∀ j ∈ chunkSet (base w + k), Gath tab lst f' j)
    (hout : ∀ j, j ∉ chunkSet (base w + k) → f' j = f j) : DoneTo tab lst f₀ w (k + 1) f' := by
  intro j hj
  by_cases hc : j ∈ chunkSet (base w + k)
  · refine ⟨fun _ => hin j hc, fun h' => ?_⟩
    rw [mem_chunkSet] at hc; omega
  · have e := hout j hc
    rw [mem_chunkSet] at hc
    refine ⟨fun h' => Gath_congr e ((h j hj).1 (by omega)), fun h' => ?_⟩
    rw [e]; exact (h j hj).2 (by omega)

variable [FloatOps F]

theorem pts_sCh (k : Fin (k2_t1_loop L).trips) (f : Buf (Elt F) (sLoc d)) :
    ((sCh L k).view.loc 𝕥 ↦[(sCh L k).view.set]{fullShare} f : sProp 𝕄) = sLoc d ↦[(sCh L k).view.set]{fullShare} f := rfl
theorem pts_gCh (k : Fin (k2_t3_loop L).trips) (f : Buf (Elt F) (gLoc d)) :
    ((gCh L k).view.loc 𝕥 ↦[(gCh L k).view.set]{fullShare} f : sProp 𝕄) = gLoc d ↦[(gCh L k).view.set]{fullShare} f := rfl

theorem inb_of_ok (hX : XOK X) (k : Fin (k2_t1_loop L).trips) (f8 : Buf (Elt F) ((𝕥).loc cc2_scratch0)) (pay : S128.Idx → Elt F .i32)
    (hpay : pay = (rCh L k).view.read (Elt F) (X d).rA) :
    ∀ x, ((i8).view.read (Elt F) (View.write (Elt F) (i8).view f8 pay Finset.univ) x).toNat < S10000x128.size gathers_S10000x128_S128x128.axis := by
  subst hpay; intro x
  rw [View.write_whole_univ]
  simp only [Memref.view_whole, View.read_whole]
  rw [show ∀ j, (rCh L k).view.read (Elt F) (X d).rA j = (X d).rA ((rCh L k).view.emb j) from fun j => (View.read_apply _ _).trans (cast_eq _ _)]
  exact (hX d).1 _

theorem emb_sCh0 (k : Fin (k2_t1_loop L).trips) (y : S128x128.Idx) :
    (((sCh L k).view.emb y) 0).val = 128 * (base (wL L) + k.val) + (y 0).val := by
  show (k2_off2 L k) 0 + 1 * (y 0).val = _
  rw [k2_off2_eq, wL_eq]; simp only [base, Matrix.cons_val_zero]; omega
theorem emb_sCh1 (k : Fin (k2_t1_loop L).trips) (y : S128x128.Idx) :
    (((sCh L k).view.emb y) 1).val = (y 1).val := by
  show (k2_off2 L k) 1 + 1 * (y 1).val = _
  rw [k2_off2_eq]; simp only [Matrix.cons_val_one, Matrix.cons_val_zero]; omega
theorem emb_rCh0 (k : Fin (k2_t1_loop L).trips) (x : S128.Idx) :
    (((rCh L k).view.emb x) 0).val = 128 * (base (wL L) + k.val) + (x 0).val := by
  show (k2_off1 L k) 0 + 1 * (x 0).val = _
  rw [k2_off1_eq, wL_eq]; simp only [base, Matrix.cons_val_zero]; omega
theorem emb_aAll (z : S10000x128.Idx) : (aAll).view.emb z = z := by
  funext b; apply Fin.ext
  show (![0, 0] : Fin 2 → ℕ) b + 1 * (z b).val = (z b).val
  match b with
  | ⟨0, _⟩ => simp
  | ⟨1, _⟩ => simp
theorem emb_bAll (z : S10000x128.Idx) : (bAll).view.emb z = z := by
  funext b; apply Fin.ext
  show (![0, 0] : Fin 2 → ℕ) b + 1 * (z b).val = (z b).val
  match b with
  | ⟨0, _⟩ => simp
  | ⟨1, _⟩ => simp

theorem chunk_gath1 (k : Fin (k2_t1_loop L).trips) (f : Buf (Elt F) (sLoc d)) (f8 : Buf (Elt F) ((𝕥).loc cc2_scratch0))
    (f10 : Buf (Elt F) ((𝕥).loc cc2_scratch2)) (hn : S128.numel = S128x128.size gathers_S10000x128_S128x128.axis')
    (hin : ∀ x, ((i8).view.read (Elt F) (View.write (Elt F) (i8).view f8 ((rCh L k).view.read (Elt F) (X d).rA) Finset.univ) x).toNat
      < S10000x128.size gathers_S10000x128_S128x128.axis)
    (pay : S128x128.Idx → Elt F .f32)
    (hpay : pay = (r10).view.read (Elt F) (View.write (Elt F) (r10).view f10
            (SparseCore.gatherPayload gathers_S10000x128_S128x128 ((aAll).view.read (Elt F) (X d).aT)
              (SparseCore.rows ((i8).view.read (Elt F) (View.write (Elt F) (i8).view f8 ((rCh L k).view.read (Elt F) (X d).rA) Finset.univ)) hn hin))
            Finset.univ)) :
    ∀ j ∈ chunkSet (base (wL L) + k.val),
      Gath (F := F) (X d).aT (X d).rA ((sCh L k).view.writes (Elt F) f [⟨Rect.whole S128x128, pay⟩]) j := by
  subst hpay
  intro j hj
  rw [← set_sCh] at hj
  obtain ⟨y, -, rfl⟩ := Finset.mem_map.mp hj
  intro h
  have e := View.read_writes_cons_emb (sCh L k).view f (Rect.whole S128x128)
    ((r10).view.read (Elt F) (View.write (Elt F) (r10).view f10
      (SparseCore.gatherPayload gathers_S10000x128_S128x128 ((aAll).view.read (Elt F) (X d).aT)
        (SparseCore.rows ((i8).view.read (Elt F) (View.write (Elt F) (i8).view f8 ((rCh L k).view.read (Elt F) (X d).rA) Finset.univ)) hn hin))
      Finset.univ)) [] y
  rw [Rect.emb_whole_apply] at e
  refine ((cast_eq _ _).symm.trans ((View.read_apply _ _).symm.trans e)).trans ?_
  rw [View.read_write_univ]
  refine ((View.read_apply _ _).trans (cast_eq _ _)).trans ?_
  rw [emb_aAll]
  refine congrArg (X d).aT (funext fun b => Fin.ext ?_)
  match b with
  | ⟨0, hb⟩ =>
    show ((gathers_S10000x128_S128x128.idx _ y) gathers_S10000x128_S128x128.axis).val = _
    rw [Shape.Gathers.idx_axis]
    show ((i8).view.read (Elt F) (View.write (Elt F) (i8).view f8 ((rCh L k).view.read (Elt F) (X d).rA) Finset.univ) _).toNat = ((X d).rA _).toNat
    rw [View.read_write_univ]
    congr 1
    refine ((View.read_apply _ _).trans (cast_eq _ _)).trans (congrArg (X d).rA ?_)
    funext a
    match a with
    | ⟨0, _⟩ =>
      apply Fin.ext
      refine (emb_rCh0 L k _).trans ?_
      show _ = ((sCh L k).view.emb y 0).val
      rw [emb_sCh0]
      congr 1
      exact (Shape.rowMajor_val_one _).symm.trans (congrArg Fin.val (Equiv.apply_symm_apply S128.rowMajor _))
  | ⟨1, hb⟩ =>
    refine (Shape.Gathers.idx_of_ne gathers_S10000x128_S128x128 _ y ⟨1, hb⟩ Nat.one_ne_zero).trans ?_
    exact (emb_sCh1 L k y).symm

theorem chunk_keep1 (k : Fin (k2_t1_loop L).trips) (f : Buf (Elt F) (sLoc d)) (pay : S128x128.Idx → Elt F .f32) :
    ∀ j, j ∉ chunkSet (base (wL L) + k.val) → (sCh L k).view.writes (Elt F) f [⟨Rect.whole S128x128, pay⟩] j = f j := by
  intro j hj
  rw [← set_sCh] at hj
  refine View.write_of_not_mem _ _ _ ?_
  intro hm; apply hj
  obtain ⟨y, -, rfl⟩ := Finset.mem_map.mp hm
  show (sCh L k).view.emb ((Rect.whole S128x128).emb y) ∈ _
  rw [Rect.emb_whole_apply]; exact View.emb_mem_set _ y

theorem rejoin1 (k : Fin (k2_t1_loop L).trips) (hk : k.val < nch (wL L)) (f : Buf (Elt F) (sLoc d)) (pay : S128x128.Idx → Elt F .f32) :
    iprop(((sCh L k).view.loc 𝕥 ↦[(sCh L k).view.set]{fullShare} (sCh L k).view.writes (Elt F) f [⟨Rect.whole S128x128, pay⟩])
        ∗ (sLoc d ↦[rowsOf (wL L) \ (sCh L k).view.set]{fullShare} f))
      ⊢ (sLoc d ↦[rowsOf (wL L)]{fullShare} (sCh L k).view.writes (Elt F) f [⟨Rect.whole S128x128, pay⟩] : sProp 𝕄) := by
  rw [pointsTo_congr (ℓ := sLoc d) (I := rowsOf (wL L) \ (sCh L k).view.set) (f := f)
    (g := (sCh L k).view.writes (Elt F) f [⟨Rect.whole S128x128, pay⟩])
    (fun i hi => (chunk_keep1 d L k f pay i (by rw [← set_sCh]; exact (Finset.mem_sdiff.mp hi).2)).symm)]
  exact (pointsTo_split_subset (by rw [set_sCh]; exact chunk_subset hk)).2

def inv1 (O : CellTallies nD τ sig (HIx 1)) (W : Waits sig (HIx 1)) (k : ℕ) (_ : PUnit) : sProp 𝕄 :=
  iprop(Transfers.MayWaits 𝕥 (none : HIx 1) O
    ∗ ((rW).view.loc 𝕥 ↦{tq (cL L) (iL L)} (X d).rA)
    ∗ ((aW).view.loc 𝕥 ↦{tq (cL L) (iL L)} (X d).aT)
    ∗ (∃ f, (i8).view.loc 𝕥 ↦{fullShare} f)
    ∗ (∃ f, (r10).view.loc 𝕥 ↦{fullShare} f)
    ∗ semVal (cell d L cc2_scoped0) 0 ∗ semVal (cell d L cc2_scoped1) 0 ∗ semVal (cell d L cc2_scratch4) 0
    ∗ (∃ f, (sLoc d ↦[rowsOf (wL L)]{fullShare} f) ∗ ⌜DoneTo (F := F) (X d).aT (X d).rA (X d).s0 (wL L) k f⌝)
    ∗ ∃ W', ⌜∀ p ∈ W', p ∈ W ∨ p.2 = none⌝ ∗ owes 𝕥 O W')

set_option maxHeartbeats 4000000 in
theorem trip1 (hX : XOK X) (O : CellTallies nD τ sig (HIx 1)) (W : Waits sig (HIx 1)) (k : Fin (k2_t1_loop L).trips) (u : Unit) :
    inv1 X d L O W k.val u
      ⊢ wp frame (wpE (defs₀ (F := F)) 𝒱₀ 𝕥 none) Set.univ
          (k2_t1_body L rW (Memref.isWhole_whole _) cW (Memref.isWhole_whole _) aW (Memref.isWhole_whole _) bW (Memref.isWhole_whole _)
            sW (Memref.isWhole_whole _) gW (Memref.isWhole_whole _) i8 (Memref.isWhole_whole _) i9 (Memref.isWhole_whole _)
            r10 (Memref.isWhole_whole _) r11 (Memref.isWhole_whole _) cc2_scratch4 cc2_scoped0 cc2_scoped1 cc2_scoped2 cc2_scoped3
            cc2_scoped4 cc2_scoped5 cc2_scoped6 cc2_scoped7 k u)
          (inv1 X d L O W (k.val + 1)) := by
  have hk : k.val < nch (wL L) := lt_of_lt_of_eq k.isLt (trips1 L)
  unfold k2_t1_body inv1
  iintro ⟨#Hmw, Hr, Ha, ⟨%f8, H8⟩, ⟨%f10, H10⟩, HsA, HsB, HsG, ⟨%f, Hs, %hdone⟩, %W', %hW', HO⟩

  ihave Hs2 := (pointsTo_split_subset (q := fullShare) (f := f) (S := rowsOf (wL L)) (I := (sCh L k).view.set)
    (by rw [set_sCh]; exact chunk_subset hk)).1 $$ Hs
  icases Hs2 with ⟨Hsc, Hsr⟩
  ihave Hsc' := (Entails.of_eq (pts_sCh (F := F) d L k f).symm) $$ Hsc
  sl_exec

  ihave Has := (pointsTo_split_subset (q := tq (cL L) (iL L)) (f := (X d).aT) (S := Finset.univ) (Finset.subset_univ (aAll).view.set)).1 $$ Ha
  icases Has with ⟨Has, Har⟩
  have h10s : (r10).view.set = Finset.univ := View.set_whole _
  have h8s : (i8).view.set = Finset.univ := View.set_whole _
  ihave H10' := (Entails.of_eq (show ((r10).view.loc 𝕥 ↦{fullShare} f10 : sProp 𝕄) = (r10).view.loc 𝕥 ↦[(r10).view.set]{fullShare} f10 by rw [h10s])) $$ H10
  ihave H8' := (Entails.of_eq (show ((i8).view.loc 𝕥 ↦{fullShare} View.write (Elt F) (i8).view f8 (trip1.sl.dma0 X d L k) Finset.univ : sProp 𝕄)
      = (i8).view.loc 𝕥 ↦[(i8).view.set]{fullShare} View.write (Elt F) (i8).view f8 (trip1.sl.dma0 X d L k) Finset.univ by rw [h8s])) $$ H8
  iapply (SparseCore.wp_indirectGatherLocal countersEmb 𝒱₀ 𝕥 none (hg := gathers_S10000x128_S128x128) (default : HIx 1)
      (r10).view.dmaCredit (SparseCore.sum_rowCredit_eq_dmaCredit (r10) _ (fun _ => rfl)) (by decide) (inb_of_ok X d L hX k f8 _ rfl)) $$ [Has H10' H8' HsG]
  · isplitl [Has]; · iexact Has
    isplitl [H10']; · iexact H10'
    isplitl [H8']; · iexact H8'
    iexact HsG
  iintro Hfl
  sl_exec

  iapply (Transfers.wp_waitLocalO countersEmb 𝒱₀ 𝕥 none (default : HIx 1) (rfl : (r10).view.dmaCredit = _)) $$ [Hfl HO]
  · isplitl [Hfl]; · iexact Hfl
    isplitl [HO]; · iexact HO
    iapply (Transfers.MayWaits.elim (SemLoc.dma cc2_scratch4.sem)) $$ Hmw
  iintro ⟨⟨H10', Has, H8'⟩, HsG, HO⟩
  ihave Ha := (pointsTo_split_subset (q := tq (cL L) (iL L)) (f := (X d).aT) (S := Finset.univ) (Finset.subset_univ (aAll).view.set)).2 $$ [Has Har]
  · isplitl [Has] <;> iassumption
  ihave H10 := (Entails.of_eq (show ((r10).view.loc 𝕥 ↦[(r10).view.set]{fullShare} _ : sProp 𝕄) = (r10).view.loc 𝕥 ↦{fullShare} _ by rw [h10s])) $$ H10'
  ihave H8 := (Entails.of_eq (show ((i8).view.loc 𝕥 ↦[(i8).view.set]{fullShare} _ : sProp 𝕄) = (i8).view.loc 𝕥 ↦{fullShare} _ by rw [h8s])) $$ H8'
  sl_exec
  sl_step
  isplitr; · iexact Hmw
  isplitl [Hr]; · iexact Hr
  isplitl [Ha]; · iexact Ha
  isplitl [H8]; · iexists _; iexact H8
  isplitl [H10]; · iexists _; iexact H10
  isplitl [HsA]; · iexact HsA
  isplitl [HsB]; · iexact HsB
  isplitl [HsG]; · iexact HsG
  isplitl [Hsc' Hsr]
  · iexists _
    isplitl [Hsc' Hsr]
    · iapply (rejoin1 (F := F) d L k hk f _) $$ [Hsc' Hsr]
      isplitl [Hsc'] <;> iassumption
    · ipureintro
      exact doneTo_step hdone (chunk_gath1 X d L k f f8 f10 _ _ _ rfl) (chunk_keep1 d L k f _)
  iexists _; isplitr
  swap; · iexact HO
  ipureintro; intro p hp
  rcases Finset.mem_insert.mp hp with hp | hp; · right; subst hp; rfl
  rcases Finset.mem_insert.mp hp with hp | hp; · right; subst hp; rfl
  rcases Finset.mem_insert.mp hp with hp | hp; · right; subst hp; rfl
  exact hW' p hp

theorem inb_of_ok3 (hX : XOK X) (k : Fin (k2_t3_loop L).trips) (f8 : Buf (Elt F) ((𝕥).loc cc2_scratch1)) (pay : S128.Idx → Elt F .i32)
    (hpay : pay = (cCh L k).view.read (Elt F) (X d).cA) :
    ∀ x, ((i9).view.read (Elt F) (View.write (Elt F) (i9).view f8 pay Finset.univ) x).toNat < S10000x128.size gathers_S10000x128_S128x128.axis := by
  subst hpay; intro x
  rw [View.write_whole_univ]
  simp only [Memref.view_whole, View.read_whole]
  rw [show ∀ j, (cCh L k).view.read (Elt F) (X d).cA j = (X d).cA ((cCh L k).view.emb j) from fun j => (View.read_apply _ _).trans (cast_eq _ _)]
  exact (hX d).2 _

theorem emb_gCh0 (k : Fin (k2_t3_loop L).trips) (y : S128x128.Idx) :
    (((gCh L k).view.emb y) 0).val = 128 * (base (wL L) + k.val) + (y 0).val := by
  show (k2_off6 L k) 0 + 1 * (y 0).val = _
  rw [k2_off6_eq, wL_eq]; simp only [base, Matrix.cons_val_zero]; omega
theorem emb_gCh1 (k : Fin (k2_t3_loop L).trips) (y : S128x128.Idx) :
    (((gCh L k).view.emb y) 1).val = (y 1).val := by
  show (k2_off6 L k) 1 + 1 * (y 1).val = _
  rw [k2_off6_eq]; simp only [Matrix.cons_val_one, Matrix.cons_val_zero]; omega
theorem emb_cCh0 (k : Fin (k2_t3_loop L).trips) (x : S128.Idx) :
    (((cCh L k).view.emb x) 0).val = 128 * (base (wL L) + k.val) + (x 0).val := by
  show (k2_off5 L k) 0 + 1 * (x 0).val = _
  rw [k2_off5_eq, wL_eq]; simp only [base, Matrix.cons_val_zero]; omega

theorem chunk_gath3 (k : Fin (k2_t3_loop L).trips) (f : Buf (Elt F) (gLoc d)) (f8 : Buf (Elt F) ((𝕥).loc cc2_scratch1))
    (f10 : Buf (Elt F) ((𝕥).loc cc2_scratch3)) (hn : S128.numel = S128x128.size gathers_S10000x128_S128x128.axis')
    (hin : ∀ x, ((i9).view.read (Elt F) (View.write (Elt F) (i9).view f8 ((cCh L k).view.read (Elt F) (X d).cA) Finset.univ) x).toNat
      < S10000x128.size gathers_S10000x128_S128x128.axis)
    (pay : S128x128.Idx → Elt F .f32)
    (hpay : pay = (r11).view.read (Elt F) (View.write (Elt F) (r11).view f10
            (SparseCore.gatherPayload gathers_S10000x128_S128x128 ((bAll).view.read (Elt F) (X d).bT)
              (SparseCore.rows ((i9).view.read (Elt F) (View.write (Elt F) (i9).view f8 ((cCh L k).view.read (Elt F) (X d).cA) Finset.univ)) hn hin))
            Finset.univ)) :
    ∀ j ∈ chunkSet (base (wL L) + k.val),
      Gath (F := F) (X d).bT (X d).cA ((gCh L k).view.writes (Elt F) f [⟨Rect.whole S128x128, pay⟩]) j := by
  subst hpay
  intro j hj
  rw [← set_gCh] at hj
  obtain ⟨y, -, rfl⟩ := Finset.mem_map.mp hj
  intro h
  have e := View.read_writes_cons_emb (gCh L k).view f (Rect.whole S128x128)
    ((r11).view.read (Elt F) (View.write (Elt F) (r11).view f10
      (SparseCore.gatherPayload gathers_S10000x128_S128x128 ((bAll).view.read (Elt F) (X d).bT)
        (SparseCore.rows ((i9).view.read (Elt F) (View.write (Elt F) (i9).view f8 ((cCh L k).view.read (Elt F) (X d).cA) Finset.univ)) hn hin))
      Finset.univ)) [] y
  rw [Rect.emb_whole_apply] at e
  refine ((cast_eq _ _).symm.trans ((View.read_apply _ _).symm.trans e)).trans ?_
  rw [View.read_write_univ]
  refine ((View.read_apply _ _).trans (cast_eq _ _)).trans ?_
  rw [emb_bAll]
  refine congrArg (X d).bT (funext fun b => Fin.ext ?_)
  match b with
  | ⟨0, hb⟩ =>
    show ((gathers_S10000x128_S128x128.idx _ y) gathers_S10000x128_S128x128.axis).val = _
    rw [Shape.Gathers.idx_axis]
    show ((i9).view.read (Elt F) (View.write (Elt F) (i9).view f8 ((cCh L k).view.read (Elt F) (X d).cA) Finset.univ) _).toNat = ((X d).cA _).toNat
    rw [View.read_write_univ]
    congr 1
    refine ((View.read_apply _ _).trans (cast_eq _ _)).trans (congrArg (X d).cA ?_)
    funext a
    match a with
    | ⟨0, _⟩ =>
      apply Fin.ext
      refine (emb_cCh0 L k _).trans ?_
      show _ = ((gCh L k).view.emb y 0).val
      rw [emb_gCh0]
      congr 1
      exact (Shape.rowMajor_val_one _).symm.trans (congrArg Fin.val (Equiv.apply_symm_apply S128.rowMajor _))
  | ⟨1, hb⟩ =>
    refine (Shape.Gathers.idx_of_ne gathers_S10000x128_S128x128 _ y ⟨1, hb⟩ Nat.one_ne_zero).trans ?_
    exact (emb_gCh1 L k y).symm

theorem chunk_keep3 (k : Fin (k2_t3_loop L).trips) (f : Buf (Elt F) (gLoc d)) (pay : S128x128.Idx → Elt F .f32) :
    ∀ j, j ∉ chunkSet (base (wL L) + k.val) → (gCh L k).view.writes (Elt F) f [⟨Rect.whole S128x128, pay⟩] j = f j := by
  intro j hj
  rw [← set_gCh] at hj
  refine View.write_of_not_mem _ _ _ ?_
  intro hm; apply hj
  obtain ⟨y, -, rfl⟩ := Finset.mem_map.mp hm
  show (gCh L k).view.emb ((Rect.whole S128x128).emb y) ∈ _
  rw [Rect.emb_whole_apply]; exact View.emb_mem_set _ y

theorem rejoin3 (k : Fin (k2_t3_loop L).trips) (hk : k.val < nch (wL L)) (f : Buf (Elt F) (gLoc d)) (pay : S128x128.Idx → Elt F .f32) :
    iprop(((gCh L k).view.loc 𝕥 ↦[(gCh L k).view.set]{fullShare} (gCh L k).view.writes (Elt F) f [⟨Rect.whole S128x128, pay⟩])
        ∗ (gLoc d ↦[rowsOf (wL L) \ (gCh L k).view.set]{fullShare} f))
      ⊢ (gLoc d ↦[rowsOf (wL L)]{fullShare} (gCh L k).view.writes (Elt F) f [⟨Rect.whole S128x128, pay⟩] : sProp 𝕄) := by
  rw [pointsTo_congr (ℓ := gLoc d) (I := rowsOf (wL L) \ (gCh L k).view.set) (f := f)
    (g := (gCh L k).view.writes (Elt F) f [⟨Rect.whole S128x128, pay⟩])
    (fun i hi => (chunk_keep3 d L k f pay i (by rw [← set_gCh]; exact (Finset.mem_sdiff.mp hi).2)).symm)]
  exact (pointsTo_split_subset (by rw [set_gCh]; exact chunk_subset hk)).2

def inv3 (O : CellTallies nD τ sig (HIx 1)) (W : Waits sig (HIx 1)) (k : ℕ) (_ : PUnit) : sProp 𝕄 :=
  iprop(Transfers.MayWaits 𝕥 (none : HIx 1) O
    ∗ ((cW).view.loc 𝕥 ↦{tq (cL L) (iL L)} (X d).cA)
    ∗ ((bW).view.loc 𝕥 ↦{tq (cL L) (iL L)} (X d).bT)
    ∗ (∃ f, (i9).view.loc 𝕥 ↦{fullShare} f)
    ∗ (∃ f, (r11).view.loc 𝕥 ↦{fullShare} f)
    ∗ semVal (cell d L cc2_scoped4) 0 ∗ semVal (cell d L cc2_scoped5) 0 ∗ semVal (cell d L cc2_scratch4) 0
    ∗ (∃ f, (gLoc d ↦[rowsOf (wL L)]{fullShare} f) ∗ ⌜DoneTo (F := F) (X d).bT (X d).cA (X d).g0 (wL L) k f⌝)
    ∗ ∃ W', ⌜∀ p ∈ W', p ∈ W ∨ p.2 = none⌝ ∗ owes 𝕥 O W')

set_option maxHeartbeats 4000000 in
theorem trip3 (hX : XOK X) (O : CellTallies nD τ sig (HIx 1)) (W : Waits sig (HIx 1)) (k : Fin (k2_t3_loop L).trips) (u : Unit) :
    inv3 X d L O W k.val u
      ⊢ wp frame (wpE (defs₀ (F := F)) 𝒱₀ 𝕥 none) Set.univ
          (k2_t3_body L rW (Memref.isWhole_whole _) cW (Memref.isWhole_whole _) aW (Memref.isWhole_whole _) bW (Memref.isWhole_whole _)
            sW (Memref.isWhole_whole _) gW (Memref.isWhole_whole _) i8 (Memref.isWhole_whole _) i9 (Memref.isWhole_whole _)
            r10 (Memref.isWhole_whole _) r11 (Memref.isWhole_whole _) cc2_scratch4 cc2_scoped0 cc2_scoped1 cc2_scoped2 cc2_scoped3
            cc2_scoped4 cc2_scoped5 cc2_scoped6 cc2_scoped7 k u)
          (inv3 X d L O W (k.val + 1)) := by
  have hk : k.val < nch (wL L) := lt_of_lt_of_eq k.isLt (trips3 L)
  unfold k2_t3_body inv3
  iintro ⟨#Hmw, Hr, Ha, ⟨%f8, H8⟩, ⟨%f10, H10⟩, HsA, HsB, HsG, ⟨%f, Hs, %hdone⟩, %W', %hW', HO⟩

  ihave Hs2 := (pointsTo_split_subset (q := fullShare) (f := f) (S := rowsOf (wL L)) (I := (gCh L k).view.set)
    (by rw [set_gCh]; exact chunk_subset hk)).1 $$ Hs
  icases Hs2 with ⟨Hsc, Hsr⟩
  ihave Hsc' := (Entails.of_eq (pts_gCh (F := F) d L k f).symm) $$ Hsc
  sl_exec

  ihave Has := (pointsTo_split_subset (q := tq (cL L) (iL L)) (f := (X d).bT) (S := Finset.univ) (Finset.subset_univ (bAll).view.set)).1 $$ Ha
  icases Has with ⟨Has, Har⟩
  have h10s : (r11).view.set = Finset.univ := View.set_whole _
  have h8s : (i9).view.set = Finset.univ := View.set_whole _
  ihave H10' := (Entails.of_eq (show ((r11).view.loc 𝕥 ↦{fullShare} f10 : sProp 𝕄) = (r11).view.loc 𝕥 ↦[(r11).view.set]{fullShare} f10 by rw [h10s])) $$ H10
  ihave H8' := (Entails.of_eq (show ((i9).view.loc 𝕥 ↦{fullShare} View.write (Elt F) (i9).view f8 (trip3.sl.dma0 X d L k) Finset.univ : sProp 𝕄)
      = (i9).view.loc 𝕥 ↦[(i9).view.set]{fullShare} View.write (Elt F) (i9).view f8 (trip3.sl.dma0 X d L k) Finset.univ by rw [h8s])) $$ H8
  iapply (SparseCore.wp_indirectGatherLocal countersEmb 𝒱₀ 𝕥 none (hg := gathers_S10000x128_S128x128) (default : HIx 1)
      (r11).view.dmaCredit (SparseCore.sum_rowCredit_eq_dmaCredit (r11) _ (fun _ => rfl)) (by decide) (inb_of_ok3 X d L hX k f8 _ rfl)) $$ [Has H10' H8' HsG]
  · isplitl [Has]; · iexact Has
    isplitl [H10']; · iexact H10'
    isplitl [H8']; · iexact H8'
    iexact HsG
  iintro Hfl
  sl_exec

  iapply (Transfers.wp_waitLocalO countersEmb 𝒱₀ 𝕥 none (default : HIx 1) (rfl : (r11).view.dmaCredit = _)) $$ [Hfl HO]
  · isplitl [Hfl]; · iexact Hfl
    isplitl [HO]; · iexact HO
    iapply (Transfers.MayWaits.elim (SemLoc.dma cc2_scratch4.sem)) $$ Hmw
  iintro ⟨⟨H10', Has, H8'⟩, HsG, HO⟩
  ihave Ha := (pointsTo_split_subset (q := tq (cL L) (iL L)) (f := (X d).bT) (S := Finset.univ) (Finset.subset_univ (bAll).view.set)).2 $$ [Has Har]
  · isplitl [Has] <;> iassumption
  ihave H10 := (Entails.of_eq (show ((r11).view.loc 𝕥 ↦[(r11).view.set]{fullShare} _ : sProp 𝕄) = (r11).view.loc 𝕥 ↦{fullShare} _ by rw [h10s])) $$ H10'
  ihave H8 := (Entails.of_eq (show ((i9).view.loc 𝕥 ↦[(i9).view.set]{fullShare} _ : sProp 𝕄) = (i9).view.loc 𝕥 ↦{fullShare} _ by rw [h8s])) $$ H8'
  sl_exec
  sl_step
  isplitr; · iexact Hmw
  isplitl [Hr]; · iexact Hr
  isplitl [Ha]; · iexact Ha
  isplitl [H8]; · iexists _; iexact H8
  isplitl [H10]; · iexists _; iexact H10
  isplitl [HsA]; · iexact HsA
  isplitl [HsB]; · iexact HsB
  isplitl [HsG]; · iexact HsG
  isplitl [Hsc' Hsr]
  · iexists _
    isplitl [Hsc' Hsr]
    · iapply (rejoin3 (F := F) d L k hk f _) $$ [Hsc' Hsr]
      isplitl [Hsc'] <;> iassumption
    · ipureintro
      exact doneTo_step hdone (chunk_gath3 X d L k f f8 f10 _ _ _ rfl) (chunk_keep3 d L k f _)
  iexists _; isplitr
  swap; · iexact HO
  ipureintro; intro p hp
  rcases Finset.mem_insert.mp hp with hp | hp; · right; subst hp; rfl
  rcases Finset.mem_insert.mp hp with hp | hp; · right; subst hp; rfl
  rcases Finset.mem_insert.mp hp with hp | hp; · right; subst hp; rfl
  exact hW' p hp

def inv0 (_ : ℕ) (_ : PUnit) : sProp 𝕄 := iprop(emp)

set_option maxHeartbeats 4000000 in

theorem tile_body (hF : (K (F := F)).Facts) (hX : XOK X) (O : CellTallies nD τ sig (HIx 1)) (W : Waits sig (HIx 1)) (hO : ∀ g, O g none = 0) :
    iprop(levAts (K (F := F)).L (K (F := F)).lev ∗ emp
        ∗ (inPts X d (tq (cL L) (iL L)) ∗ outPts d (rowsOf (wL L)) (X d).s0 (X d).g0)
        ∗ scopedBufs 𝕥 ∗ scopedSems0 𝕥 ∗ owes 𝕥 O W)
      ⊢ wp frame (wpE (defs₀ (F := F)) 𝒱₀ 𝕥 none) Set.univ
          (cc2__sc_edge L rW (Memref.isWhole_whole _) cW (Memref.isWhole_whole _) aW (Memref.isWhole_whole _) bW (Memref.isWhole_whole _)
            sW (Memref.isWhole_whole _) gW (Memref.isWhole_whole _) i8 (Memref.isWhole_whole _) i9 (Memref.isWhole_whole _)
            r10 (Memref.isWhole_whole _) r11 (Memref.isWhole_whole _) cc2_scratch4 cc2_scoped0 cc2_scoped1 cc2_scoped2 cc2_scoped3
            cc2_scoped4 cc2_scoped5 cc2_scoped6 cc2_scoped7)
          fun _ => iprop((inPts X d (tq (cL L) (iL L)) ∗ outDone X d (rowsOf (wL L)))
            ∗ scopedBufs 𝕥 ∗ scopedSems0 𝕥
            ∗ ∃ W', ⌜∀ p ∈ W', p ∈ W ∨ p.2 = none⌝ ∗ owes 𝕥 O W') := by
  simp only [cc2__sc_edge_eq_skeleton]; unfold cc2__sc_edge_skel
  rw [(K (F := F)).scopedBufs_V hF d (cV L) (jV L), SparseCore.Cfg.scopedSems0_V (Val := Elt F) d (cV L) (jV L), ownSems0_V, ownBufs_V]
  iintro ⟨#Hlv, -, ⟨⟨Hr, Hc, Ha, Hb⟩, Hs, Hg⟩, ⟨⟨%f8, H8⟩, ⟨%f9, H9⟩, ⟨%f10, H10⟩, ⟨%f11, H11⟩, Hbufs⟩, ⟨Hs0, Hs1, Hs4, Hs5, HsG, Hsems⟩, HO⟩
  ihave Hmw := (show levAts (K (F := F)).L (K (F := F)).lev ⊢ Transfers.MayWaits 𝕥 (default : HIx 1) O from
    (K (F := F)).mayWaits_none (thr := 𝕥) hO) $$ Hlv

  sl_for (inv1 X d L O W) $$ [Hmw Hr Ha H8 H10 Hs0 Hs1 HsG Hs HO]
  case region => intro k u; exact trip1 X d L hX O W k u
  · unfold inv1
    isplitl [Hmw]; · iexact Hmw
    isplitl [Hr]; · iexact Hr
    isplitl [Ha]; · iexact Ha
    isplitl [H8]; · iexists _; iexact H8
    isplitl [H10]; · iexists _; iexact H10
    isplitl [Hs0]; · iexact Hs0
    isplitl [Hs1]; · iexact Hs1
    isplitl [HsG]; · iexact HsG
    isplitl [Hs]
    · iexists _; isplitl [Hs]; · iexact Hs
      ipureintro; exact doneTo_zero _ _ _ _
    iexists W; isplitr
    · ipureintro; exact fun p hp => .inl hp
    · iexact HO
  iintro %_ HI
  unfold inv1
  icases HI with ⟨-, Hr, Ha, ⟨%f8', H8⟩, ⟨%f10', H10⟩, Hs0, Hs1, HsG, ⟨%fs, Hs, %hs⟩, %W1, %hW1, HO⟩

  sl_for (inv0 (F := F)) $$ []
  case region => intro k; exact absurd k.isLt (Nat.not_lt.2 (Nat.le_trans (k2_t2_abs L).2.1 (Nat.zero_le _)))
  · unfold inv0; iempintro
  iintro %_ -

  ihave Hmw := (show levAts (K (F := F)).L (K (F := F)).lev ⊢ Transfers.MayWaits 𝕥 (default : HIx 1) O from
    (K (F := F)).mayWaits_none (thr := 𝕥) hO) $$ Hlv
  sl_for (inv3 X d L O W1) $$ [Hmw Hc Hb H9 H11 Hs4 Hs5 HsG Hg HO]
  case region => intro k u; exact trip3 X d L hX O W1 k u
  · unfold inv3
    isplitl [Hmw]; · iexact Hmw
    isplitl [Hc]; · iexact Hc
    isplitl [Hb]; · iexact Hb
    isplitl [H9]; · iexists _; iexact H9
    isplitl [H11]; · iexists _; iexact H11
    isplitl [Hs4]; · iexact Hs4
    isplitl [Hs5]; · iexact Hs5
    isplitl [HsG]; · iexact HsG
    isplitl [Hg]
    · iexists _; isplitl [Hg]; · iexact Hg
      ipureintro; exact doneTo_zero _ _ _ _
    iexists W1; isplitr
    · ipureintro; exact fun p hp => .inl hp
    · iexact HO
  iintro %_ HI
  unfold inv3
  icases HI with ⟨-, Hc, Hb, ⟨%f9', H9⟩, ⟨%f11', H11⟩, Hs4, Hs5, HsG, ⟨%fg, Hg, %hg⟩, %W3, %hW3, HO⟩

  sl_for (inv0 (F := F)) $$ []
  case region => intro k; exact absurd k.isLt (Nat.not_lt.2 (Nat.le_trans (k2_t4_abs L).2.1 (Nat.zero_le _)))
  · unfold inv0; iempintro
  iintro %_ -
  sl_exec
  sl_step
  rw [show Scf.trips (k2_t1_loop L).lb (k2_t1_loop L).ub (k2_t1_loop L).st = nch (wL L) from trips1 L] at hs
  rw [show Scf.trips (k2_t3_loop L).lb (k2_t3_loop L).ub (k2_t3_loop L).st = nch (wL L) from trips3 L] at hg
  isplitl [Hr Hc Ha Hb Hs Hg]
  · isplitl [Hr Hc Ha Hb]
    · isplitl [Hr]; · iexact Hr
      isplitl [Hc]; · iexact Hc
      isplitl [Ha]; · iexact Ha
      iexact Hb
    · unfold outDone
      iexists fs; iexists fg
      isplitl [Hs Hg]
      · isplitl [Hs]; · iexact Hs
        iexact Hg
      · ipureintro; exact fun j hj => ⟨doneTo_all hs j hj, doneTo_all hg j hj⟩
  isplitl [H8 H9 H10 H11 Hbufs]
  · isplitl [H8]; · iexists _; iexact H8
    isplitl [H9]; · iexists _; iexact H9
    isplitl [H10]; · iexists _; iexact H10
    isplitl [H11]; · iexists _; iexact H11
    iexact Hbufs
  isplitl [Hs0 Hs1 Hs4 Hs5 HsG Hsems]
  · isplitl [Hs0]; · iexact Hs0
    isplitl [Hs1]; · iexact Hs1
    isplitl [Hs4]; · iexact Hs4
    isplitl [Hs5]; · iexact Hs5
    isplitl [HsG]; · iexact HsG
    iexact Hsems
  iexists W3; isplitr
  · ipureintro; intro p hp
    rcases hW3 p hp with h | h
    · exact hW1 p h
    · exact .inr h
  · iexact HO

end Tile

section Obl

variable (X : (d : Dev nD) → CallVals F d) [FloatOps F]

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__sc_edge (coordsV c s) rW (Memref.isWhole_whole _) cW (Memref.isWhole_whole _) aW (Memref.isWhole_whole _) bW (Memref.isWhole_whole _)
            sW (Memref.isWhole_whole _) gW (Memref.isWhole_whole _) i8 (Memref.isWhole_whole _) i9 (Memref.isWhole_whole _)
            r10 (Memref.isWhole_whole _) r11 (Memref.isWhole_whole _) cc2_scratch4 cc2_scoped0 cc2_scoped1 cc2_scoped2 cc2_scoped3
            cc2_scoped4 cc2_scoped5 cc2_scoped6 cc2_scoped7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hX : XOK X) : (K (F := F)).TileObl (D (F := F)) 𝒱 (P X) v₀ 0 := by
  intro d c i O W hO _ _
  simp only [show (P X).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X d (coordsV ⟨_, hci.1⟩ ⟨_, hci.2⟩) facts hX O W hO).trans (wp_mono frame _ _ fun _ => obl_post)

end Obl

end Cert.KernelIdeal.KProof

end
-- ==== Proof.KGhost.lean ====
import proofs.«208460_g27728308863843_cont_9to1_469_33_alg».proof.Proof.KPay
import Idealize.ShloMosaic.Lib.Pipeline.Sound
import Idealize.ShloMosaic.Lib.Pipeline.Kit

noncomputable section

namespace Cert.KernelIdeal.KProof

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (X : (d : Dev nD) → CallVals F d)

def G (d : Dev nD) : sProp 𝕄 :=
  bigSep Finset.univ fun p : Fin 4 => iprop(Pipeline.cellsGhost (Pipeline.pin (pcfgs (F := F)) adm) EP p d ∗ Pipeline.toksInit (Pipeline.pin (pcfgs (F := F)) adm) EP p d)

theorem G_split (d : Dev nD) : (G (F := F) d : sProp 𝕄)
    = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)
      ∗ (Pipeline.cellsGhost (Pipeline.pin (pcfgs (F := F)) adm) EP 2 d ∗ Pipeline.toksInit (Pipeline.pin (pcfgs (F := F)) adm) EP 2 d)
      ∗ (Pipeline.cellsGhost (Pipeline.pin (pcfgs (F := F)) adm) EP 3 d ∗ Pipeline.toksInit (Pipeline.pin (pcfgs (F := F)) adm) EP 3 d)) := by
  unfold G
  exact bigSep_univ_eq_bigSepL [(0 : Fin 4), (1 : Fin 4), (2 : Fin 4), (3 : Fin 4)] (by decide) (by decide) _

def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem bigSep_emp' {I : Type} (s : Finset I) : (bigSep s fun _ => iprop(emp)) = (iprop(emp) : sProp 𝕄) := bigSep_emp_const s

theorem G_all : (bigSep Finset.univ fun d : Dev nD => G (F := F) d : sProp 𝕄)
    = iprop((bigSep Finset.univ fun c : Dev nD => bigSep Finset.univ fun p : Fin 4 => Pipeline.cellsGhost (Pipeline.pin (pcfgs (F := F)) adm) EP p c)
      ∗ (bigSep Finset.univ fun c : Dev nD => bigSep Finset.univ fun p : Fin 4 => (Pipeline.toksInit (Pipeline.pin (pcfgs (F := F)) adm) EP p c : sProp 𝕄))) := by
  rw [← bigSep_sep']
  exact bigSep_congr fun d _ => by unfold G; exact bigSep_sep' _ _ _

theorem hu₀ : iprop(ownU (u₀ (F := F)) ∗ (P (F := F) X).oxCred ∗ (K (F := F)).freeSems0)
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 1 => (P X).x q thr) : sProp 𝕄) := by
  unfold u₀
  iintro ⟨Hu, -, -⟩
  ihave H := (ownU_split _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · rw [G_all]
    isplitl [Hg]; · iexact Hg
    iexact Ht
  rw [show (bigSep Finset.univ fun thr : Thread nD τ => bigSep Finset.univ fun q : Fin 1 => (P (F := F) X).x q thr) = bigSep Finset.univ fun _ => iprop(emp) from
    bigSep_congr fun _ _ => bigSep_univ_of_subsingleton (0 : Fin 1), bigSep_emp']
  iempintro

end Cert.KernelIdeal.KProof

end
-- ==== Proof.KFin.lean ====
import proofs.«208460_g27728308863843_cont_9to1_469_33_alg».proof.Proof.KFold
import Idealize.ShloMosaic.Lib.Pipeline.Launch
import Idealize.ShloMosaic.Lib.Pipeline.Frame
import Idealize.ShloMosaic.Lib.StableHlo.Run

set_option maxRecDepth 16384

noncomputable section

namespace Cert.KernelIdeal.KProof

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev FIN (d : Dev nD) : sProp 𝕄 := StableHlo.held (d : Thread nD τ) (Pipeline.ucRefs τ sig) (W4 m d)

def fq (d : Dev nD) (s' : Phys nD τ sig (Elt F)) : Prop :=
  ∀ b ∈ Pipeline.ucRefs τ sig, s'.mem.mem ((d : Thread nD τ).1, b) = W4 m d b

theorem hfin (d : Dev nD) (s' : Phys nD τ sig (Elt F)) : iprop(FIN m d ∗ SI s') ⊢ (⌜fq m d s'⌝ : sProp 𝕄) := by
  unfold FIN StableHlo.held fq
  iintro ⟨Hh, HSI⟩
  ihave H := (pointsTo_read_all (Pipeline.ucRefs τ sig) (fun b => ((d : Thread nD τ).1, b)) (W4 m d) s') $$ [Hh HSI]
  · isplitl [Hh] <;> iassumption
  icases H with ⟨%h, -⟩
  ipureintro
  exact h

def QC : PUnit × MemSt nD τ sig (Elt F) → Prop := fun r => ∀ c : Dev nD,
      r.2.mem ((c.tc : Thread nD τ).loc main_v51) = W4 m c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)

theorem hQ : ∀ s' : Phys nD τ sig (Elt F), (∀ d, fq m d s') → QC m (⟨⟩, s'.mem) := fun s' h c =>
  ⟨h c _ (mem_uc main_v51 (by decide)),
    (h c _ (mem_uc main_arg0 (by decide))).trans (W4_arg m c main_arg0 (by decide)),
    (h c _ (mem_uc main_arg1 (by decide))).trans (W4_arg m c main_arg1 (by decide)),
    (h c _ (mem_uc main_arg2 (by decide))).trans (W4_arg m c main_arg2 (by decide)),
    (h c _ (mem_uc main_arg3 (by decide))).trans (W4_arg m c main_arg3 (by decide)),
    (h c _ (mem_uc main_arg4 (by decide))).trans (W4_arg m c main_arg4 (by decide)),
    (h c _ (mem_uc main_arg5 (by decide))).trans (W4_arg m c main_arg5 (by decide)),
    (h c _ (mem_uc main_arg6 (by decide))).trans (W4_arg m c main_arg6 (by decide)),
    (h c _ (mem_uc main_arg7 (by decide))).trans (W4_arg m c main_arg7 (by decide)),
    (h c _ (mem_uc main_arg8 (by decide))).trans (W4_arg m c main_arg8 (by decide)),
    (h c _ (mem_uc main_arg9 (by decide))).trans (W4_arg m c main_arg9 (by decide)),
    (h c _ (mem_uc main_arg10 (by decide))).trans (W4_arg m c main_arg10 (by decide))⟩

end Cert.KernelIdeal.KProof

end
-- ==== Proof.KRun.lean ====
import proofs.«208460_g27728308863843_cont_9to1_469_33_alg».proof.Proof.KMain
import proofs.«208460_g27728308863843_cont_9to1_469_33_alg».proof.Proof.KTile
import proofs.«208460_g27728308863843_cont_9to1_469_33_alg».proof.Proof.KSplit
import proofs.«208460_g27728308863843_cont_9to1_469_33_alg».proof.Proof.KGhost
import proofs.«208460_g27728308863843_cont_9to1_469_33_alg».proof.Proof.KFin
import Idealize.ShloMosaic.Lib.SparseCore.Launch
import Idealize.ShloMosaic.Lib.SparseCore.Threads

set_option maxRecDepth 16384

noncomputable section

namespace Cert.KernelIdeal.KProof

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

theorem hmain' (m : (ℓ : Loc nD τ sig) → Buf (Elt F) ℓ) (ρ : Dev nD → PrngReg)
    (hr : ∀ d, (∀ x, ((X m d).rA x).toNat < 10000) ∧ (∀ x, ((X m d).cA x).toNat < 10000))
    (κ : GSem nD τ sig → ℕ) (d : Dev nD) :
    iprop((K (F := F)).ctx EH (P (X m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  rw [G_split]
  exact hmain m ρ hr κ d

theorem run_main [∀ e, Nonempty (Elt F e)] (m : (ℓ : Loc nD τ sig) → Buf (Elt F) ℓ) (ρ : Dev nD → PrngReg)
    (hr : ∀ d, (∀ x, ((X m d).rA x).toNat < 10000) ∧ (∀ x, ((X m d).cA x).toNat < 10000)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (X m)) facts v₀
    (fun q hq => match q with | 0 => nomatch hq)
    (fun q _ => match q with | 0 => tileObl (X m) hr)
    (fun q _ => match q with | 0 => SparseCore.Cfg.VecSplit.of_plain (vecSplit (X m)))
    m ρ main (fun d => G (F := F) d) (FIN m) (u₀ (F := F)) (hu₀ (X m)) (hmain' m ρ hr) (fq m) (hfin m) (QC m) (hQ m)

end Cert.KernelIdeal.KProof

end
-- ==== Proof.Frames.lean ====
import proofs.«208460_g27728308863843_cont_9to1_469_33_alg».proof.Defs
import proofs.«208460_g27728308863843_cont_9to1_469_33_alg».proof.Proof.Gen.Kernel
import proofs.«208460_g27728308863843_cont_9to1_469_33_alg».proof.Proof.Gen.KernelIdeal
import proofs.«208460_g27728308863843_cont_9to1_469_33_alg».proof.Proof.Gen.Pre_input_domain
import proofs.«208460_g27728308863843_cont_9to1_469_33_alg».proof.Proof.PreDecode
import proofs.«208460_g27728308863843_cont_9to1_469_33_alg».proof.Proof.KRun

set_option maxRecDepth 16384

noncomputable section

namespace Cert.Proof.Frames

open Idealize.ShloMosaic Idealize.SL.Sem

/-- The run with the result's equation dropped; the input domain bounds every word of the edge lists by the row count. -/
theorem frame_ki : Cert.frame_KernelIdeal := fun m g hpre =>
  (θ_run (Cert.KernelIdeal.defs (F := Ideal)) _ _).mono (fun _ h c => (h c).2)
    (Cert.KernelIdeal.KProof.run_main (F := Ideal) m g
      (Cert.KernelIdeal.KProof.lists_inRange m fun c i =>
        Cert.PreDecode.inRange (F := Ideal) _ _ _ _ _ _ _ _ _ _ _ (hpre c) i))

set_option smartUnfolding false in
set_option maxHeartbeats 4000000 in
/-- No operation was rewritten, so both printed programs are one term and the run, generic in the float instance, serves both. -/
theorem frame_k : Cert.frame_Kernel := fun m g hpre =>
  (θ_run (Cert.KernelIdeal.defs (F := Bits)) _ _).mono (fun _ h c => (h c).2)
    (Cert.KernelIdeal.KProof.run_main (F := Bits) m g
      (Cert.KernelIdeal.KProof.lists_inRange m fun c i =>
        Cert.PreDecode.inRange (F := Bits) _ _ _ _ _ _ _ _ _ _ _ (hpre c) i))

end Cert.Proof.Frames

end
-- ==== Proof.RefRun.lean ====
import proofs.«208460_g27728308863843_cont_9to1_469_33_alg».proof.Proof.Gen.ReferenceIdeal
import proofs.«208460_g27728308863843_cont_9to1_469_33_alg».proof.Proof.SpecOf
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

def cat3 (a b : Vec F S320000x128 .f32) (c : Vec F S320000x16 .f32) : Vec F S320000x272 .f32 :=
  concatenate S320000x272 1 [⟨S320000x128, a⟩, ⟨S320000x128, b⟩, ⟨S320000x16, c⟩]
    concatenates_S320000x128_S320000x128_S320000x16_S320000x272_d1

def cat2 (a b : Vec F S10000x128 .f32) : Vec F S10000x256 .f32 :=
  concatenate S10000x256 1 [⟨S10000x128, a⟩, ⟨S10000x128, b⟩] concatenates_S10000x128_S10000x128_S10000x256_d1

def cat3fn (u : (k : Fin 3) → ((![main_v4, main_v5, main_arg2] : Fin 3 → Ref sig .tc) k).ty.Contents (Elt F)) :
    main_v6.ty.Contents (Elt F) := cat3 (u 0) (u 1) (u 2)

abbrev opsT : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    TRef.nullary main_call0.c (constantI S_ 32 0#32),
    TRef.unary main_call0.c main_call0.v0 (broadcastInDim S320000 ![] bcast_S_S320000),
    TRef.binary (.of main_v1) main_call0.v0 main_call0.v1 (cmpi .slt),
    TRef.nullary main_call0.c_0 (constantI S_ 32 10000#32),
    TRef.unary main_call0.c_0 main_call0.v2 (broadcastInDim S320000 ![] bcast_S_S320000),
    TRef.binary (.of main_v1) main_call0.v2 main_call0.v3 addi,
    TRef.ternary main_call0.v1 main_call0.v3 (.of main_v1) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg0) main_call0.v5 main_call0.v13 (fun x i => Host.gather gather_S10000x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select,
    TRef.nullary main_call1.c (constantI S_ 32 0#32),
    TRef.unary main_call1.c main_call1.v0 (broadcastInDim S320000 ![] bcast_S_S320000),
    TRef.binary (.of main_v3) main_call1.v0 main_call1.v1 (cmpi .slt),
    TRef.nullary main_call1.c_0 (constantI S_ 32 10000#32),
    TRef.unary main_call1.c_0 main_call1.v2 (broadcastInDim S320000 ![] bcast_S_S320000),
    TRef.binary (.of main_v3) main_call1.v2 main_call1.v3 addi,
    TRef.ternary main_call1.v1 main_call1.v3 (.of main_v3) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_arg0) main_call1.v5 main_call1.v13 (fun x i => Host.gather gather_S10000x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select,
    nary ![main_v4, main_v5, main_arg2] main_v6 cat3fn,
    binary main_v6 main_arg3 main_v7 ((fun l r => Host.dotGeneral dot_S320000x272_S272x64_S320000x64_1_0_0_1_n_n none l r) : (⟨S320000x272, .f32⟩ : BufTy).Contents (Elt F) → (⟨S272x64, .f32⟩ : BufTy).Contents (Elt F) → (⟨S320000x64, .f32⟩ : BufTy).Contents (Elt F)),
    unary main_arg4 main_v8 (broadcastInDim S1x64 ![1] bcast_S64_S1x64_1 : (⟨S64, .f32⟩ : BufTy).Contents (Elt F) → (⟨S1x64, .f32⟩ : BufTy).Contents (Elt F)),
    unary main_v8 main_v9 (broadcastInDim S320000x64 ![0, 1] bcast_S1x64_S320000x64_0_1 : (⟨S1x64, .f32⟩ : BufTy).Contents (Elt F) → (⟨S320000x64, .f32⟩ : BufTy).Contents (Elt F)),
    binary main_v7 main_v9 main_v10 (addf : (⟨S320000x64, .f32⟩ : BufTy).Contents (Elt F) → (⟨S320000x64, .f32⟩ : BufTy).Contents (Elt F) → (⟨S320000x64, .f32⟩ : BufTy).Contents (Elt F)),
    nullary main_cst (constant S_ .f32 0x00000000#32),
    unary main_cst main_v11 (broadcastInDim S320000x64 ![] bcast_S_S320000x64 : (⟨S_, .f32⟩ : BufTy).Contents (Elt F) → (⟨S320000x64, .f32⟩ : BufTy).Contents (Elt F)),
    binary main_v10 main_v11 main_v12 (maximumf : (⟨S320000x64, .f32⟩ : BufTy).Contents (Elt F) → (⟨S320000x64, .f32⟩ : BufTy).Contents (Elt F) → (⟨S320000x64, .f32⟩ : BufTy).Contents (Elt F)),
    binary main_v12 main_arg5 main_v13 ((fun l r => Host.dotGeneral dot_S320000x64_S64x128_S320000x128_1_0_0_1_n_n none l r) : (⟨S320000x64, .f32⟩ : BufTy).Contents (Elt F) → (⟨S64x128, .f32⟩ : BufTy).Contents (Elt F) → (⟨S320000x128, .f32⟩ : BufTy).Contents (Elt F)),
    unary main_arg6 main_v14 (broadcastInDim S1x128 ![1] bcast_S128_S1x128_1 : (⟨S128, .f32⟩ : BufTy).Contents (Elt F) → (⟨S1x128, .f32⟩ : BufTy).Contents (Elt F)),
    unary main_v14 main_v15 (broadcastInDim S320000x128 ![0, 1] bcast_S1x128_S320000x128_0_1 : (⟨S1x128, .f32⟩ : BufTy).Contents (Elt F) → (⟨S320000x128, .f32⟩ : BufTy).Contents (Elt F)),
    binary main_v13 main_v15 main_v16 (addf : (⟨S320000x128, .f32⟩ : BufTy).Contents (Elt F) → (⟨S320000x128, .f32⟩ : BufTy).Contents (Elt F) → (⟨S320000x128, .f32⟩ : BufTy).Contents (Elt F)),
    nullary main_cst_0 (constant S_ .f32 0x00000000#32),
    unary main_cst_0 main_v17 (broadcastInDim S10000x128 ![] bcast_S_S10000x128 : (⟨S_, .f32⟩ : BufTy).Contents (Elt F) → (⟨S10000x128, .f32⟩ : BufTy).Contents (Elt F)),
    nullary main_c (constantI S_ 32 0#32),
    unary main_c main_v18 (broadcastInDim S320000 ![] bcast_S_S320000 : (⟨S_, .i32⟩ : BufTy).Contents (Elt F) → (⟨S320000, .i32⟩ : BufTy).Contents (Elt F)),
    binary main_v3 main_v18 main_v19 (cmpi .slt : (⟨S320000, .i32⟩ : BufTy).Contents (Elt F) → (⟨S320000, .i32⟩ : BufTy).Contents (Elt F) → (⟨S320000, .i1⟩ : BufTy).Contents (Elt F)),
    nullary main_c_1 (constantI S_ 32 10000#32),
    unary main_c_1 main_v20 (broadcastInDim S320000 ![] bcast_S_S320000 : (⟨S_, .i32⟩ : BufTy).Contents (Elt F) → (⟨S320000, .i32⟩ : BufTy).Contents (Elt F)),
    binary main_v3 main_v20 main_v21 (addi : (⟨S320000, .i32⟩ : BufTy).Contents (Elt F) → (⟨S320000, .i32⟩ : BufTy).Contents (Elt F) → (⟨S320000, .i32⟩ : BufTy).Contents (Elt F)),
    ternary main_v19 main_v21 main_v3 main_v22 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v22 main_v23 (broadcastInDim S320000x1 ![0] bcast_S320000_S320000x1_0 : (⟨S320000, .i32⟩ : BufTy).Contents (Elt F) → (⟨S320000x1, .i32⟩ : BufTy).Contents (Elt F)),
    ternary main_v17 main_v23 main_v16 main_v24 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    binary main_arg0 main_v24 main_v25 (cat2 : (⟨S10000x128, .f32⟩ : BufTy).Contents (Elt F) → (⟨S10000x128, .f32⟩ : BufTy).Contents (Elt F) → (⟨S10000x256, .f32⟩ : BufTy).Contents (Elt F)),
    binary main_v25 main_arg7 main_v26 ((fun l r => Host.dotGeneral dot_S10000x256_S256x64_S10000x64_1_0_0_1_n_n none l r) : (⟨S10000x256, .f32⟩ : BufTy).Contents (Elt F) → (⟨S256x64, .f32⟩ : BufTy).Contents (Elt F) → (⟨S10000x64, .f32⟩ : BufTy).Contents (Elt F)),
    unary main_arg8 main_v27 (broadcastInDim S1x64 ![1] bcast_S64_S1x64_1 : (⟨S64, .f32⟩ : BufTy).Contents (Elt F) → (⟨S1x64, .f32⟩ : BufTy).Contents (Elt F)),
    unary main_v27 main_v28 (broadcastInDim S10000x64 ![0, 1] bcast_S1x64_S10000x64_0_1 : (⟨S1x64, .f32⟩ : BufTy).Contents (Elt F) → (⟨S10000x64, .f32⟩ : BufTy).Contents (Elt F)),
    binary main_v26 main_v28 main_v29 (addf : (⟨S10000x64, .f32⟩ : BufTy).Contents (Elt F) → (⟨S10000x64, .f32⟩ : BufTy).Contents (Elt F) → (⟨S10000x64, .f32⟩ : BufTy).Contents (Elt F)),
    nullary main_cst_2 (constant S_ .f32 0x00000000#32),
    unary main_cst_2 main_v30 (broadcastInDim S10000x64 ![] bcast_S_S10000x64 : (⟨S_, .f32⟩ : BufTy).Contents (Elt F) → (⟨S10000x64, .f32⟩ : BufTy).Contents (Elt F)),
    binary main_v29 main_v30 main_v31 (maximumf : (⟨S10000x64, .f32⟩ : BufTy).Contents (Elt F) → (⟨S10000x64, .f32⟩ : BufTy).Contents (Elt F) → (⟨S10000x64, .f32⟩ : BufTy).Contents (Elt F)),
    binary main_v31 main_arg9 main_v32 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    unary main_arg10 main_v33 (broadcastInDim S1x128 ![1] bcast_S128_S1x128_1 : (⟨S128, .f32⟩ : BufTy).Contents (Elt F) → (⟨S1x128, .f32⟩ : BufTy).Contents (Elt F)),
    unary main_v33 main_v34 (broadcastInDim S10000x128 ![0, 1] bcast_S1x128_S10000x128_0_1 : (⟨S1x128, .f32⟩ : BufTy).Contents (Elt F) → (⟨S10000x128, .f32⟩ : BufTy).Contents (Elt F)),
    binary main_v32 main_v34 main_v35 (addf : (⟨S10000x128, .f32⟩ : BufTy).Contents (Elt F) → (⟨S10000x128, .f32⟩ : BufTy).Contents (Elt F) → (⟨S10000x128, .f32⟩ : BufTy).Contents (Elt F)) ]

abbrev ops : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    nullary main_call0_c (constantI S_ 32 0#32),
    unary main_call0_c main_call0_v0 (broadcastInDim S320000 ![] bcast_S_S320000 : (⟨S_, .i32⟩ : BufTy).Contents (Elt F) → (⟨S320000, .i32⟩ : BufTy).Contents (Elt F)),
    binary main_v1 main_call0_v0 main_call0_v1 (cmpi .slt : (⟨S320000, .i32⟩ : BufTy).Contents (Elt F) → (⟨S320000, .i32⟩ : BufTy).Contents (Elt F) → (⟨S320000, .i1⟩ : BufTy).Contents (Elt F)),
    nullary main_call0_c_0 (constantI S_ 32 10000#32),
    unary main_call0_c_0 main_call0_v2 (broadcastInDim S320000 ![] bcast_S_S320000 : (⟨S_, .i32⟩ : BufTy).Contents (Elt F) → (⟨S320000, .i32⟩ : BufTy).Contents (Elt F)),
    binary main_v1 main_call0_v2 main_call0_v3 (addi : (⟨S320000, .i32⟩ : BufTy).Contents (Elt F) → (⟨S320000, .i32⟩ : BufTy).Contents (Elt F) → (⟨S320000, .i32⟩ : BufTy).Contents (Elt F)),
    ternary main_call0_v1 main_call0_v3 main_v1 main_call0_v4 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_call0_v4 main_call0_v5 (broadcastInDim S320000x1 ![0] bcast_S320000_S320000x1_0 : (⟨S320000, .i32⟩ : BufTy).Contents (Elt F) → (⟨S320000x1, .i32⟩ : BufTy).Contents (Elt F)),
    nullary main_call0_c_1 (constantI S1 32 9999#32),
    nullary main_call0_c_2 (constantI S_ 32 0#32),
    unary main_call0_c_2 main_call0_v6 (broadcastInDim S320000x1 ![] bcast_S_S320000x1 : (⟨S_, .i32⟩ : BufTy).Contents (Elt F) → (⟨S320000x1, .i32⟩ : BufTy).Contents (Elt F)),
    binary main_call0_v5 main_call0_v6 main_call0_v7 (cmpi .sge : (⟨S320000x1, .i32⟩ : BufTy).Contents (Elt F) → (⟨S320000x1, .i32⟩ : BufTy).Contents (Elt F) → (⟨S320000x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S320000x1 ![0, 1] bcast_S1x1_S320000x1_0_1 : (⟨S1x1, .i32⟩ : BufTy).Contents (Elt F) → (⟨S320000x1, .i32⟩ : BufTy).Contents (Elt F)),
    binary main_call0_v5 main_call0_v9 main_call0_v10 (cmpi .sle : (⟨S320000x1, .i32⟩ : BufTy).Contents (Elt F) → (⟨S320000x1, .i32⟩ : BufTy).Contents (Elt F) → (⟨S320000x1, .i1⟩ : BufTy).Contents (Elt F)),
    binary main_call0_v7 main_call0_v10 main_call0_v11 (andi : (⟨S320000x1, .i1⟩ : BufTy).Contents (Elt F) → (⟨S320000x1, .i1⟩ : BufTy).Contents (Elt F) → (⟨S320000x1, .i1⟩ : BufTy).Contents (Elt F)),
    nullary main_call0_c_3 (constantI S_ 1 1#1),
    binary main_call0_v11 main_call0_c_3 main_call0_v12 ((fun x v => Host.reduce IntOp.andi x v reducesTo_S320000x1_S320000_d1 h_S_) : (⟨S320000x1, .i1⟩ : BufTy).Contents (Elt F) → (⟨S_, .i1⟩ : BufTy).Contents (Elt F) → (⟨S320000, .i1⟩ : BufTy).Contents (Elt F)),
    binary main_arg0 main_call0_v5 main_call0_v13 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    unary main_call0_v12 main_call0_v14 (broadcastInDim S320000x128 ![0] bcast_S320000_S320000x128_0 : (⟨S320000, .i1⟩ : BufTy).Contents (Elt F) → (⟨S320000x128, .i1⟩ : BufTy).Contents (Elt F)),
    nullary main_call0_cst (constant S_ .f32 0x7FC00000#32),
    unary main_call0_cst main_call0_v15 (broadcastInDim S320000x128 ![] bcast_S_S320000x128 : (⟨S_, .f32⟩ : BufTy).Contents (Elt F) → (⟨S320000x128, .f32⟩ : BufTy).Contents (Elt F)),
    ternary main_call0_v14 main_call0_v13 main_call0_v15 main_v4 (select : (⟨S320000x128, .i1⟩ : BufTy).Contents (Elt F) → (⟨S320000x128, .f32⟩ : BufTy).Contents (Elt F) → (⟨S320000x128, .f32⟩ : BufTy).Contents (Elt F) → (⟨S320000x128, .f32⟩ : BufTy).Contents (Elt F)),
    nullary main_call1_c (constantI S_ 32 0#32),
    unary main_call1_c main_call1_v0 (broadcastInDim S320000 ![] bcast_S_S320000 : (⟨S_, .i32⟩ : BufTy).Contents (Elt F) → (⟨S320000, .i32⟩ : BufTy).Contents (Elt F)),
    binary main_v3 main_call1_v0 main_call1_v1 (cmpi .slt : (⟨S320000, .i32⟩ : BufTy).Contents (Elt F) → (⟨S320000, .i32⟩ : BufTy).Contents (Elt F) → (⟨S320000, .i1⟩ : BufTy).Contents (Elt F)),
    nullary main_call1_c_0 (constantI S_ 32 10000#32),
    unary main_call1_c_0 main_call1_v2 (broadcastInDim S320000 ![] bcast_S_S320000 : (⟨S_, .i32⟩ : BufTy).Contents (Elt F) → (⟨S320000, .i32⟩ : BufTy).Contents (Elt F)),
    binary main_v3 main_call1_v2 main_call1_v3 (addi : (⟨S320000, .i32⟩ : BufTy).Contents (Elt F) → (⟨S320000, .i32⟩ : BufTy).Contents (Elt F) → (⟨S320000, .i32⟩ : BufTy).Contents (Elt F)),
    ternary main_call1_v1 main_call1_v3 main_v3 main_call1_v4 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_call1_v4 main_call1_v5 (broadcastInDim S320000x1 ![0] bcast_S320000_S320000x1_0 : (⟨S320000, .i32⟩ : BufTy).Contents (Elt F) → (⟨S320000x1, .i32⟩ : BufTy).Contents (Elt F)),
    nullary main_call1_c_1 (constantI S1 32 9999#32),
    nullary main_call1_c_2 (constantI S_ 32 0#32),
    unary main_call1_c_2 main_call1_v6 (broadcastInDim S320000x1 ![] bcast_S_S320000x1 : (⟨S_, .i32⟩ : BufTy).Contents (Elt F) → (⟨S320000x1, .i32⟩ : BufTy).Contents (Elt F)),
    binary main_call1_v5 main_call1_v6 main_call1_v7 (cmpi .sge : (⟨S320000x1, .i32⟩ : BufTy).Contents (Elt F) → (⟨S320000x1, .i32⟩ : BufTy).Contents (Elt F) → (⟨S320000x1, .i1⟩ : BufTy).Contents (Elt F)),
    unary main_call1_c_1 main_call1_v8 (broadcastInDim S1x1 ![1] bcast_S1_S1x1_1 : (⟨S1, .i32⟩ : BufTy).Contents (Elt F) → (⟨S1x1, .i32⟩ : BufTy).Contents (Elt F)),
    unary main_call1_v8 main_call1_v9 (broadcastInDim S320000x1 ![0, 1] bcast_S1x1_S320000x1_0_1 : (⟨S1x1, .i32⟩ : BufTy).Contents (Elt F) → (⟨S320000x1, .i32⟩ : BufTy).Contents (Elt F)),
    binary main_call1_v5 main_call1_v9 main_call1_v10 (cmpi .sle : (⟨S320000x1, .i32⟩ : BufTy).Contents (Elt F) → (⟨S320000x1, .i32⟩ : BufTy).Contents (Elt F) → (⟨S320000x1, .i1⟩ : BufTy).Contents (Elt F)),
    binary main_call1_v7 main_call1_v10 main_call1_v11 (andi : (⟨S320000x1, .i1⟩ : BufTy).Contents (Elt F) → (⟨S320000x1, .i1⟩ : BufTy).Contents (Elt F) → (⟨S320000x1, .i1⟩ : BufTy).Contents (Elt F)),
    nullary main_call1_c_3 (constantI S_ 1 1#1),
    binary main_call1_v11 main_call1_c_3 main_call1_v12 ((fun x v => Host.reduce IntOp.andi x v reducesTo_S320000x1_S320000_d1 h_S_) : (⟨S320000x1, .i1⟩ : BufTy).Contents (Elt F) → (⟨S_, .i1⟩ : BufTy).Contents (Elt F) → (⟨S320000, .i1⟩ : BufTy).Contents (Elt F)),
    binary main_arg0 main_call1_v5 main_call1_v13 ((fun x i => Host.gather gather_S10000x128_S320000x1_S320000x128_1_0_n_n_0_1_1128 x i) : (⟨S10000x128, .f32⟩ : BufTy).Contents (Elt F) → (⟨S320000x1, .i32⟩ : BufTy).Contents (Elt F) → (⟨S320000x128, .f32⟩ : BufTy).Contents (Elt F)),
    unary main_call1_v12 main_call1_v14 (broadcastInDim S320000x128 ![0] bcast_S320000_S320000x128_0 : (⟨S320000, .i1⟩ : BufTy).Contents (Elt F) → (⟨S320000x128, .i1⟩ : BufTy).Contents (Elt F)),
    nullary main_call1_cst (constant S_ .f32 0x7FC00000#32),
    unary main_call1_cst main_call1_v15 (broadcastInDim S320000x128 ![] bcast_S_S320000x128 : (⟨S_, .f32⟩ : BufTy).Contents (Elt F) → (⟨S320000x128, .f32⟩ : BufTy).Contents (Elt F)),
    ternary main_call1_v14 main_call1_v13 main_call1_v15 main_v5 (select : (⟨S320000x128, .i1⟩ : BufTy).Contents (Elt F) → (⟨S320000x128, .f32⟩ : BufTy).Contents (Elt F) → (⟨S320000x128, .f32⟩ : BufTy).Contents (Elt F) → (⟨S320000x128, .f32⟩ : BufTy).Contents (Elt F)),
    nary ![main_v4, main_v5, main_arg2] main_v6 cat3fn,
    binary main_v6 main_arg3 main_v7 ((fun l r => Host.dotGeneral dot_S320000x272_S272x64_S320000x64_1_0_0_1_n_n none l r) : (⟨S320000x272, .f32⟩ : BufTy).Contents (Elt F) → (⟨S272x64, .f32⟩ : BufTy).Contents (Elt F) → (⟨S320000x64, .f32⟩ : BufTy).Contents (Elt F)),
    unary main_arg4 main_v8 (broadcastInDim S1x64 ![1] bcast_S64_S1x64_1 : (⟨S64, .f32⟩ : BufTy).Contents (Elt F) → (⟨S1x64, .f32⟩ : BufTy).Contents (Elt F)),
    unary main_v8 main_v9 (broadcastInDim S320000x64 ![0, 1] bcast_S1x64_S320000x64_0_1 : (⟨S1x64, .f32⟩ : BufTy).Contents (Elt F) → (⟨S320000x64, .f32⟩ : BufTy).Contents (Elt F)),
    binary main_v7 main_v9 main_v10 (addf : (⟨S320000x64, .f32⟩ : BufTy).Contents (Elt F) → (⟨S320000x64, .f32⟩ : BufTy).Contents (Elt F) → (⟨S320000x64, .f32⟩ : BufTy).Contents (Elt F)),
    nullary main_cst (constant S_ .f32 0x00000000#32),
    unary main_cst main_v11 (broadcastInDim S320000x64 ![] bcast_S_S320000x64 : (⟨S_, .f32⟩ : BufTy).Contents (Elt F) → (⟨S320000x64, .f32⟩ : BufTy).Contents (Elt F)),
    binary main_v10 main_v11 main_v12 (maximumf : (⟨S320000x64, .f32⟩ : BufTy).Contents (Elt F) → (⟨S320000x64, .f32⟩ : BufTy).Contents (Elt F) → (⟨S320000x64, .f32⟩ : BufTy).Contents (Elt F)),
    binary main_v12 main_arg5 main_v13 ((fun l r => Host.dotGeneral dot_S320000x64_S64x128_S320000x128_1_0_0_1_n_n none l r) : (⟨S320000x64, .f32⟩ : BufTy).Contents (Elt F) → (⟨S64x128, .f32⟩ : BufTy).Contents (Elt F) → (⟨S320000x128, .f32⟩ : BufTy).Contents (Elt F)),
    unary main_arg6 main_v14 (broadcastInDim S1x128 ![1] bcast_S128_S1x128_1 : (⟨S128, .f32⟩ : BufTy).Contents (Elt F) → (⟨S1x128, .f32⟩ : BufTy).Contents (Elt F)),
    unary main_v14 main_v15 (broadcastInDim S320000x128 ![0, 1] bcast_S1x128_S320000x128_0_1 : (⟨S1x128, .f32⟩ : BufTy).Contents (Elt F) → (⟨S320000x128, .f32⟩ : BufTy).Contents (Elt F)),
    binary main_v13 main_v15 main_v16 (addf : (⟨S320000x128, .f32⟩ : BufTy).Contents (Elt F) → (⟨S320000x128, .f32⟩ : BufTy).Contents (Elt F) → (⟨S320000x128, .f32⟩ : BufTy).Contents (Elt F)),
    nullary main_cst_0 (constant S_ .f32 0x00000000#32),
    unary main_cst_0 main_v17 (broadcastInDim S10000x128 ![] bcast_S_S10000x128 : (⟨S_, .f32⟩ : BufTy).Contents (Elt F) → (⟨S10000x128, .f32⟩ : BufTy).Contents (Elt F)),
    nullary main_c (constantI S_ 32 0#32),
    unary main_c main_v18 (broadcastInDim S320000 ![] bcast_S_S320000 : (⟨S_, .i32⟩ : BufTy).Contents (Elt F) → (⟨S320000, .i32⟩ : BufTy).Contents (Elt F)),
    binary main_v3 main_v18 main_v19 (cmpi .slt : (⟨S320000, .i32⟩ : BufTy).Contents (Elt F) → (⟨S320000, .i32⟩ : BufTy).Contents (Elt F) → (⟨S320000, .i1⟩ : BufTy).Contents (Elt F)),
    nullary main_c_1 (constantI S_ 32 10000#32),
    unary main_c_1 main_v20 (broadcastInDim S320000 ![] bcast_S_S320000 : (⟨S_, .i32⟩ : BufTy).Contents (Elt F) → (⟨S320000, .i32⟩ : BufTy).Contents (Elt F)),
    binary main_v3 main_v20 main_v21 (addi : (⟨S320000, .i32⟩ : BufTy).Contents (Elt F) → (⟨S320000, .i32⟩ : BufTy).Contents (Elt F) → (⟨S320000, .i32⟩ : BufTy).Contents (Elt F)),
    ternary main_v19 main_v21 main_v3 main_v22 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v22 main_v23 (broadcastInDim S320000x1 ![0] bcast_S320000_S320000x1_0 : (⟨S320000, .i32⟩ : BufTy).Contents (Elt F) → (⟨S320000x1, .i32⟩ : BufTy).Contents (Elt F)),
    ternary main_v17 main_v23 main_v16 main_v24 ((fun x i u => Host.scatterAdd scatter_S10000x128_S320000x1_S320000x128_1_0_0_1 x i u) : (⟨S10000x128, .f32⟩ : BufTy).Contents (Elt F) → (⟨S320000x1, .i32⟩ : BufTy).Contents (Elt F) → (⟨S320000x128, .f32⟩ : BufTy).Contents (Elt F) → (⟨S10000x128, .f32⟩ : BufTy).Contents (Elt F)),
    binary main_arg0 main_v24 main_v25 (cat2 : (⟨S10000x128, .f32⟩ : BufTy).Contents (Elt F) → (⟨S10000x128, .f32⟩ : BufTy).Contents (Elt F) → (⟨S10000x256, .f32⟩ : BufTy).Contents (Elt F)),
    binary main_v25 main_arg7 main_v26 ((fun l r => Host.dotGeneral dot_S10000x256_S256x64_S10000x64_1_0_0_1_n_n none l r) : (⟨S10000x256, .f32⟩ : BufTy).Contents (Elt F) → (⟨S256x64, .f32⟩ : BufTy).Contents (Elt F) → (⟨S10000x64, .f32⟩ : BufTy).Contents (Elt F)),
    unary main_arg8 main_v27 (broadcastInDim S1x64 ![1] bcast_S64_S1x64_1 : (⟨S64, .f32⟩ : BufTy).Contents (Elt F) → (⟨S1x64, .f32⟩ : BufTy).Contents (Elt F)),
    unary main_v27 main_v28 (broadcastInDim S10000x64 ![0, 1] bcast_S1x64_S10000x64_0_1 : (⟨S1x64, .f32⟩ : BufTy).Contents (Elt F) → (⟨S10000x64, .f32⟩ : BufTy).Contents (Elt F)),
    binary main_v26 main_v28 main_v29 (addf : (⟨S10000x64, .f32⟩ : BufTy).Contents (Elt F) → (⟨S10000x64, .f32⟩ : BufTy).Contents (Elt F) → (⟨S10000x64, .f32⟩ : BufTy).Contents (Elt F)),
    nullary main_cst_2 (constant S_ .f32 0x00000000#32),
    unary main_cst_2 main_v30 (broadcastInDim S10000x64 ![] bcast_S_S10000x64 : (⟨S_, .f32⟩ : BufTy).Contents (Elt F) → (⟨S10000x64, .f32⟩ : BufTy).Contents (Elt F)),
    binary main_v29 main_v30 main_v31 (maximumf : (⟨S10000x64, .f32⟩ : BufTy).Contents (Elt F) → (⟨S10000x64, .f32⟩ : BufTy).Contents (Elt F) → (⟨S10000x64, .f32⟩ : BufTy).Contents (Elt F)),
    binary main_v31 main_arg9 main_v32 ((fun l r => Host.dotGeneral dot_S10000x64_S64x128_S10000x128_1_0_0_1_n_n none l r) : (⟨S10000x64, .f32⟩ : BufTy).Contents (Elt F) → (⟨S64x128, .f32⟩ : BufTy).Contents (Elt F) → (⟨S10000x128, .f32⟩ : BufTy).Contents (Elt F)),
    unary main_arg10 main_v33 (broadcastInDim S1x128 ![1] bcast_S128_S1x128_1 : (⟨S128, .f32⟩ : BufTy).Contents (Elt F) → (⟨S1x128, .f32⟩ : BufTy).Contents (Elt F)),
    unary main_v33 main_v34 (broadcastInDim S10000x128 ![0, 1] bcast_S1x128_S10000x128_0_1 : (⟨S1x128, .f32⟩ : BufTy).Contents (Elt F) → (⟨S10000x128, .f32⟩ : BufTy).Contents (Elt F)),
    binary main_v32 main_v34 main_v35 (addf : (⟨S10000x128, .f32⟩ : BufTy).Contents (Elt F) → (⟨S10000x128, .f32⟩ : BufTy).Contents (Elt F) → (⟨S10000x128, .f32⟩ : BufTy).Contents (Elt F)) ]

set_option maxRecDepth 8192 in

theorem main_eqT (c : Dev nD) : main (F := F) c = seq opsT := rfl

attribute [local irreducible] Host.reduce Host.gather in
set_option maxRecDepth 8192 in

theorem opsT_eq : (opsT : List (HloOp τ sig (Elt F))) = ops := rfl

theorem main_eq (c : Dev nD) : main (F := F) c = seq ops := (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem v6_result' (hxs hy) (G : Valuation τ sig (Elt F)) :
    (nary (τ := τ) ![main_v4, main_v5, main_arg2] main_v6 (cat3fn (F := F)) hxs hy).result G (no_index (Proc.devRef .tc main_v6))
      = cat3 (G (Proc.devRef .tc main_v4)) (G (Proc.devRef .tc main_v5)) (G (Proc.devRef .tc main_arg2)) :=
  (nary_result ..).trans rfl

def srcIdx (a1 : Vec Ideal S2x320000 .i32) : Vec Ideal S320000 .i32 :=
  shapeCast S320000 (extractStridedSlice S1x320000 ![0, 0] a1 slices_S2x320000_S1x320000_0_0) shapeCasts_S1x320000_S320000

def dstIdx (a1 : Vec Ideal S2x320000 .i32) : Vec Ideal S320000 .i32 :=
  shapeCast S320000 (extractStridedSlice S1x320000 ![1, 0] a1 slices_S2x320000_S1x320000_1_0) shapeCasts_S1x320000_S320000

def normIdx (idx : Vec Ideal S320000 .i32) : Vec Ideal S320000 .i32 :=
  select (cmpi .slt idx (broadcastInDim S320000 ![] bcast_S_S320000 (constantI S_ 32 0#32)))
    (addi idx (broadcastInDim S320000 ![] bcast_S_S320000 (constantI S_ 32 10000#32))) idx

def colIdx (idx : Vec Ideal S320000 .i32) : Vec Ideal S320000x1 .i32 :=
  broadcastInDim S320000x1 ![0] bcast_S320000_S320000x1_0 (normIdx idx)

def inRange (idx : Vec Ideal S320000 .i32) : Vec Ideal S320000 .i1 :=
  Host.reduce IntOp.andi
    (andi (cmpi .sge (colIdx idx) (broadcastInDim S320000x1 ![] bcast_S_S320000x1 (constantI S_ 32 0#32)))
      (cmpi .sle (colIdx idx) (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

def take (x : Vec Ideal S10000x128 .f32) (idx : Vec Ideal S320000 .i32) : Vec Ideal S320000x128 .f32 :=
  select (broadcastInDim S320000x128 ![0] bcast_S320000_S320000x128_0 (inRange idx))
    (Host.gather gather_S10000x128_S320000x1_S320000x128_1_0_n_n_0_1_1128 x (colIdx idx))
    (broadcastInDim S320000x128 ![] bcast_S_S320000x128 (constant (F := Ideal) S_ .f32 0x7FC00000#32))

def msgIn (A : Cert.Spec.Arrays) : Vec Ideal S320000x272 .f32 :=
  cat3 (take A.a0 (srcIdx A.a1)) (take A.a0 (dstIdx A.a1)) A.a2

def msgHid (A : Cert.Spec.Arrays) : Vec Ideal S320000x64 .f32 :=
  maximumf (F := Ideal)
    (addf (F := Ideal) (Host.dotGeneral (F := Ideal) (φ₁ := .f32) (φ₂ := .f32) dot_S320000x272_S272x64_S320000x64_1_0_0_1_n_n none (msgIn A) A.a3)
      (broadcastInDim S320000x64 ![0, 1] bcast_S1x64_S320000x64_0_1 (broadcastInDim S1x64 ![1] bcast_S64_S1x64_1 A.a4)))
    (broadcastInDim S320000x64 ![] bcast_S_S320000x64 (constant (F := Ideal) S_ .f32 0x00000000#32))

def msgOut (A : Cert.Spec.Arrays) : Vec Ideal S320000x128 .f32 :=
  addf (F := Ideal) (Host.dotGeneral (F := Ideal) (φ₁ := .f32) (φ₂ := .f32) dot_S320000x64_S64x128_S320000x128_1_0_0_1_n_n none (msgHid A) A.a5)
    (broadcastInDim S320000x128 ![0, 1] bcast_S1x128_S320000x128_0_1 (broadcastInDim S1x128 ![1] bcast_S128_S1x128_1 A.a6))

def aggOut (A : Cert.Spec.Arrays) : Vec Ideal S10000x128 .f32 :=
  Host.scatterAdd (F := Ideal) scatter_S10000x128_S320000x1_S320000x128_1_0_0_1
    (broadcastInDim S10000x128 ![] bcast_S_S10000x128 (constant (F := Ideal) S_ .f32 0x00000000#32))
    (colIdx (dstIdx A.a1)) (msgOut A)

def updIn (A : Cert.Spec.Arrays) : Vec Ideal S10000x256 .f32 :=
  cat2 A.a0 (aggOut A)

def updHid (A : Cert.Spec.Arrays) : Vec Ideal S10000x64 .f32 :=
  maximumf (F := Ideal)
    (addf (F := Ideal) (Host.dotGeneral (F := Ideal) (φ₁ := .f32) (φ₂ := .f32) dot_S10000x256_S256x64_S10000x64_1_0_0_1_n_n none (updIn A) A.a7)
      (broadcastInDim S10000x64 ![0, 1] bcast_S1x64_S10000x64_0_1 (broadcastInDim S1x64 ![1] bcast_S64_S1x64_1 A.a8)))
    (broadcastInDim S10000x64 ![] bcast_S_S10000x64 (constant (F := Ideal) S_ .f32 0x00000000#32))

def refTerm (A : Cert.Spec.Arrays) : Vec Ideal S10000x128 .f32 :=
  addf (F := Ideal) (Host.dotGeneral (F := Ideal) (φ₁ := .f32) (φ₂ := .f32) dot_S10000x64_S64x128_S10000x128_1_0_0_1_n_n none (updHid A) A.a9)
    (broadcastInDim S10000x128 ![0, 1] bcast_S1x128_S10000x128_0_1 (broadcastInDim S1x128 ![1] bcast_S128_S1x128_1 A.a10))

def arrays (m : (ℓ : Loc nD τ sig) → Buf (Elt Ideal) ℓ) (c : Dev nD) : Cert.Spec.Arrays :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8),
    m ((c.tc : Thread nD τ).loc main_arg9), m ((c.tc : Thread nD τ).loc main_arg10)⟩

set_option maxRecDepth 16384 in
set_option maxHeartbeats 8000000 in

theorem v35_eq (V : Valuation τ sig (Elt Ideal)) :
    after (ops (F := Ideal)) V (main_v35 : DevRef τ sig) = refTerm ⟨V (main_arg0 : DevRef τ sig), V (main_arg1 : DevRef τ sig), V (main_arg2 : DevRef τ sig), V (main_arg3 : DevRef τ sig), V (main_arg4 : DevRef τ sig), V (main_arg5 : DevRef τ sig), V (main_arg6 : DevRef τ sig), V (main_arg7 : DevRef τ sig), V (main_arg8 : DevRef τ sig), V (main_arg9 : DevRef τ sig), V (main_arg10 : DevRef τ sig)⟩ := by
  simp (disch := decide) only [after_cons, after_nil,
      nullary_result', unary_result', binary_result', ternary_result', reshape_result', v6_result',
      nullary_result_ne', unary_result_ne', binary_result_ne', ternary_result_ne', reshape_result_ne', nary_result_ne']
  rfl

set_option maxRecDepth 16384 in
set_option maxHeartbeats 4000000 in
theorem arg0_eq (V : Valuation τ sig (Elt Ideal)) :
    after (ops (F := Ideal)) V (main_arg0 : DevRef τ sig) = V (main_arg0 : DevRef τ sig) := by
  simp (disch := decide) only [after_cons, after_nil,
      nullary_result', unary_result', binary_result', ternary_result', reshape_result', v6_result',
      nullary_result_ne', unary_result_ne', binary_result_ne', ternary_result_ne', reshape_result_ne', nary_result_ne']

set_option maxRecDepth 16384 in
set_option maxHeartbeats 4000000 in
theorem arg1_eq (V : Valuation τ sig (Elt Ideal)) :
    after (ops (F := Ideal)) V (main_arg1 : DevRef τ sig) = V (main_arg1 : DevRef τ sig) := by
  simp (disch := decide) only [after_cons, after_nil,
      nullary_result', unary_result', binary_result', ternary_result', reshape_result', v6_result',
      nullary_result_ne', unary_result_ne', binary_result_ne', ternary_result_ne', reshape_result_ne', nary_result_ne']

set_option maxRecDepth 16384 in
set_option maxHeartbeats 4000000 in
theorem arg2_eq (V : Valuation τ sig (Elt Ideal)) :
    after (ops (F := Ideal)) V (main_arg2 : DevRef τ sig) = V (main_arg2 : DevRef τ sig) := by
  simp (disch := decide) only [after_cons, after_nil,
      nullary_result', unary_result', binary_result', ternary_result', reshape_result', v6_result',
      nullary_result_ne', unary_result_ne', binary_result_ne', ternary_result_ne', reshape_result_ne', nary_result_ne']

set_option maxRecDepth 16384 in
set_option maxHeartbeats 4000000 in
theorem arg3_eq (V : Valuation τ sig (Elt Ideal)) :
    after (ops (F := Ideal)) V (main_arg3 : DevRef τ sig) = V (main_arg3 : DevRef τ sig) := by
  simp (disch := decide) only [after_cons, after_nil,
      nullary_result', unary_result', binary_result', ternary_result', reshape_result', v6_result',
      nullary_result_ne', unary_result_ne', binary_result_ne', ternary_result_ne', reshape_result_ne', nary_result_ne']

set_option maxRecDepth 16384 in
set_option maxHeartbeats 4000000 in
theorem arg4_eq (V : Valuation τ sig (Elt Ideal)) :
    after (ops (F := Ideal)) V (main_arg4 : DevRef τ sig) = V (main_arg4 : DevRef τ sig) := by
  simp (disch := decide) only [after_cons, after_nil,
      nullary_result', unary_result', binary_result', ternary_result', reshape_result', v6_result',
      nullary_result_ne', unary_result_ne', binary_result_ne', ternary_result_ne', reshape_result_ne', nary_result_ne']

set_option maxRecDepth 16384 in
set_option maxHeartbeats 4000000 in
theorem arg5_eq (V : Valuation τ sig (Elt Ideal)) :
    after (ops (F := Ideal)) V (main_arg5 : DevRef τ sig) = V (main_arg5 : DevRef τ sig) := by
  simp (disch := decide) only [after_cons, after_nil,
      nullary_result', unary_result', binary_result', ternary_result', reshape_result', v6_result',
      nullary_result_ne', unary_result_ne', binary_result_ne', ternary_result_ne', reshape_result_ne', nary_result_ne']

set_option maxRecDepth 16384 in
set_option maxHeartbeats 4000000 in
theorem arg6_eq (V : Valuation τ sig (Elt Ideal)) :
    after (ops (F := Ideal)) V (main_arg6 : DevRef τ sig) = V (main_arg6 : DevRef τ sig) := by
  simp (disch := decide) only [after_cons, after_nil,
      nullary_result', unary_result', binary_result', ternary_result', reshape_result', v6_result',
      nullary_result_ne', unary_result_ne', binary_result_ne', ternary_result_ne', reshape_result_ne', nary_result_ne']

set_option maxRecDepth 16384 in
set_option maxHeartbeats 4000000 in
theorem arg7_eq (V : Valuation τ sig (Elt Ideal)) :
    after (ops (F := Ideal)) V (main_arg7 : DevRef τ sig) = V (main_arg7 : DevRef τ sig) := by
  simp (disch := decide) only [after_cons, after_nil,
      nullary_result', unary_result', binary_result', ternary_result', reshape_result', v6_result',
      nullary_result_ne', unary_result_ne', binary_result_ne', ternary_result_ne', reshape_result_ne', nary_result_ne']

set_option maxRecDepth 16384 in
set_option maxHeartbeats 4000000 in
theorem arg8_eq (V : Valuation τ sig (Elt Ideal)) :
    after (ops (F := Ideal)) V (main_arg8 : DevRef τ sig) = V (main_arg8 : DevRef τ sig) := by
  simp (disch := decide) only [after_cons, after_nil,
      nullary_result', unary_result', binary_result', ternary_result', reshape_result', v6_result',
      nullary_result_ne', unary_result_ne', binary_result_ne', ternary_result_ne', reshape_result_ne', nary_result_ne']

set_option maxRecDepth 16384 in
set_option maxHeartbeats 4000000 in
theorem arg9_eq (V : Valuation τ sig (Elt Ideal)) :
    after (ops (F := Ideal)) V (main_arg9 : DevRef τ sig) = V (main_arg9 : DevRef τ sig) := by
  simp (disch := decide) only [after_cons, after_nil,
      nullary_result', unary_result', binary_result', ternary_result', reshape_result', v6_result',
      nullary_result_ne', unary_result_ne', binary_result_ne', ternary_result_ne', reshape_result_ne', nary_result_ne']

set_option maxRecDepth 16384 in
set_option maxHeartbeats 4000000 in
theorem arg10_eq (V : Valuation τ sig (Elt Ideal)) :
    after (ops (F := Ideal)) V (main_arg10 : DevRef τ sig) = V (main_arg10 : DevRef τ sig) := by
  simp (disch := decide) only [after_cons, after_nil,
      nullary_result', unary_result', binary_result', ternary_result', reshape_result', v6_result',
      nullary_result_ne', unary_result_ne', binary_result_ne', ternary_result_ne', reshape_result_ne', nary_result_ne']

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35) = refTerm (arrays m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v35).trans (v35_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => ops) main_eq (fun _ => ops_sub) m ρ)

end Cert.ReferenceIdeal.RefValue

end
-- ==== Proof.RefValue.lean ====
import proofs.«208460_g27728308863843_cont_9to1_469_33_alg».proof.Proof.RefRun
import proofs.«208460_g27728308863843_cont_9to1_469_33_alg».proof.Proof.SpecOf
import Idealize.ShloMosaic.Lib.ValueIdx
import Idealize.ShloMosaic.Lib.Pipeline.Value
import Idealize.ShloMosaic.Lib.StableHlo.Predicate
import Idealize.ShloMosaic.PureOps.Ideal.Laws
import Idealize.ShloMosaic.PureOps.Reduce
import Idealize.ShloMosaic.Lib.StackMember
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.StackMember
open scoped BigOperators

theorem srcIdx_apply (a1 : Vec Ideal S2x320000 .i32) (e : Fin 320000) : srcIdx a1 (ix1 e) = a1 (ix2 (0 : Fin 2) e) := by
  unfold srcIdx
  refine (shapeCast_apply _ _ (ix1 e) (ix2 (0 : Fin 1) e) ?_).trans ?_
  · rw [Shape.rowMajor_val_two, Shape.rowMajor_val_one]
    show 0 * 320000 + e.val = e.val
    omega
  · exact extractStridedSlice_apply _ _ _ (ix2 (0 : Fin 1) e) (ix2 (0 : Fin 2) e)
      (fun a => match a with | ⟨0, _⟩ => rfl | ⟨1, _⟩ => (Nat.zero_add _).symm)

theorem dstIdx_apply (a1 : Vec Ideal S2x320000 .i32) (e : Fin 320000) : dstIdx a1 (ix1 e) = a1 (ix2 (1 : Fin 2) e) := by
  unfold dstIdx
  refine (shapeCast_apply _ _ (ix1 e) (ix2 (0 : Fin 1) e) ?_).trans ?_
  · rw [Shape.rowMajor_val_two, Shape.rowMajor_val_one]
    show 0 * 320000 + e.val = e.val
    omega
  · exact extractStridedSlice_apply _ _ _ (ix2 (0 : Fin 1) e) (ix2 (1 : Fin 2) e)
      (fun a => match a with | ⟨0, _⟩ => rfl | ⟨1, _⟩ => (Nat.zero_add _).symm)

theorem normIdx_apply (idx : Vec Ideal S320000 .i32) (i : S320000.Idx) (hi : (idx i).toNat < 10000) : normIdx idx i = idx i := by
  unfold normIdx
  rw [select_apply]
  have h0 : cmpi .slt idx (broadcastInDim S320000 ![] bcast_S_S320000 (constantI S_ 32 0#32)) i = 0#1 := by
    apply eq_zero_of_ne_one
    show ¬ IntOp.cmpi .slt (idx i) 0#32 = 1#1
    rw [Predicate.slt_iff_toNat (by omega) (by decide)]
    simp
  rw [h0, select_zero]

theorem colIdx_apply (idx : Vec Ideal S320000 .i32) (e : Fin 320000) (z : Fin 1) (hi : (idx (ix1 e)).toNat < 10000) :
    colIdx idx (ix2 e z) = idx (ix1 e) := by
  unfold colIdx
  rw [broadcastInDim_apply _ _ _ (ix2 e z) (ix1 e) (fun a => match a with | ⟨0, _⟩ => rfl)]
  exact normIdx_apply idx _ hi

theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl, hinit]
  generalize (List.filter _ _) = L
  induction L with
  | nil => rfl
  | cons i L ih => rw [List.foldl_cons, hx i]; exact ih

theorem inRange_apply (idx : Vec Ideal S320000 .i32) (hidx : ∀ i, (idx i).toNat < 10000) (i : S320000.Idx) : inRange idx i = 1#1 := by
  unfold inRange
  refine reduce_andi_of_all _ _ _ _ _ rfl (fun j => ?_)
  obtain ⟨e, z, rfl⟩ : ∃ e z, j = ix2 e z := ⟨j 0, j 1, eq_ix2 j⟩
  have hc := colIdx_apply idx e z (hidx _)
  have hlt := hidx (ix1 e)
  show IntOp.andi (IntOp.cmpi .sge (colIdx idx (ix2 e z)) _) (IntOp.cmpi .sle (colIdx idx (ix2 e z)) _) = 1#1
  rw [hc]
  have h1 : IntOp.cmpi .sge (idx (ix1 e)) (broadcastInDim S320000x1 ![] bcast_S_S320000x1 (constantI S_ 32 0#32) (ix2 e z)) = 1#1 := by
    show IntOp.cmpi .sge (idx (ix1 e)) 0#32 = 1#1
    rw [Predicate.sge_iff_toNat (by omega) (by decide)]; simp
  have h2 : IntOp.cmpi .sle (idx (ix1 e)) (broadcastInDim S320000x1 ![0, 1] bcast_S1x1_S320000x1_0_1
        (broadcastInDim S1x1 ![1] bcast_S1_S1x1_1 (constantI S1 32 9999#32)) (ix2 e z)) = 1#1 := by
    show IntOp.cmpi .sle (idx (ix1 e)) 9999#32 = 1#1
    rw [Predicate.sle_iff_toNat (by omega) (by decide)]
    show (idx (ix1 e)).toNat ≤ 9999
    omega
  rw [h1, h2]; rfl

theorem gather_rows_apply (x : Vec Ideal S10000x128 .f32) (ci : Vec Ideal S320000x1 .i32) (e : Fin 320000) (k : Fin 128) :
    Host.gather gather_S10000x128_S320000x1_S320000x128_1_0_n_n_0_1_1128 x ci (ix2 e k)
      = x (ix2 (⟨min (ci (ix2 e (0 : Fin 1))).toInt.toNat 9999, by omega⟩ : Fin 10000) k) := by
  unfold Host.gather
  congr 1
  funext a
  refine Fin.ext ?_
  match a with
  | ⟨0, _⟩ =>
    show gather_S10000x128_S320000x1_S320000x128_1_0_n_n_0_1_1128.start (ix2 e k) ci 0
        + gather_S10000x128_S320000x1_S320000x128_1_0_n_n_0_1_1128.batchCoord (ix2 e k) 0
        + gather_S10000x128_S320000x1_S320000x128_1_0_n_n_0_1_1128.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S10000x128.rank) ∈ gather_S10000x128_S320000x1_S320000x128_1_0_n_n_0_1_1128.startIndexMap from
      List.mem_singleton.mpr rfl)]
    have hsi : gather_S10000x128_S320000x1_S320000x128_1_0_n_n_0_1_1128.siIdx (ix2 e k)
        ⟨List.idxOf (0 : Fin S10000x128.rank) gather_S10000x128_S320000x1_S320000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S10000x128_S320000x1_S320000x128_1_0_n_n_0_1_1128.start (ix2 e k) ci 1
        + gather_S10000x128_S320000x1_S320000x128_1_0_n_n_0_1_1128.batchCoord (ix2 e k) 1
        + gather_S10000x128_S320000x1_S320000x128_1_0_n_n_0_1_1128.offCoord (ix2 e k) 1 = k.val
    rw [GatherDims.batchCoord_eq_zero _ _ _ List.not_mem_nil]
    have hs : gather_S10000x128_S320000x1_S320000x128_1_0_n_n_0_1_1128.start (ix2 e k) ci 1 = 0 := by
      unfold GatherDims.start
      rw [dif_neg (show (1 : Fin S10000x128.rank) ∉ gather_S10000x128_S320000x1_S320000x128_1_0_n_n_0_1_1128.startIndexMap from by decide)]
    rw [hs]
    simp only [Nat.add_zero, Nat.zero_add]
    unfold GatherDims.offCoord
    rw [dif_pos (show (1 : Fin S10000x128.rank) ∈ gather_S10000x128_S320000x1_S320000x128_1_0_n_n_0_1_1128.sKept from by decide)]
    rfl

theorem take_apply (x : Vec Ideal S10000x128 .f32) (idx : Vec Ideal S320000 .i32) (hidx : ∀ i, (idx i).toNat < 10000)
    (e : Fin 320000) (k : Fin 128) : take x idx (ix2 e k) = x (ix2 (⟨(idx (ix1 e)).toNat, hidx _⟩ : Fin 10000) k) := by
  unfold take
  rw [select_apply]
  have hm : broadcastInDim S320000x128 ![0] bcast_S320000_S320000x128_0 (inRange idx) (ix2 e k) = 1#1 := by
    rw [broadcastInDim_apply _ _ _ (ix2 e k) (ix1 e) (fun a => match a with | ⟨0, _⟩ => rfl)]
    exact inRange_apply idx hidx _
  rw [hm, select_one, gather_rows_apply]
  have hlt := hidx (ix1 e)
  have hv : min (colIdx idx (ix2 e (0 : Fin 1))).toInt.toNat 9999 = (idx (ix1 e)).toNat := by
    rw [colIdx_apply idx e 0 hlt, Predicate.toInt_eq_toNat_of_lt (by omega), Int.toNat_natCast]
    omega
  refine congrArg x (funext fun a => ?_)
  match a with
  | ⟨0, _⟩ => exact Fin.ext hv
  | ⟨1, _⟩ => rfl

theorem cat3_apply_0 (a b : Vec Ideal S320000x128 .f32) (c : Vec Ideal S320000x16 .f32) (e : Fin 320000) (k : Fin 272)
    (hk : k.val < 128) : cat3 a b c (ix2 e k) = a (ix2 e (⟨k.val, hk⟩ : Fin 128)) := by
  unfold cat3
  exact concatenate_apply_piece 1 _ _ (ix2 e k) 0 (by simp) S320000x128 a rfl rfl 0 rfl (ix2 e (⟨k.val, hk⟩ : Fin 128))
    (fun b hb => match b with | ⟨0, _⟩ => rfl | ⟨1, _⟩ => absurd rfl hb) (Nat.zero_add _)

theorem cat3_apply_1 (a b : Vec Ideal S320000x128 .f32) (c : Vec Ideal S320000x16 .f32) (e : Fin 320000) (k : Fin 272)
    (hk1 : 128 ≤ k.val) (hk2 : k.val < 256) : cat3 a b c (ix2 e k) = b (ix2 e (⟨k.val - 128, by omega⟩ : Fin 128)) := by
  unfold cat3
  exact concatenate_apply_piece 1 _ _ (ix2 e k) 1 (by simp) S320000x128 b rfl rfl 128 rfl (ix2 e (⟨k.val - 128, by omega⟩ : Fin 128))
    (fun b hb => match b with | ⟨0, _⟩ => rfl | ⟨1, _⟩ => absurd rfl hb) (by show 128 + (k.val - 128) = k.val; omega)

theorem cat3_apply_2 (a b : Vec Ideal S320000x128 .f32) (c : Vec Ideal S320000x16 .f32) (e : Fin 320000) (k : Fin 272)
    (hk : 256 ≤ k.val) : cat3 a b c (ix2 e k) = c (ix2 e (⟨k.val - 256, by have := k.isLt; omega⟩ : Fin 16)) := by
  unfold cat3
  exact concatenate_apply_piece 1 _ _ (ix2 e k) 2 (by simp) S320000x16 c rfl rfl 256 rfl
    (ix2 e (⟨k.val - 256, by have := k.isLt; omega⟩ : Fin 16))
    (fun b hb => match b with | ⟨0, _⟩ => rfl | ⟨1, _⟩ => absurd rfl hb) (by show 256 + (k.val - 256) = k.val; omega)

theorem cat2_apply_0 (a b : Vec Ideal S10000x128 .f32) (n : Fin 10000) (k : Fin 256) (hk : k.val < 128) :
    cat2 a b (ix2 n k) = a (ix2 n (⟨k.val, hk⟩ : Fin 128)) := by
  unfold cat2
  exact concatenate_apply_piece 1 _ _ (ix2 n k) 0 (by simp) S10000x128 a rfl rfl 0 rfl (ix2 n (⟨k.val, hk⟩ : Fin 128))
    (fun b hb => match b with | ⟨0, _⟩ => rfl | ⟨1, _⟩ => absurd rfl hb) (Nat.zero_add _)

theorem cat2_apply_1 (a b : Vec Ideal S10000x128 .f32) (n : Fin 10000) (k : Fin 256) (hk : 128 ≤ k.val) :
    cat2 a b (ix2 n k) = b (ix2 n (⟨k.val - 128, by have := k.isLt; omega⟩ : Fin 128)) := by
  unfold cat2
  exact concatenate_apply_piece 1 _ _ (ix2 n k) 1 (by simp) S10000x128 b rfl rfl 128 rfl
    (ix2 n (⟨k.val - 128, by have := k.isLt; omega⟩ : Fin 128))
    (fun b hb => match b with | ⟨0, _⟩ => rfl | ⟨1, _⟩ => absurd rfl hb) (by show 128 + (k.val - 128) = k.val; omega)

theorem dot1_eq : dot_S320000x272_S272x64_S320000x64_1_0_0_1_n_n = DotDims.plain 320000 272 64 := rfl
theorem dot2_eq : dot_S320000x64_S64x128_S320000x128_1_0_0_1_n_n = DotDims.plain 320000 64 128 := rfl
theorem dot3_eq : dot_S10000x256_S256x64_S10000x64_1_0_0_1_n_n = DotDims.plain 10000 256 64 := rfl
theorem dot4_eq : dot_S10000x64_S64x128_S10000x128_1_0_0_1_n_n = DotDims.plain 10000 64 128 := rfl

theorem scatter_resultIdx (ci : Vec Ideal S320000x1 .i32) (e : Fin 320000) (f : Fin 128) (w : BitVec 32)
    (hw : ci (ix2 e (0 : Fin 1)) = w) (hlt : w.toNat < 10000) :
    scatter_S10000x128_S320000x1_S320000x128_1_0_0_1.resultIdx? (ix2 e f) ci = some (ix2 (⟨w.toNat, hlt⟩ : Fin 10000) f) := by
  have hs0 : scatter_S10000x128_S320000x1_S320000x128_1_0_0_1.start (ix2 e f) ci 0 = (w.toNat : Int) := by
    unfold ScatterDims.start
    rw [dif_pos (show (0 : Fin S10000x128.rank) ∈ scatter_S10000x128_S320000x1_S320000x128_1_0_0_1.scatterDimsToOperandDims from List.mem_singleton.mpr rfl)]
    have hsi : scatter_S10000x128_S320000x1_S320000x128_1_0_0_1.siIdx (ix2 e f)
        ⟨List.idxOf (0 : Fin S10000x128.rank) scatter_S10000x128_S320000x1_S320000x128_1_0_0_1.scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi, hw]
    exact Predicate.toInt_eq_toNat_of_lt (by omega)
  have hw0 : scatter_S10000x128_S320000x1_S320000x128_1_0_0_1.window (ix2 e f) 0 = 0 := by
    unfold ScatterDims.window
    rw [dif_neg (show (0 : Fin S10000x128.rank) ∉ scatter_S10000x128_S320000x1_S320000x128_1_0_0_1.sKept from by decide)]
  have hs1 : scatter_S10000x128_S320000x1_S320000x128_1_0_0_1.start (ix2 e f) ci 1 = 0 := by
    unfold ScatterDims.start
    rw [dif_neg (show (1 : Fin S10000x128.rank) ∉ scatter_S10000x128_S320000x1_S320000x128_1_0_0_1.scatterDimsToOperandDims from by decide)]
  have hw1 : scatter_S10000x128_S320000x1_S320000x128_1_0_0_1.window (ix2 e f) 1 = f.val := by
    unfold ScatterDims.window
    rw [dif_pos (show (1 : Fin S10000x128.rank) ∈ scatter_S10000x128_S320000x1_S320000x128_1_0_0_1.sKept from by decide)]
    rfl
  have hf := f.isLt
  have hall : ∀ a : Fin S10000x128.rank, 0 ≤ scatter_S10000x128_S320000x1_S320000x128_1_0_0_1.start (ix2 e f) ci a + (scatter_S10000x128_S320000x1_S320000x128_1_0_0_1.window (ix2 e f) a : Int)
      ∧ scatter_S10000x128_S320000x1_S320000x128_1_0_0_1.start (ix2 e f) ci a + (scatter_S10000x128_S320000x1_S320000x128_1_0_0_1.window (ix2 e f) a : Int) < (S10000x128.size a : Int) := fun a =>
    match a with
    | ⟨0, _⟩ => by
      show 0 ≤ scatter_S10000x128_S320000x1_S320000x128_1_0_0_1.start (ix2 e f) ci 0 + (scatter_S10000x128_S320000x1_S320000x128_1_0_0_1.window (ix2 e f) 0 : Int)
        ∧ scatter_S10000x128_S320000x1_S320000x128_1_0_0_1.start (ix2 e f) ci 0 + (scatter_S10000x128_S320000x1_S320000x128_1_0_0_1.window (ix2 e f) 0 : Int) < ((10000 : Nat) : Int)
      rw [hs0, hw0]; omega
    | ⟨1, _⟩ => by
      show 0 ≤ scatter_S10000x128_S320000x1_S320000x128_1_0_0_1.start (ix2 e f) ci 1 + (scatter_S10000x128_S320000x1_S320000x128_1_0_0_1.window (ix2 e f) 1 : Int)
        ∧ scatter_S10000x128_S320000x1_S320000x128_1_0_0_1.start (ix2 e f) ci 1 + (scatter_S10000x128_S320000x1_S320000x128_1_0_0_1.window (ix2 e f) 1 : Int) < ((128 : Nat) : Int)
      rw [hs1, hw1]; omega
  unfold ScatterDims.resultIdx?
  rw [dif_pos hall]
  refine congrArg some (funext fun a => Fin.ext ?_)
  match a with
  | ⟨0, _⟩ =>
    show (scatter_S10000x128_S320000x1_S320000x128_1_0_0_1.start (ix2 e f) ci 0 + (scatter_S10000x128_S320000x1_S320000x128_1_0_0_1.window (ix2 e f) 0 : Int)).toNat = w.toNat
    rw [hs0, hw0]; omega
  | ⟨1, _⟩ =>
    show (scatter_S10000x128_S320000x1_S320000x128_1_0_0_1.start (ix2 e f) ci 1 + (scatter_S10000x128_S320000x1_S320000x128_1_0_0_1.window (ix2 e f) 1 : Int)).toNat = f.val
    rw [hs1, hw1]; omega

theorem srcIdx_lt (A : Cert.Spec.Arrays) (h : A.InRange) (i : S320000.Idx) : (srcIdx A.a1 i).toNat < 10000 := by
  obtain ⟨e, rfl⟩ : ∃ e : Fin 320000, i = ix1 e := ⟨i 0, eq_ix1 i⟩
  rw [srcIdx_apply]; exact h _

theorem dstIdx_lt (A : Cert.Spec.Arrays) (h : A.InRange) (i : S320000.Idx) : (dstIdx A.a1 i).toNat < 10000 := by
  obtain ⟨e, rfl⟩ : ∃ e : Fin 320000, i = ix1 e := ⟨i 0, eq_ix1 i⟩
  rw [dstIdx_apply]; exact h _

theorem bias_apply {m n : Nat} (hn : n ≠ 1) (h1 : (⟨1, ![n]⟩ : Shape).BroadcastsInDim ⟨2, ![1, n]⟩ ![1])
    (h2 : (⟨2, ![1, n]⟩ : Shape).BroadcastsInDim ⟨2, ![m, n]⟩ ![0, 1]) (v : Vec Ideal ⟨1, ![n]⟩ .f32) (p : Fin m) (q : Fin n) :
    broadcastInDim ⟨2, ![m, n]⟩ ![0, 1] h2 (broadcastInDim ⟨2, ![1, n]⟩ ![1] h1 v) (ix2 p q) = v (ix1 q) := by
  rw [broadcastInDim_apply _ _ _ (ix2 p q) (ix2 (0 : Fin 1) q)
      (fun a => match a with | ⟨0, _⟩ => rfl | ⟨1, _⟩ => (if_neg hn).symm),
    broadcastInDim_apply _ _ _ (ix2 (0 : Fin 1) q) (ix1 q) (fun a => match a with | ⟨0, _⟩ => (if_neg hn).symm)]

theorem zeros_apply {T : Shape} (h : S_.BroadcastsInDim T ![]) (j : T.Idx) :
    broadcastInDim T ![] h (constant (F := Ideal) S_ .f32 0x00000000#32) j = (0 : EReal) := by
  rw [broadcastInDim_scalar_apply, constant_apply]; exact Ideal.ofBits_zero_f32

theorem msgIn_apply (A : Cert.Spec.Arrays) (h : A.InRange) (e : Fin 320000) (k : Fin 272) :
    msgIn A (ix2 e k) = Cert.Spec.mi (A.inputs h) e k := by
  unfold msgIn Cert.Spec.mi
  by_cases h1 : k.val < 128
  · rw [dif_pos h1, cat3_apply_0 _ _ _ e k h1, take_apply _ _ (srcIdx_lt A h)]
    have : (⟨(srcIdx A.a1 (ix1 e)).toNat, srcIdx_lt A h _⟩ : Fin 10000) = (A.inputs h).row e := Fin.ext
      (show (srcIdx A.a1 (ix1 e)).toNat = (A.a1 (ix2 (0 : Fin 2) e)).toNat by rw [srcIdx_apply])
    rw [this]; rfl
  · rw [dif_neg h1]
    by_cases h2 : k.val < 256
    · rw [dif_pos h2, cat3_apply_1 _ _ _ e k (by omega) h2, take_apply _ _ (dstIdx_lt A h)]
      have : (⟨(dstIdx A.a1 (ix1 e)).toNat, dstIdx_lt A h _⟩ : Fin 10000) = (A.inputs h).col e := Fin.ext
        (show (dstIdx A.a1 (ix1 e)).toNat = (A.a1 (ix2 (1 : Fin 2) e)).toNat by rw [dstIdx_apply])
      rw [this]; rfl
    · rw [dif_neg h2, cat3_apply_2 _ _ _ e k (by omega)]; rfl

theorem msgHid_apply (A : Cert.Spec.Arrays) (h : A.InRange) (e : Fin 320000) (j : Fin 64) :
    msgHid A (ix2 e j) = Cert.Spec.hR (A.inputs h) e j := by
  unfold msgHid Cert.Spec.hR
  rw [maximumf_apply, addf_apply, dot1_eq, dotGeneral_plain_apply, bias_apply (by decide), zeros_apply]
  have hs : (∑ k : Fin 272, msgIn A (ix2 e k) * A.a3 (ix2 k j)) = ∑ k : Fin 272, Cert.Spec.mi (A.inputs h) e k * (A.inputs h).w1 k j :=
    Finset.sum_congr rfl fun k _ => by rw [msgIn_apply A h]; rfl
  rw [hs]; rfl

theorem msgOut_apply (A : Cert.Spec.Arrays) (h : A.InRange) (e : Fin 320000) (f : Fin 128) :
    msgOut A (ix2 e f) = Cert.Spec.msg (A.inputs h) e f := by
  unfold msgOut Cert.Spec.msg
  rw [addf_apply, dot2_eq, dotGeneral_plain_apply, bias_apply (by decide)]
  have hs : (∑ j : Fin 64, msgHid A (ix2 e j) * A.a5 (ix2 j f)) = ∑ j : Fin 64, Cert.Spec.hR (A.inputs h) e j * (A.inputs h).w2 j f :=
    Finset.sum_congr rfl fun j _ => by rw [msgHid_apply A h]; rfl
  rw [hs]; rfl

theorem aggOut_apply (A : Cert.Spec.Arrays) (h : A.InRange) (n : Fin 10000) (f : Fin 128) :
    aggOut A (ix2 n f) = Cert.Spec.agg (A.inputs h) n f := by
  unfold aggOut Cert.Spec.agg
  show Ideal.hostScatterAdd scatter_S10000x128_S320000x1_S320000x128_1_0_0_1 _ (colIdx (dstIdx A.a1)) (msgOut A) (ix2 n f) = _
  unfold Ideal.hostScatterAdd
  rw [zeros_apply, zero_add, Finset.sum_filter, sum_idx2, Finset.sum_filter]
  refine Finset.sum_congr rfl fun e _ => ?_
  have hci : colIdx (dstIdx A.a1) (ix2 e (0 : Fin 1)) = A.a1 (ix2 (1 : Fin 2) e) := by
    rw [colIdx_apply _ e 0 (dstIdx_lt A h _), dstIdx_apply]
  have hr : ∀ f' : Fin 128, scatter_S10000x128_S320000x1_S320000x128_1_0_0_1.resultIdx? (ix2 e f') (colIdx (dstIdx A.a1)) = some (ix2 ((A.inputs h).col e) f') :=
    fun f' => scatter_resultIdx _ e f' _ hci (h _)
  by_cases hc : (A.inputs h).col e = n
  · rw [if_pos hc, Finset.sum_eq_single f]
    · rw [if_pos (by rw [hr f, hc]), msgOut_apply A h]
    · intro f' _ hne
      rw [if_neg]
      rw [hr f']
      intro heq
      exact hne (congrFun (Option.some.inj heq) 1)
    · intro hf; exact absurd (Finset.mem_univ f) hf
  · rw [if_neg hc]
    refine Finset.sum_eq_zero fun f' _ => ?_
    rw [if_neg]
    rw [hr f']
    intro heq
    exact hc (congrFun (Option.some.inj heq) 0)

theorem updIn_apply (A : Cert.Spec.Arrays) (h : A.InRange) (n : Fin 10000) (k : Fin 256) :
    updIn A (ix2 n k) = Cert.Spec.ui (A.inputs h) n k := by
  unfold updIn Cert.Spec.ui
  by_cases h1 : k.val < 128
  · rw [dif_pos h1, cat2_apply_0 _ _ n k h1]; rfl
  · rw [dif_neg h1, cat2_apply_1 _ _ n k (by omega), aggOut_apply A h]

theorem updHid_apply (A : Cert.Spec.Arrays) (h : A.InRange) (n : Fin 10000) (j : Fin 64) :
    updHid A (ix2 n j) = Cert.Spec.h2 (A.inputs h) n j := by
  unfold updHid Cert.Spec.h2
  rw [maximumf_apply, addf_apply, dot3_eq, dotGeneral_plain_apply, bias_apply (by decide), zeros_apply]
  have hs : (∑ k : Fin 256, updIn A (ix2 n k) * A.a7 (ix2 k j)) = ∑ k : Fin 256, Cert.Spec.ui (A.inputs h) n k * (A.inputs h).u1 k j :=
    Finset.sum_congr rfl fun k _ => by rw [updIn_apply A h]; rfl
  rw [hs]; rfl

/-- Read index by index, the reference's composed term is the specification's reference form. -/
theorem refTerm_eq (A : Cert.Spec.Arrays) (h : A.InRange) : refTerm A = A.refOut h := by
  funext i
  obtain ⟨n, f, rfl⟩ : ∃ (n : Fin 10000) (f : Fin 128), i = ix2 n f := ⟨i 0, i 1, eq_ix2 i⟩
  unfold refTerm Cert.Spec.Arrays.refOut Cert.Spec.out
  rw [addf_apply, dot4_eq, dotGeneral_plain_apply, bias_apply (by decide)]
  have hs : (∑ j : Fin 64, updHid A (ix2 n j) * A.a9 (ix2 j f)) = ∑ j : Fin 64, Cert.Spec.h2 (A.inputs h) n j * (A.inputs h).u2 j f :=
    Finset.sum_congr rfl fun j _ => by rw [updHid_apply A h]; rfl
  rw [hs]; rfl

end Cert.ReferenceIdeal.RefValue

end
-- ==== Proof.KHostB.lean ====
import proofs.«208460_g27728308863843_cont_9to1_469_33_alg».proof.Proof.KVals
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.StableHlo.Run
import Idealize.ShloMosaic.Lib.IdealHost
import Idealize.ShloMosaic.PureOps.Ideal.Laws

set_option maxRecDepth 16384

noncomputable section

namespace Cert.KernelIdeal.KProof

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.Sem
open Idealize.ShloMosaic.StableHlo

open Idealize.ShloMosaic.StableHlo.Predicate
open scoped BigOperators

abbrev D1 : ScatterDims S10000x64 S320000x1 S320000x64 := scatter_S10000x64_S320000x1_S320000x64_1_0_0_1

abbrev D2 : ScatterDims S10000x1 S320000x2 S320000 := scatter_S10000x1_S320000x2_S320000_n_01_01_1

theorem D1_start0 {w : Nat} (j : S320000x64.Idx) (idx : IVec S320000x1 w) :
    D1.start j idx 0 = (idx (ix2 (j 0) (0 : Fin 1))).toInt := by
  unfold ScatterDims.start
  rw [dif_pos (by decide)]
  congr 2
  funext b
  match b with
  | ⟨0, _⟩ => rfl
  | ⟨1, _⟩ => rfl

theorem D1_start1 {w : Nat} (j : S320000x64.Idx) (idx : IVec S320000x1 w) : D1.start j idx 1 = 0 := by
  unfold ScatterDims.start
  rw [dif_neg (by decide)]

theorem D1_window0 (j : S320000x64.Idx) : D1.window j 0 = 0 := by
  unfold ScatterDims.window
  rw [dif_neg (by decide)]

theorem D1_window1 (j : S320000x64.Idx) : D1.window j 1 = (j 1).val := by
  unfold ScatterDims.window
  rw [dif_pos (by decide)]
  rfl

theorem D1_result {w : Nat} (j : S320000x64.Idx) (idx : IVec S320000x1 w) (r : Fin 10000)
    (h : (idx (ix2 (j 0) (0 : Fin 1))).toInt = (r.val : Int)) :
    D1.resultIdx? j idx = some (ix2 r (j 1)) := by
  have H : ∀ a, 0 ≤ D1.start j idx a + D1.window j a ∧ D1.start j idx a + D1.window j a < S10000x64.size a := by
    intro a
    match a with
    | ⟨0, _⟩ =>
      show 0 ≤ D1.start j idx 0 + (D1.window j 0 : Int) ∧ D1.start j idx 0 + (D1.window j 0 : Int) < ((10000 : ℕ) : Int)
      rw [D1_start0, D1_window0, h]; have := r.isLt; omega
    | ⟨1, _⟩ =>
      show 0 ≤ D1.start j idx 1 + (D1.window j 1 : Int) ∧ D1.start j idx 1 + (D1.window j 1 : Int) < ((64 : ℕ) : Int)
      rw [D1_start1, D1_window1]; have := idx2_lt1 j; omega
  unfold ScatterDims.resultIdx?
  rw [dif_pos H]
  congr 1
  funext a
  match a with
  | ⟨0, _⟩ =>
    apply Fin.ext
    show (D1.start j idx 0 + (D1.window j 0 : Int)).toNat = r.val
    rw [D1_start0, D1_window0, h]; omega
  | ⟨1, _⟩ =>
    apply Fin.ext
    show (D1.start j idx 1 + (D1.window j 1 : Int)).toNat = (j 1).val
    rw [D1_start1, D1_window1]; omega

theorem norm_word (x : BitVec 32) (hx : x.toNat < 10000) :
    Scalar.select (IntOp.cmpi .slt x 0#32) (IntOp.addi x 10000#32) x = x := by
  have h0 : ¬ IntOp.cmpi .slt x 0#32 = 1#1 := by
    rw [slt_iff_toNat (by omega) (by decide)]
    exact Nat.not_lt_zero _
  rw [eq_zero_of_ne_one h0, select_zero]

theorem scatterAdd1_apply (Z : FVec Ideal S10000x64 .f32) (idx : IVec S320000x1 32) (U : FVec Ideal S320000x64 .f32)
    (wd : Fin 320000 → BitVec 32) (hidx : ∀ e, idx (ix2 e (0 : Fin 1)) = wd e) (hwd : ∀ e, (wd e).toNat < 10000)
    (hZ : ∀ i, Z i = 0) (n : Fin 10000) (j : Fin 64) :
    Host.scatterAdd D1 Z idx U (ix2 n j)
      = ∑ e ∈ Finset.univ.filter (fun e : Fin 320000 => (wd e).toNat = n.val), U (ix2 e j) := by
  have hword : ∀ e, (idx (ix2 e (0 : Fin 1))).toInt = (((wd e).toNat : ℕ) : Int) := fun e => by
    rw [hidx, toInt_eq_toNat_of_lt (by have := hwd e; omega)]
  show Ideal.hostScatterAdd D1 Z idx U (ix2 n j) = _
  unfold Ideal.hostScatterAdd
  rw [hZ, zero_add]
  symm
  refine Finset.sum_bij (fun e _ => ix2 e j) ?_ ?_ ?_ ?_
  · intro e he
    rw [Finset.mem_filter] at he ⊢
    refine ⟨Finset.mem_univ _, ?_⟩
    have hn : (⟨(wd e).toNat, hwd e⟩ : Fin 10000) = n := Fin.ext he.2
    rw [← hn]
    exact D1_result (ix2 e j) idx ⟨(wd e).toNat, hwd e⟩ (hword e)
  · intro e _ e' _ h
    exact congrFun h 0
  · intro j' hj'
    rw [Finset.mem_filter] at hj'
    have hres := D1_result j' idx ⟨(wd (j' 0)).toNat, hwd _⟩ (hword (j' 0))
    have h2 := Option.some.inj (hres.symm.trans hj'.2)
    have h0 : (wd (j' 0)).toNat = n.val := congrArg Fin.val (congrFun h2 0)
    have h1 : j' 1 = j := congrFun h2 1
    refine ⟨j' 0, Finset.mem_filter.mpr ⟨Finset.mem_univ _, h0⟩, ?_⟩
    rw [← h1]; exact (eq_ix2 j').symm
  · intro e _; rfl

theorem D2_start0 {w : Nat} (j : S320000.Idx) (idx : IVec S320000x2 w) :
    D2.start j idx 0 = (idx (ix2 (j 0) (0 : Fin 2))).toInt := by
  unfold ScatterDims.start
  rw [dif_pos (by decide)]
  congr 2
  funext b
  match b with
  | ⟨0, _⟩ => rfl
  | ⟨1, _⟩ => rfl

theorem D2_start1 {w : Nat} (j : S320000.Idx) (idx : IVec S320000x2 w) :
    D2.start j idx 1 = (idx (ix2 (j 0) (1 : Fin 2))).toInt := by
  unfold ScatterDims.start
  rw [dif_pos (by decide)]
  congr 2
  funext b
  match b with
  | ⟨0, _⟩ => rfl
  | ⟨1, _⟩ => rfl

theorem D2_window0 (j : S320000.Idx) : D2.window j 0 = 0 := by
  unfold ScatterDims.window
  rw [dif_neg (by decide)]
theorem D2_window1 (j : S320000.Idx) : D2.window j 1 = 0 := by
  unfold ScatterDims.window
  rw [dif_neg (by decide)]

theorem D2_result {w : Nat} (j : S320000.Idx) (idx : IVec S320000x2 w) (r : Fin 10000)
    (h0 : (idx (ix2 (j 0) (0 : Fin 2))).toInt = (r.val : Int)) (h1 : (idx (ix2 (j 0) (1 : Fin 2))).toInt = 0) :
    D2.resultIdx? j idx = some (ix2 r (0 : Fin 1)) := by
  have H : ∀ a, 0 ≤ D2.start j idx a + D2.window j a ∧ D2.start j idx a + D2.window j a < S10000x1.size a := by
    intro a
    match a with
    | ⟨0, _⟩ =>
      show 0 ≤ D2.start j idx 0 + (D2.window j 0 : Int) ∧ D2.start j idx 0 + (D2.window j 0 : Int) < ((10000 : ℕ) : Int)
      rw [D2_start0, D2_window0, h0]; have := r.isLt; omega
    | ⟨1, _⟩ =>
      show 0 ≤ D2.start j idx 1 + (D2.window j 1 : Int) ∧ D2.start j idx 1 + (D2.window j 1 : Int) < ((1 : ℕ) : Int)
      rw [D2_start1, D2_window1, h1]; omega
  unfold ScatterDims.resultIdx?
  rw [dif_pos H]
  congr 1
  funext a
  match a with
  | ⟨0, _⟩ =>
    apply Fin.ext
    show (D2.start j idx 0 + (D2.window j 0 : Int)).toNat = r.val
    rw [D2_start0, D2_window0, h0]; omega
  | ⟨1, _⟩ =>
    apply Fin.ext
    show (D2.start j idx 1 + (D2.window j 1 : Int)).toNat = 0
    rw [D2_start1, D2_window1, h1]; rfl

theorem scatterAdd2_apply (Z : FVec Ideal S10000x1 .f32) (idx : IVec S320000x2 32) (U : FVec Ideal S320000 .f32)
    (wd : Fin 320000 → BitVec 32) (hidx0 : ∀ e, idx (ix2 e (0 : Fin 2)) = wd e) (hidx1 : ∀ e, idx (ix2 e (1 : Fin 2)) = 0#32)
    (hwd : ∀ e, (wd e).toNat < 10000) (hZ : ∀ i, Z i = 0) (n : Fin 10000) :
    Host.scatterAdd D2 Z idx U (ix2 n (0 : Fin 1))
      = ∑ e ∈ Finset.univ.filter (fun e : Fin 320000 => (wd e).toNat = n.val), U (ix1 e) := by
  have hword : ∀ e, (idx (ix2 e (0 : Fin 2))).toInt = (((wd e).toNat : ℕ) : Int) := fun e => by
    rw [hidx0, toInt_eq_toNat_of_lt (by have := hwd e; omega)]
  have hzero : ∀ e, (idx (ix2 e (1 : Fin 2))).toInt = 0 := fun e => by rw [hidx1]; rfl
  show Ideal.hostScatterAdd D2 Z idx U (ix2 n (0 : Fin 1)) = _
  unfold Ideal.hostScatterAdd
  rw [hZ, zero_add]
  symm
  refine Finset.sum_bij (fun e _ => ix1 e) ?_ ?_ ?_ ?_
  · intro e he
    rw [Finset.mem_filter] at he ⊢
    refine ⟨Finset.mem_univ _, ?_⟩
    have hn : (⟨(wd e).toNat, hwd e⟩ : Fin 10000) = n := Fin.ext he.2
    rw [← hn]
    exact D2_result (ix1 e) idx ⟨(wd e).toNat, hwd e⟩ (hword e) (hzero e)
  · intro e _ e' _ h
    exact congrFun h 0
  · intro j' hj'
    rw [Finset.mem_filter] at hj'
    have hres := D2_result j' idx ⟨(wd (j' 0)).toNat, hwd _⟩ (hword (j' 0)) (hzero (j' 0))
    have h2 := Option.some.inj (hres.symm.trans hj'.2)
    have h0 : (wd (j' 0)).toNat = n.val := congrArg Fin.val (congrFun h2 0)
    exact ⟨j' 0, Finset.mem_filter.mpr ⟨Finset.mem_univ _, h0⟩, (eq_ix1 j').symm⟩
  · intro e _; rfl

theorem col_at (A : IVec S2x320000 32) (h₁ : S2x320000.Slices ![1, 0] S1x320000) (h₂ : S1x320000.ShapeCasts S320000) (e : Fin 320000) :
    shapeCast S320000 (extractStridedSlice S1x320000 ![1, 0] A h₁) h₂ (ix1 e) = A (ix2 (1 : Fin 2) e) :=
  (shapeCast_1a_a_apply _ h₂ e).trans (slice2_axis0_apply 1 A h₁ (0 : Fin 1) e (1 : Fin 2) rfl)

theorem normcol_at (col z t : IVec S320000 32) (hz : ∀ i, z i = 0#32) (ht : ∀ i, t i = 10000#32) (e : Fin 320000)
    (hx : (col (ix1 e)).toNat < 10000) : select (cmpi .slt col z) (addi col t) col (ix1 e) = col (ix1 e) := by
  show Scalar.select (IntOp.cmpi .slt (col (ix1 e)) (z (ix1 e))) (IntOp.addi (col (ix1 e)) (t (ix1 e))) (col (ix1 e)) = _
  rw [hz, ht]; exact norm_word _ hx

theorem column_at {α : Type} (v : S320000.Idx → α) (h : S320000.BroadcastsInDim S320000x1 ![0]) (e : Fin 320000) :
    broadcastInDim S320000x1 ![0] h v (ix2 e (0 : Fin 1)) = v (ix1 e) :=
  broadcastInDim_apply ![0] h v (ix2 e (0 : Fin 1)) (ix1 e) fun a => by
    match a with
    | ⟨0, _⟩ => rfl

abbrev f32At (s : Shape) (x : FVec Ideal s .f32) : s.Idx → EReal := x

abbrev i32At (s : Shape) (x : IVec s 32) : s.Idx → BitVec 32 := x

variable (m : (ℓ : Loc nD τ sig) → Buf (Elt Ideal) ℓ) (c : Dev nD)

theorem Wb_v32 (hr : ∀ i, (i32At S2x320000 (W3 m c main_arg1) i).toNat < 10000) (n : Fin 10000) (j : Fin 64) :
    f32At S10000x64 (Wb m c main_v32) (ix2 n j)
      = ∑ e ∈ Finset.univ.filter (fun e : Fin 320000 => (i32At S2x320000 (W3 m c main_arg1) (ix2 (1 : Fin 2) e)).toNat = n.val),
          f32At S320000x64 (W3 m c main_v22) (ix2 e j) := by
  dsimp only [Wb, f32At, i32At]; unfold opsB; after_results_simp
  refine scatterAdd1_apply _ _ _ (fun e => i32At S2x320000 (W3 m c main_arg1) (ix2 (1 : Fin 2) e)) ?_ (fun e => hr _) ?_ n j
  · intro e
    refine (column_at _ _ e).trans ?_
    refine (normcol_at _ _ _ (fun i => ?_) (fun i => ?_) e ?_).trans (col_at _ _ _ e)
    · exact broadcastInDim_scalar_apply _ _ i
    · exact broadcastInDim_scalar_apply _ _ i
    · exact lt_of_eq_of_lt (congrArg BitVec.toNat (col_at _ _ _ e)) (hr _)
  · intro i
    exact (broadcastInDim_scalar_apply _ _ i).trans Ideal.ofBits_zero_f32

theorem Wb_v45 (hr : ∀ i, (i32At S2x320000 (W3 m c main_arg1) i).toNat < 10000) (n : Fin 10000) :
    f32At S10000x1 (Wb m c main_v45) (ix2 n (0 : Fin 1))
      = ∑ _e ∈ Finset.univ.filter (fun e : Fin 320000 => (i32At S2x320000 (W3 m c main_arg1) (ix2 (1 : Fin 2) e)).toNat = n.val),
          (1 : EReal) := by
  dsimp only [Wb, f32At, i32At]; unfold opsB; after_results_simp
  refine (scatterAdd2_apply _ _ _ (fun e => i32At S2x320000 (W3 m c main_arg1) (ix2 (1 : Fin 2) e)) ?_ ?_ (fun e => hr _) ?_ n).trans ?_
  · intro e
    refine (concatenate_pair_apply_left (t := S320000x2) (s₁ := S320000x1) (s₂ := S320000x1) (1 : Fin 2) _ _ _
      (ix2 e (0 : Fin 2)) rfl (ix2 e (0 : Fin 1)) ?_).trans ?_
    · intro b
      match b with
      | ⟨0, _⟩ => rfl
      | ⟨1, _⟩ => rfl
    · after_results_simp
      refine (column_at _ _ e).trans ?_
      refine (normcol_at _ _ _ (fun i => ?_) (fun i => ?_) e ?_).trans (col_at _ _ _ e)
      · exact broadcastInDim_scalar_apply _ _ i
      · exact broadcastInDim_scalar_apply _ _ i
      · exact lt_of_eq_of_lt (congrArg BitVec.toNat (col_at _ _ _ e)) (hr _)
  · intro e
    refine (concatenate_pair_apply_right (t := S320000x2) (s₁ := S320000x1) (s₂ := S320000x1) (1 : Fin 2) _ _ _
      (ix2 e (1 : Fin 2)) rfl rfl (ix2 e (0 : Fin 1)) ?_ ?_).trans ?_
    · intro b hb
      match b with
      | ⟨0, _⟩ => rfl
      | ⟨1, _⟩ => exact absurd rfl hb
    · rfl
    · after_results_simp
      refine (column_at _ _ e).trans ?_
      exact broadcastInDim_scalar_apply _ _ _
  · intro i
    exact (broadcastInDim_scalar_apply _ _ i).trans Ideal.ofBits_zero_f32
  · refine Finset.sum_congr rfl fun e _ => ?_
    exact (broadcastInDim_scalar_apply _ _ (ix1 e)).trans Ideal.ofBits_one_f32

theorem row_at {α : Type} {k : ℕ} (v : (⟨1, ![k]⟩ : Shape).Idx → α) (h : (⟨1, ![k]⟩ : Shape).BroadcastsInDim ⟨2, ![1, k]⟩ ![1]) (f : Fin k) :
    broadcastInDim ⟨2, ![1, k]⟩ ![1] h v (ix2 (0 : Fin 1) f) = v (ix1 f) :=
  broadcastInDim_apply ![1] h v (ix2 (0 : Fin 1) f) (ix1 f) fun a => by
    match a with
    | ⟨0, _⟩ =>
      show f.val = if k = 1 then 0 else f.val
      split
      · omega
      · rfl

theorem Wb_v46 (f : Fin 128) : f32At S1x128 (Wb m c main_v46) (ix2 (0 : Fin 1) f) = f32At S128 (W3 m c main_arg6) (ix1 f) := by
  dsimp only [Wb, f32At]; unfold opsB; after_results_simp
  exact row_at _ _ f

theorem Wb_v47 (k : Fin 128) (j : Fin 64) :
    f32At S128x64 (Wb m c main_v47) (ix2 k j) = f32At S256x64 (W3 m c main_arg7) (ix2 (⟨k.val, by omega⟩ : Fin 256) j) := by
  dsimp only [Wb, f32At]; unfold opsB; after_results_simp
  exact slice2_axis0_apply 0 _ _ k j ⟨k.val, by omega⟩ (Nat.zero_add _).symm

theorem Wb_v48 (k : Fin 128) (j : Fin 64) :
    f32At S128x64 (Wb m c main_v48) (ix2 k j) = f32At S256x64 (W3 m c main_arg7) (ix2 (⟨128 + k.val, by omega⟩ : Fin 256) j) := by
  dsimp only [Wb, f32At]; unfold opsB; after_results_simp
  exact slice2_axis0_apply 128 _ _ k j ⟨128 + k.val, by omega⟩ rfl

theorem Wb_v49 (j : Fin 64) : f32At S1x64 (Wb m c main_v49) (ix2 (0 : Fin 1) j) = f32At S64 (W3 m c main_arg8) (ix1 j) := by
  dsimp only [Wb, f32At]; unfold opsB; after_results_simp
  exact row_at _ _ j

theorem Wb_v50 (f : Fin 128) : f32At S1x128 (Wb m c main_v50) (ix2 (0 : Fin 1) f) = f32At S128 (W3 m c main_arg10) (ix1 f) := by
  dsimp only [Wb, f32At]; unfold opsB; after_results_simp
  exact row_at _ _ f

end Cert.KernelIdeal.KProof

end
-- ==== Proof.Region0Value.lean ====
import proofs.«208460_g27728308863843_cont_9to1_469_33_alg».proof.Proof.Region0
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.KProof

open Cert.KernelIdeal Cert.KernelIdeal.Gen
open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

def G0a (x : Vec Ideal S10000x128 .f32) (w : Vec Ideal S128x128 .f32) : Vec Ideal S10000x128 .f32 :=
  fun j => ∑ k : Fin 128, x (ix2 (j 0) k) * w (ix2 k (j 1))

theorem lhs_D0_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs_D0_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

theorem rhs_D0_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem rhs_D0_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

theorem matmul_D0_apply (x : FVec Ideal S2000x128 .f32) (w : FVec Ideal S128x128 .f32) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  simp only [matmul]
  rw [Ideal.matmul_constant_zero_apply,
    ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q)
      ((ValueIdx.contrEquiv1 dot_S2000x128_S128x128_S2000x128_1_0_0_1_n_n 128 rfl rfl).symm k) = ix2 p k :=
    funext fun a => Fin.ext (by
      match a with
      | ⟨0, _⟩ => exact lhs_D0_0 _ _
      | ⟨1, _⟩ => exact (lhs_D0_1 _ _).trans hk)
  have er : dot_S2000x128_S128x128_S2000x128_1_0_0_1_n_n.rhsIdx (ix2 p q)
      ((ValueIdx.contrEquiv1 dot_S2000x128_S128x128_S2000x128_1_0_0_1_n_n 128 rfl rfl).symm k) = ix2 k q :=
    funext fun a => Fin.ext (by
      match a with
      | ⟨0, _⟩ => exact (rhs_D0_0 _ _).trans hk
      | ⟨1, _⟩ => exact rhs_D0_1 _ _)
  rw [el, er]

theorem k0_pay1_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  rw [shapeCast_self]
  exact matmul_D0_apply x0 x1 p q

theorem k0_pay2_apply (x0 : Vec Ideal S2000x128 .f32) (x5 : Vec Ideal S128x128 .f32) (p : Fin 2000) (q : Fin 128) :
    k0_pay2 x0 x5 (ix2 p q) = ∑ k : Fin 128, x0 (ix2 p k) * x5 (ix2 k q) := by
  unfold k0_pay2
  rw [shapeCast_self]
  exact matmul_D0_apply x0 x5 p q

variable (V : (c : Dev nD) → (b : Ref sig .tc) → Buf (Elt Ideal) ((c : Thread nD τ).loc b))

theorem hz0 : (![0, 0] : Fin 2 → Nat) = fun _ => 0 := funext fun a => by fin_cases a <;> rfl

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem idx_onto0 : ∀ q0 : Fin 5, ∃ t : Fin cfg0.N, t.val = q0.val :=
  (by decide +kernel : ∀ q0 : Fin 5, ∃ t : Fin grid0.N, t.val = q0.val)

theorem flushed0_3_eq (O : CellTallies nD τ sig (HIx 1)) (B : Set (SemLoc sig × HIx 1)) (c : Dev nD) (t : Fin cfg0.N) :
    (dat0 (F := Ideal) V O B c).flushed 3 t
      = ((cfg0.win 3).blk t).view.read (Elt Ideal) (G0a (V c main_arg0) (V c main_v10)) := by
  show (cfg0.win 3).cut (grid0.coords t) ((dat0 (F := Ideal) V O B c).after 3 t) = _
  rw [after0_3]
  unfold out0_3
  rw [View.canon_unit_zero hz0]
  simp only [View.ld_unit_zero (S := S2000x128) hz0, View.ld_unit_zero (S := S128x128) hz0]
  obtain ⟨e00, e01, e10, e11, e20, e21, e30, e31, e40, e41⟩ := idx_facts0 t
  funext j
  obtain ⟨p, q, rfl⟩ : ∃ (p : Fin 2000) (q : Fin 128), j = ix2 p q := ⟨j 0, j 1, eq_ix2 j⟩
  show k0_pay1 (iblk0 V c 0 t) (iblk0 V c 1 t) (ix2 p q)
    = G0a (V c main_arg0) (V c main_v10) (((cfg0.win 3).blk t).view.emb (ix2 p q))
  rw [k0_pay1_apply]
  unfold G0a
  refine Finset.sum_congr rfl fun k _ => ?_
  have h0 : iblk0 V c 0 t (ix2 p k) = V c main_arg0 (ix2 ((((cfg0.win 3).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  have h1 : iblk0 V c 1 t (ix2 k q) = V c main_v10 (ix2 k ((((cfg0.win 3).blk t).view.emb (ix2 p q)) 1)) := by
    show V c main_v10 (((cfg0.win 1).blk t).view.emb (ix2 k q)) = _
    refine congrArg (V c main_v10) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  rw [h0, h1]

theorem mem_blk0_3 (t : Fin cfg0.N) (i : S10000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v19_0).slice (win0_3.rect t)).set ↔ _
  rw [View.set_slice_whole, Rect.mem_set_unit]
  exact Iff.rfl

theorem cover0_3_arr (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  obtain ⟨t, ht⟩ := idx_onto0 ⟨(i 0).val / 2000, by omega⟩
  have ht' : t.val = (i 0).val / 2000 := ht
  obtain ⟨e00, e01, e10, e11, e20, e21, e30, e31, e40, e41⟩ := idx_facts0 t
  refine ⟨t, flush0_3 t, ?_⟩
  rw [mem_blk0_3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

theorem final0_3 (O : CellTallies nD τ sig (HIx 1)) (B : Set (SemLoc sig × HIx 1)) (c : Dev nD) :
    (dat0 (F := Ideal) V O B c).arrAt 3 cfg0.N = G0a (V c main_arg0) (V c main_v10) :=
  (dat0 (F := Ideal) V O B c).arrAt_eq_of_cover 3 (G0a (V c main_arg0) (V c main_v10))
    (fun t _ => flushed0_3_eq V O B c t) cover0_3_arr

theorem flushed0_4_eq (O : CellTallies nD τ sig (HIx 1)) (B : Set (SemLoc sig × HIx 1)) (c : Dev nD) (t : Fin cfg0.N) :
    (dat0 (F := Ideal) V O B c).flushed 4 t
      = ((cfg0.win 4).blk t).view.read (Elt Ideal) (G0a (V c main_arg0) (V c main_v12)) := by
  show (cfg0.win 4).cut (grid0.coords t) ((dat0 (F := Ideal) V O B c).after 4 t) = _
  rw [after0_4]
  unfold out0_4
  rw [View.canon_unit_zero hz0]
  simp only [View.ld_unit_zero (S := S2000x128) hz0, View.ld_unit_zero (S := S128x128) hz0]
  obtain ⟨e00, e01, e10, e11, e20, e21, e30, e31, e40, e41⟩ := idx_facts0 t
  funext j
  obtain ⟨p, q, rfl⟩ : ∃ (p : Fin 2000) (q : Fin 128), j = ix2 p q := ⟨j 0, j 1, eq_ix2 j⟩
  show k0_pay2 (iblk0 V c 0 t) (iblk0 V c 2 t) (ix2 p q)
    = G0a (V c main_arg0) (V c main_v12) (((cfg0.win 4).blk t).view.emb (ix2 p q))
  rw [k0_pay2_apply]
  unfold G0a
  refine Finset.sum_congr rfl fun k _ => ?_
  have h0 : iblk0 V c 0 t (ix2 p k) = V c main_arg0 (ix2 ((((cfg0.win 4).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_4.index t (0 : Fin 2) * 2000 + 1 * p.val; omega
    | ⟨1, _⟩ => show win0_0.index t (1 : Fin 2) * 128 + 1 * k.val = k.val; omega
  have h1 : iblk0 V c 2 t (ix2 k q) = V c main_v12 (ix2 k ((((cfg0.win 4).blk t).view.emb (ix2 p q)) 1)) := by
    show V c main_v12 (((cfg0.win 2).blk t).view.emb (ix2 k q)) = _
    refine congrArg (V c main_v12) (funext fun a => Fin.ext ?_)
    match a with
    | ⟨0, _⟩ => show win0_2.index t (0 : Fin 2) * 128 + 1 * k.val = k.val; omega
    | ⟨1, _⟩ => show win0_2.index t (1 : Fin 2) * 128 + 1 * q.val = win0_4.index t (1 : Fin 2) * 128 + 1 * q.val; omega
  rw [h0, h1]

theorem mem_blk0_4 (t : Fin cfg0.N) (i : S10000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v19_1).slice (win0_4.rect t)).set ↔ _
  rw [View.set_slice_whole, Rect.mem_set_unit]
  exact Iff.rfl

theorem cover0_4_arr (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  obtain ⟨t, ht⟩ := idx_onto0 ⟨(i 0).val / 2000, by omega⟩
  have ht' : t.val = (i 0).val / 2000 := ht
  obtain ⟨e00, e01, e10, e11, e20, e21, e30, e31, e40, e41⟩ := idx_facts0 t
  refine ⟨t, flush0_4 t, ?_⟩
  rw [mem_blk0_4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

theorem final0_4 (O : CellTallies nD τ sig (HIx 1)) (B : Set (SemLoc sig × HIx 1)) (c : Dev nD) :
    (dat0 (F := Ideal) V O B c).arrAt 4 cfg0.N = G0a (V c main_arg0) (V c main_v12) :=
  (dat0 (F := Ideal) V O B c).arrAt_eq_of_cover 4 (G0a (V c main_arg0) (V c main_v12))
    (fun t _ => flushed0_4_eq V O B c t) cover0_4_arr

end Cert.KernelIdeal.KProof

end
-- ==== Proof.Region1Value.lean ====
import proofs.«208460_g27728308863843_cont_9to1_469_33_alg».proof.Proof.Region1
import Idealize.ShloMosaic.Lib.Pipeline.Value
import Idealize.ShloMosaic.Lib.ValueIdx
import Idealize.ShloMosaic.PureOps.Ideal.Laws

set_option maxRecDepth 16384

noncomputable section

namespace Cert.KernelIdeal.KProof

open Cert.KernelIdeal Cert.KernelIdeal.Gen
open Idealize.ShloMosaic Idealize.ShloMosaic.TcCoe Idealize.ShloMosaic.ValueIdx
open Idealize.ShloMosaic.SparseCore.Cfg (HIx)
open Idealize.SL Idealize.SL.Sem
open Idealize.ShloMosaic.Pipeline (Dat)
open scoped BigOperators

variable (V : (c : Dev nD) → (b : Ref sig .tc) → Buf (Elt Ideal) ((c : Thread nD τ).loc b))

theorem hz1 : (![0, 0] : Fin 2 → Nat) = fun _ => 0 := funext fun a => by fin_cases a <;> rfl

theorem lhs_mm1_0 (i : S10000x128.Idx) (q : dot_S10000x16_S16x128_S10000x128_1_0_0_1_n_n.contr.Idx) :
    (dot_S10000x16_S16x128_S10000x128_1_0_0_1_n_n.lhsIdx i q 0).val = (i 0).val := by
  unfold DotDims.lhsIdx
  rw [dif_neg (show ¬(0 : Fin S10000x16.rank) ∈ dot_S10000x16_S16x128_S10000x128_1_0_0_1_n_n.lhsBatch by decide), dif_pos (show (0 : Fin S10000x16.rank) ∈ dot_S10000x16_S16x128_S10000x128_1_0_0_1_n_n.lhsNonContracting by decide)]
  rfl
theorem lhs_mm1_1 (i : S10000x128.Idx) (q : dot_S10000x16_S16x128_S10000x128_1_0_0_1_n_n.contr.Idx) :
    (dot_S10000x16_S16x128_S10000x128_1_0_0_1_n_n.lhsIdx i q 1).val = (q ⟨0, by decide⟩).val :=
  dot_S10000x16_S16x128_S10000x128_1_0_0_1_n_n.lhsIdx_val_of_single rfl i q

theorem rhs_mm1_0 (i : S10000x128.Idx) (q : dot_S10000x16_S16x128_S10000x128_1_0_0_1_n_n.contr.Idx) :
    (dot_S10000x16_S16x128_S10000x128_1_0_0_1_n_n.rhsIdx i q 0).val = (q ⟨0, by decide⟩).val :=
  dot_S10000x16_S16x128_S10000x128_1_0_0_1_n_n.rhsIdx_val_of_single rfl i q
theorem rhs_mm1_1 (i : S10000x128.Idx) (q : dot_S10000x16_S16x128_S10000x128_1_0_0_1_n_n.contr.Idx) :
    (dot_S10000x16_S16x128_S10000x128_1_0_0_1_n_n.rhsIdx i q 1).val = (i 1).val := by
  unfold DotDims.rhsIdx
  rw [dif_neg (show ¬(1 : Fin S16x128.rank) ∈ dot_S10000x16_S16x128_S10000x128_1_0_0_1_n_n.rhsBatch by decide), dif_pos (show (1 : Fin S16x128.rank) ∈ dot_S10000x16_S16x128_S10000x128_1_0_0_1_n_n.rhsNonContracting by decide)]
  rfl

theorem k1_pay1_apply (v0 : Vec Ideal S10000x16 .f32) (v1 : Vec Ideal S16x128 .f32) (v4 : Vec Ideal S1x128 .f32) (p : Fin 10000) (q : Fin 128) :
    k1_pay1 (F := Ideal) v0 v1 v4 (ix2 p q) = (∑ k : Fin 16, v0 (ix2 p k) * v1 (ix2 k q)) + v4 (ix2 0 q) := by
  unfold k1_pay1
  simp only [matmul]
  rw [addf_apply, shapeCast_self, shapeCast_self, Ideal.matmul_constant_zero_apply]
  congr 1
  · rw [← Equiv.sum_comp (contrEquiv1 dot_S10000x16_S16x128_S10000x128_1_0_0_1_n_n 16 rfl rfl).symm]
    refine Finset.sum_congr rfl fun k _ => ?_
    have hk := contrEquiv1_symm_val dot_S10000x16_S16x128_S10000x128_1_0_0_1_n_n 16 rfl rfl k
    have el : dot_S10000x16_S16x128_S10000x128_1_0_0_1_n_n.lhsIdx (ix2 p q) ((contrEquiv1 dot_S10000x16_S16x128_S10000x128_1_0_0_1_n_n 16 rfl rfl).symm k) = ix2 p k := funext fun a => Fin.ext (by
      match a with
      | ⟨0, _⟩ => exact lhs_mm1_0 _ _
      | ⟨1, _⟩ => exact (lhs_mm1_1 _ _).trans hk)
    have er : dot_S10000x16_S16x128_S10000x128_1_0_0_1_n_n.rhsIdx (ix2 p q) ((contrEquiv1 dot_S10000x16_S16x128_S10000x128_1_0_0_1_n_n 16 rfl rfl).symm k) = ix2 k q := funext fun a => Fin.ext (by
      match a with
      | ⟨0, _⟩ => exact (rhs_mm1_0 _ _).trans hk
      | ⟨1, _⟩ => exact rhs_mm1_1 _ _)
    rw [el, er]
  · exact broadcastTo_apply _ _ _ _ (fun a => by
      match a with
      | ⟨0, _⟩ => rfl
      | ⟨1, _⟩ => rfl)

def G1 (ef : Vec Ideal S320000x16 .f32) (w : Vec Ideal S16x128 .f32) (b : Vec Ideal S1x128 .f32) : Vec Ideal S320000x128 .f32 :=
  fun j => (∑ k : Fin 16, ef (ix2 (j 0) k) * w (ix2 k (j 1))) + b (ix2 0 (j 1))

theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 31 ∧ win1_3.index t (1 : Fin 2) = 0 :=
  (by decide +kernel : ∀ t : Fin grid1.N, _)

theorem idx_onto1 : ∀ q0 : Fin 32, ∃ t : Fin cfg1.N, win1_3.index t = ![q0.val, 0] :=
  (by decide +kernel : ∀ q0 : Fin 32, ∃ t : Fin grid1.N, win1_3.index t = ![q0.val, 0])

theorem flushed1_3_eq (O : CellTallies nD τ sig (HIx 1)) (B : Set (SemLoc sig × HIx 1)) (c : Dev nD) (t : Fin cfg1.N) :
    (dat1 (F := Ideal) V O B c).flushed 3 t
      = ((cfg1.win 3).blk t).view.read (Elt Ideal) (G1 (V c main_arg2) (V c main_v15) (V c main_v18)) := by
  show (cfg1.win 3).cut (grid1.coords t) ((dat1 V O B c).after 3 t) = _
  rw [after1_3]
  unfold out1_3
  rw [View.canon_unit_zero hz1]
  simp only [View.ld_unit_zero (S := S10000x16) hz1, View.ld_unit_zero (S := S16x128) hz1, View.ld_unit_zero (S := S1x128) hz1]
  obtain ⟨e0, e1, e2, e3, e4, e5, e6, e7⟩ := idx_facts1 t
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (iblk1 V c 2 t) (ix2 p q)
    = G1 (V c main_arg2) (V c main_v15) (V c main_v18) (((cfg1.win 3).blk t).view.emb (ix2 p q))
  rw [k1_pay1_apply]
  unfold G1
  have h0 : ∀ k : Fin 16, ((cfg1.win 0).blk t).view.emb (ix2 p k) = ix2 ((((cfg1.win 3).blk t).view.emb (ix2 p q)) 0) k := fun k => by
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 16 + 1 * k.val = k.val; omega
  have h1 : ∀ k : Fin 16, ((cfg1.win 1).blk t).view.emb (ix2 k q) = ix2 k ((((cfg1.win 3).blk t).view.emb (ix2 p q)) 1) := fun k => by
    funext a; apply Fin.ext
    match a with
    | ⟨0, _⟩ => show win1_1.index t (0 : Fin 2) * 16 + 1 * k.val = k.val; omega
    | ⟨1, _⟩ => show win1_1.index t (1 : Fin 2) * 128 + 1 * q.val = win1_3.index t (1 : Fin 2) * 128 + 1 * q.val; omega
  have h2 : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  have hA : ∀ k : Fin 16, (iblk1 V c 0 t : Vec Ideal S10000x16 .f32) (ix2 p k)
      = V c main_arg2 (ix2 ((((cfg1.win 3).blk t).view.emb (ix2 p q)) 0) k) := fun k => congrArg (V c main_arg2) (h0 k)
  have hB : ∀ k : Fin 16, (iblk1 V c 1 t : Vec Ideal S16x128 .f32) (ix2 k q)
      = V c main_v15 (ix2 k ((((cfg1.win 3).blk t).view.emb (ix2 p q)) 1)) := fun k => congrArg (V c main_v15) (h1 k)
  have hC : (iblk1 V c 2 t : Vec Ideal S1x128 .f32) (ix2 (0 : Fin 1) q)
      = V c main_v18 (ix2 (0 : Fin 1) ((((cfg1.win 3).blk t).view.emb (ix2 p q)) 1)) := congrArg (V c main_v18) h2
  simp only [hA, hB, hC]

theorem mem_blk1_3 (t : Fin cfg1.N) (i : S320000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v20).slice (win1_3.rect t)).set ↔ _
  rw [View.set_slice_whole, Rect.mem_set_unit]
  exact Iff.rfl

theorem covered1_3 (i : S320000x128.Idx) : ∃ t : Fin cfg1.N, (cfg1.win 3).flush t = true ∧ i ∈ ((cfg1.win 3).blk t).view.set := by
  have hi0 : (i 0).val < 320000 := (i 0).isLt
  have hi1 : (i 1).val < 128 := (i 1).isLt
  obtain ⟨t, ht⟩ := idx_onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1_3]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

theorem final1 (O : CellTallies nD τ sig (HIx 1)) (B : Set (SemLoc sig × HIx 1)) (c : Dev nD) :
    (dat1 (F := Ideal) V O B c).arrAt 3 cfg1.N = G1 (V c main_arg2) (V c main_v15) (V c main_v18) :=
  (dat1 (F := Ideal) V O B c).arrAt_eq_of_cover 3 (G1 (V c main_arg2) (V c main_v15) (V c main_v18))
    (fun t _ => flushed1_3_eq V O B c t) covered1_3

end Cert.KernelIdeal.KProof

end
-- ==== Proof.Region3Value.lean ====
import proofs.«208460_g27728308863843_cont_9to1_469_33_alg».proof.Proof.Region3
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.KProof

open Cert.KernelIdeal Cert.KernelIdeal.Gen
open Idealize.ShloMosaic Idealize.ShloMosaic.TcCoe Idealize.ShloMosaic.ValueIdx
open Idealize.ShloMosaic.SparseCore.Cfg (HIx Pay)
open Idealize.SL Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

abbrev wide (q : Fin 64) : Fin 128 := ⟨q.val, Nat.lt_trans q.isLt (by decide)⟩

def G3 (s g e : Vec Ideal S320000x128 .f32) : Vec Ideal S320000x64 .f32 :=
  fun j => max ((s (ix2 (j 0) (wide (j 1))) + g (ix2 (j 0) (wide (j 1)))) + e (ix2 (j 0) (wide (j 1)))) 0

theorem G3_apply (s g e : Vec Ideal S320000x128 .f32) (r : Fin 320000) (q : Fin 64) :
    G3 s g e (ix2 r q) = max ((s (ix2 r (wide q)) + g (ix2 r (wide q))) + e (ix2 r (wide q))) 0 := rfl

theorem pay3_apply (x0 x1 x2 : Vec Ideal S10000x128 .f32) (p : Fin 10000) (q : Fin 64) :
    k3_pay1 x0 x1 x2 (ix2 p q) = max ((x0 (ix2 p (wide q)) + x1 (ix2 p (wide q))) + x2 (ix2 p (wide q))) 0 := by
  unfold k3_pay1
  refine (extractStridedSlice_apply _ _ _ (ix2 p q) (ix2 p (wide q)) (fun a => ?_)).trans ?_
  · match a with
    | ⟨0, _⟩ => show p.val = 0 + p.val; omega
    | ⟨1, _⟩ => show q.val = 0 + q.val; omega
  · rw [maximumf_apply, addf_apply, addf_apply, shapeCast_self, shapeCast_self, shapeCast_self, broadcast_apply]
    show max _ (Ideal.ofBits .f32 0x00000000#32) = _
    rw [Ideal.ofBits_zero_f32]

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem row_lt (t : Fin cfg3.N) (p : Fin 10000) : t.val * 10000 + p.val < 320000 := by
  have ht : t.val < cfg3.N := t.isLt
  have hN : cfg3.N = 32 := N_3
  have hp : p.val < 10000 := p.isLt
  omega

abbrev row (t : Fin cfg3.N) (p : Fin 10000) : Fin 320000 := ⟨t.val * 10000 + p.val, row_lt t p⟩

theorem iblk3_0_apply (c : Dev nD) (t : Fin cfg3.N) (p : Fin 10000) (q : Fin 128) :
    iblk3 V c 0 t (ix2 p q) = V c main_v21_0 (ix2 (row t p) q) := by
  obtain ⟨e0, e1, -⟩ := idx_facts3 t
  show V c main_v21_0 (((cfg3.win 0).blk t).view.emb (ix2 p q)) = _
  congr 1
  funext a; apply Fin.ext
  match a with
  | ⟨0, _⟩ => show win3_0.index t (0 : Fin 2) * 10000 + 1 * p.val = t.val * 10000 + p.val; rw [e0]; omega
  | ⟨1, _⟩ => show win3_0.index t (1 : Fin 2) * 128 + 1 * q.val = q.val; rw [e1]; omega

theorem iblk3_1_apply (c : Dev nD) (t : Fin cfg3.N) (p : Fin 10000) (q : Fin 128) :
    iblk3 V c 1 t (ix2 p q) = V c main_v21_1 (ix2 (row t p) q) := by
  obtain ⟨-, -, e0, e1, -⟩ := idx_facts3 t
  show V c main_v21_1 (((cfg3.win 1).blk t).view.emb (ix2 p q)) = _
  congr 1
  funext a; apply Fin.ext
  match a with
  | ⟨0, _⟩ => show win3_1.index t (0 : Fin 2) * 10000 + 1 * p.val = t.val * 10000 + p.val; rw [e0]; omega
  | ⟨1, _⟩ => show win3_1.index t (1 : Fin 2) * 128 + 1 * q.val = q.val; rw [e1]; omega

theorem iblk3_2_apply (c : Dev nD) (t : Fin cfg3.N) (p : Fin 10000) (q : Fin 128) :
    iblk3 V c 2 t (ix2 p q) = V c main_v20 (ix2 (row t p) q) := by
  obtain ⟨-, -, -, -, e0, e1, -⟩ := idx_facts3 t
  show V c main_v20 (((cfg3.win 2).blk t).view.emb (ix2 p q)) = _
  congr 1
  funext a; apply Fin.ext
  match a with
  | ⟨0, _⟩ => show win3_2.index t (0 : Fin 2) * 10000 + 1 * p.val = t.val * 10000 + p.val; rw [e0]; omega
  | ⟨1, _⟩ => show win3_2.index t (1 : Fin 2) * 128 + 1 * q.val = q.val; rw [e1]; omega

theorem read_blk3_3 (G : Vec Ideal S320000x64 .f32) (t : Fin cfg3.N) (p : Fin 10000) (q : Fin 64) :
    ((cfg3.win 3).blk t).view.read (Elt Ideal) G (ix2 p q) = G (ix2 (row t p) q) := by
  obtain ⟨-, -, -, -, -, -, e0, e1⟩ := idx_facts3 t
  show G (((cfg3.win 3).blk t).view.emb (ix2 p q)) = _
  congr 1
  funext a; apply Fin.ext
  match a with
  | ⟨0, _⟩ => show win3_3.index t (0 : Fin 2) * 10000 + 1 * p.val = t.val * 10000 + p.val; rw [e0]; omega
  | ⟨1, _⟩ => show win3_3.index t (1 : Fin 2) * 64 + 1 * q.val = q.val; rw [e1]; omega

theorem flushed3_eq (O : CellTallies nD τ sig (HIx 1)) (B : Set (SemLoc sig × HIx 1)) (c : Dev nD) (t : Fin cfg3.N) :
    (dat3 (F := Ideal) V O B c).flushed 3 t
      = ((cfg3.win 3).blk t).view.read (Elt Ideal) (G3 (V c main_v21_0) (V c main_v21_1) (V c main_v20)) := by
  show (cfg3.win 3).cut (grid3.coords t) ((dat3 V O B c).after 3 t) = _
  rw [after3_3]
  unfold out3_3
  rw [View.canon_unit_zero hz3]
  simp only [View.ld_unit_zero (S := S10000x128) hz3]
  funext j
  obtain ⟨p, q, rfl⟩ : ∃ (p : Fin 10000) (q : Fin 64), j = ix2 p q := ⟨j 0, j 1, eq_ix2 j⟩
  show k3_pay1 (iblk3 V c 0 t) (iblk3 V c 1 t) (iblk3 V c 2 t) (ix2 p q) = _
  rw [read_blk3_3, G3_apply, pay3_apply, iblk3_0_apply, iblk3_1_apply, iblk3_2_apply]

theorem mem_blk3_3 (t : Fin cfg3.N) (i : S320000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v22).slice (win3_3.rect t)).set ↔ _
  rw [View.set_slice_whole, Rect.mem_set_unit]
  exact Iff.rfl

theorem cover3_arr (i : S320000x64.Idx) : ∃ t : Fin cfg3.N, (cfg3.win 3).flush t = true ∧ i ∈ ((cfg3.win 3).blk t).view.set := by
  have hi0 : (i 0).val < 320000 := (i 0).isLt
  have hi1 : (i 1).val < 64 := (i 1).isLt
  let t : Fin cfg3.N := ⟨(i 0).val / 10000, by have hN : cfg3.N = 32 := N_3; omega⟩
  obtain ⟨-, -, -, -, -, -, e0, e1⟩ := idx_facts3 t
  have ht : t.val = (i 0).val / 10000 := rfl
  refine ⟨t, flush3_3 t, ?_⟩
  rw [mem_blk3_3]
  intro a
  match a with
  | ⟨0, _⟩ => show win3_3.index t (0 : Fin 2) * 10000 ≤ (i 0).val ∧ (i 0).val < win3_3.index t (0 : Fin 2) * 10000 + 10000; rw [e0, ht]; omega
  | ⟨1, _⟩ => show win3_3.index t (1 : Fin 2) * 64 ≤ (i 1).val ∧ (i 1).val < win3_3.index t (1 : Fin 2) * 64 + 64; rw [e1]; omega

theorem final3 (O : CellTallies nD τ sig (HIx 1)) (B : Set (SemLoc sig × HIx 1)) (c : Dev nD) :
    (dat3 (F := Ideal) V O B c).arrAt 3 cfg3.N = G3 (V c main_v21_0) (V c main_v21_1) (V c main_v20) :=
  (dat3 (F := Ideal) V O B c).arrAt_eq_of_cover 3 (G3 (V c main_v21_0) (V c main_v21_1) (V c main_v20))
    (fun t _ => flushed3_eq V O B c t) cover3_arr

end Cert.KernelIdeal.KProof

end
-- ==== Proof.Region4Value.lean ====
import proofs.«208460_g27728308863843_cont_9to1_469_33_alg».proof.Proof.Region4
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KProof

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_hw_0 (i : S2000x128.Idx) (q : dot_S2000x64_S64x128_S2000x128_1_0_0_1_n_n.contr.Idx) : (dot_S2000x64_S64x128_S2000x128_1_0_0_1_n_n.lhsIdx i q 0).val = (i 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhs_hw_1 (i : S2000x128.Idx) (q : dot_S2000x64_S64x128_S2000x128_1_0_0_1_n_n.contr.Idx) : (dot_S2000x64_S64x128_S2000x128_1_0_0_1_n_n.lhsIdx i q 1).val = (q ⟨0, by decide⟩).val :=
  dot_S2000x64_S64x128_S2000x128_1_0_0_1_n_n.lhsIdx_val_of_single rfl i q
theorem rhs_hw_0 (i : S2000x128.Idx) (q : dot_S2000x64_S64x128_S2000x128_1_0_0_1_n_n.contr.Idx) : (dot_S2000x64_S64x128_S2000x128_1_0_0_1_n_n.rhsIdx i q 0).val = (q ⟨0, by decide⟩).val :=
  dot_S2000x64_S64x128_S2000x128_1_0_0_1_n_n.rhsIdx_val_of_single rfl i q
theorem rhs_hw_1 (i : S2000x128.Idx) (q : dot_S2000x64_S64x128_S2000x128_1_0_0_1_n_n.contr.Idx) : (dot_S2000x64_S64x128_S2000x128_1_0_0_1_n_n.rhsIdx i q 1).val = (i 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

theorem matmul_hw_apply (a : FVec Ideal S2000x64 .f32) (b : FVec Ideal S64x128 .f32) (p : Fin 2000) (q : Fin 128) :
    matmul dot_S2000x64_S64x128_S2000x128_1_0_0_1_n_n none a b (constant (F := Ideal) S2000x128 .f32 0x00000000#32) (ix2 p q)
      = ∑ k : Fin 64, a (ix2 p k) * b (ix2 k q) := by
  simp only [matmul]
  rw [Ideal.matmul_constant_zero_apply, ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun ax => Fin.ext (by
    match ax with
    | ⟨0, _⟩ => exact lhs_hw_0 _ _
    | ⟨1, _⟩ => exact (lhs_hw_1 _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun ax => Fin.ext (by
    match ax with
    | ⟨0, _⟩ => exact (rhs_hw_0 _ _).trans hk
    | ⟨1, _⟩ => exact rhs_hw_1 _ _)
  rw [el, er]

theorem lhs_xu_0 (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_xu_1 (i : S2000x64.Idx) (q : dot_S2000x128_S128x64_S2000x64_1_0_0_1_n_n.contr.Idx) : (dot_S2000x128_S128x64_S2000x64_1_0_0_1_n_n.lhsIdx i q 1).val = (q ⟨0, by decide⟩).val :=
  dot_S2000x128_S128x64_S2000x64_1_0_0_1_n_n.lhsIdx_val_of_single rfl i q
theorem rhs_xu_0 (i : S2000x64.Idx) (q : dot_S2000x128_S128x64_S2000x64_1_0_0_1_n_n.contr.Idx) : (dot_S2000x128_S128x64_S2000x64_1_0_0_1_n_n.rhsIdx i q 0).val = (q ⟨0, by decide⟩).val :=
  dot_S2000x128_S128x64_S2000x64_1_0_0_1_n_n.rhsIdx_val_of_single rfl i q
theorem rhs_xu_1 (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

theorem matmul_xu_apply (a : FVec Ideal S2000x128 .f32) (b : FVec Ideal S128x64 .f32) (p : Fin 2000) (q : Fin 64) :
    matmul dot_S2000x128_S128x64_S2000x64_1_0_0_1_n_n none a b (constant (F := Ideal) S2000x64 .f32 0x00000000#32) (ix2 p q)
      = ∑ k : Fin 128, a (ix2 p k) * b (ix2 k q) := by
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun ax => Fin.ext (by
    match ax with
    | ⟨0, _⟩ => exact lhs_xu_0 _ _
    | ⟨1, _⟩ => exact (lhs_xu_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun ax => Fin.ext (by
    match ax with
    | ⟨0, _⟩ => exact (rhs_xu_0 _ _).trans hk
    | ⟨1, _⟩ => exact rhs_xu_1 _ _)
  rw [el, er]

theorem pay4_apply (v0 : Vec Ideal S2000x64 .f32) (v2 : Vec Ideal S64x128 .f32) (v4 : Vec Ideal S2000x1 .f32) (v6 : Vec Ideal S1x128 .f32) (v12 : Vec Ideal S2000x128 .f32) (v13 : Vec Ideal S128x64 .f32) (v16 : Vec Ideal S128x64 .f32) (v20 : Vec Ideal S1x64 .f32) (v26 : Vec Ideal S64x128 .f32) (v28 : Vec Ideal S1x128 .f32) (p : Fin 2000) (q : Fin 128) :
    k4_pay1 (F := Ideal) v0 v2 v4 v6 v12 v13 v16 v20 v26 v28 (ix2 p q)
      = (∑ j : Fin 64, max (((∑ k : Fin 128, v12 (ix2 p k) * v13 (ix2 k j))
            + (∑ k : Fin 128, ((∑ i : Fin 64, v0 (ix2 p i) * v2 (ix2 i k)) + v4 (ix2 p 0) * v6 (ix2 0 k)) * v16 (ix2 k j)))
          + v20 (ix2 0 j)) 0 * v26 (ix2 j q)) + v28 (ix2 0 q) := by
  unfold k4_pay1
  simp only [shapeCast_self]
  rw [addf_apply, matmul_hw_apply, broadcastTo_1b_ab_apply]
  simp only [maximumf_apply, addf_apply, mulf_apply, matmul_xu_apply, matmul_hw_apply, broadcastTo_1b_ab_apply,
    broadcastTo_a1_ab_apply, broadcast_apply]
  rw [show (FloatOps.ofBits FTy.f32 0x00000000#32 : Ideal .f32) = 0 from Ideal.ofBits_zero_f32]

def aggB (hs : Vec Ideal S10000x64 .f32) (dg : Vec Ideal S10000x1 .f32) (w2 : Vec Ideal S64x128 .f32) (b2 : Vec Ideal S1x128 .f32) (n : Fin 10000) (f : Fin 128) : Elt Ideal .f32 :=
  (∑ j : Fin 64, hs (ix2 n j) * w2 (ix2 j f)) + dg (ix2 n 0) * b2 (ix2 0 f)

def uB (hs : Vec Ideal S10000x64 .f32) (dg : Vec Ideal S10000x1 .f32) (x : Vec Ideal S10000x128 .f32) (w2 : Vec Ideal S64x128 .f32) (b2 : Vec Ideal S1x128 .f32) (ua : Vec Ideal S128x64 .f32) (ub : Vec Ideal S128x64 .f32) (ub1 : Vec Ideal S1x64 .f32) (n : Fin 10000) (j : Fin 64) : Elt Ideal .f32 :=
  max (((∑ k : Fin 128, x (ix2 n k) * ua (ix2 k j)) + (∑ k : Fin 128, aggB hs dg w2 b2 n k * ub (ix2 k j))) + ub1 (ix2 0 j)) 0

def G4 (hs : Vec Ideal S10000x64 .f32) (dg : Vec Ideal S10000x1 .f32) (x : Vec Ideal S10000x128 .f32) (w2 : Vec Ideal S64x128 .f32) (b2 : Vec Ideal S1x128 .f32) (ua : Vec Ideal S128x64 .f32) (ub : Vec Ideal S128x64 .f32) (ub1 : Vec Ideal S1x64 .f32) (uw2 : Vec Ideal S64x128 .f32) (ub2 : Vec Ideal S1x128 .f32) : Vec Ideal S10000x128 .f32 := fun i =>
  (∑ j : Fin 64, uB hs dg x w2 b2 ua ub ub1 (i 0) j * uw2 (ix2 j (i 1))) + ub2 (ix2 0 (i 1))

theorem G4_apply (hs : Vec Ideal S10000x64 .f32) (dg : Vec Ideal S10000x1 .f32) (x : Vec Ideal S10000x128 .f32) (w2 : Vec Ideal S64x128 .f32) (b2 : Vec Ideal S1x128 .f32) (ua : Vec Ideal S128x64 .f32) (ub : Vec Ideal S128x64 .f32) (ub1 : Vec Ideal S1x64 .f32) (uw2 : Vec Ideal S64x128 .f32) (ub2 : Vec Ideal S1x128 .f32) (n : Fin 10000) (q : Fin 128) :
    G4 hs dg x w2 b2 ua ub ub1 uw2 ub2 (ix2 n q)
      = (∑ j : Fin 64, max (((∑ k : Fin 128, x (ix2 n k) * ua (ix2 k j))
          + (∑ k : Fin 128, ((∑ i : Fin 64, hs (ix2 n i) * w2 (ix2 i k)) + dg (ix2 n 0) * b2 (ix2 0 k)) * ub (ix2 k j)))
        + ub1 (ix2 0 j)) 0 * uw2 (ix2 j q)) + ub2 (ix2 0 q) := rfl

theorem hz4 : (![0, 0] : Fin 2 → Nat) = fun _ => 0 := funext fun a => by fin_cases a <;> rfl

theorem idx4_out : ∀ t : Fin cfg4.N, win4_10.index t (0 : Fin 2) ≤ 4 ∧ win4_10.index t (1 : Fin 2) = 0 :=
  (by decide +kernel : ∀ t : Fin grid4.N, _)

theorem idx4_rows : ∀ t : Fin cfg4.N, win4_0.index t (0 : Fin 2) = win4_10.index t (0 : Fin 2) ∧ win4_0.index t (1 : Fin 2) = 0
    ∧ win4_1.index t (0 : Fin 2) = win4_10.index t (0 : Fin 2) ∧ win4_1.index t (1 : Fin 2) = 0
    ∧ win4_2.index t (0 : Fin 2) = win4_10.index t (0 : Fin 2) ∧ win4_2.index t (1 : Fin 2) = 0 :=
  (by decide +kernel : ∀ t : Fin grid4.N, _)

theorem idx4_whole3 : ∀ t : Fin cfg4.N, win4_3.index t (0 : Fin 2) = 0 ∧ win4_3.index t (1 : Fin 2) = 0 :=
  (by decide +kernel : ∀ t : Fin grid4.N, _)
theorem idx4_whole4 : ∀ t : Fin cfg4.N, win4_4.index t (0 : Fin 2) = 0 ∧ win4_4.index t (1 : Fin 2) = 0 :=
  (by decide +kernel : ∀ t : Fin grid4.N, _)
theorem idx4_whole5 : ∀ t : Fin cfg4.N, win4_5.index t (0 : Fin 2) = 0 ∧ win4_5.index t (1 : Fin 2) = 0 :=
  (by decide +kernel : ∀ t : Fin grid4.N, _)
theorem idx4_whole6 : ∀ t : Fin cfg4.N, win4_6.index t (0 : Fin 2) = 0 ∧ win4_6.index t (1 : Fin 2) = 0 :=
  (by decide +kernel : ∀ t : Fin grid4.N, _)
theorem idx4_whole7 : ∀ t : Fin cfg4.N, win4_7.index t (0 : Fin 2) = 0 ∧ win4_7.index t (1 : Fin 2) = 0 :=
  (by decide +kernel : ∀ t : Fin grid4.N, _)
theorem idx4_whole8 : ∀ t : Fin cfg4.N, win4_8.index t (0 : Fin 2) = 0 ∧ win4_8.index t (1 : Fin 2) = 0 :=
  (by decide +kernel : ∀ t : Fin grid4.N, _)
theorem idx4_whole9 : ∀ t : Fin cfg4.N, win4_9.index t (0 : Fin 2) = 0 ∧ win4_9.index t (1 : Fin 2) = 0 :=
  (by decide +kernel : ∀ t : Fin grid4.N, _)

theorem idx4_onto : ∀ q0 : Fin 5, ∃ t : Fin cfg4.N, win4_10.index t = ![q0.val, 0] :=
  (by decide +kernel : ∀ q0 : Fin 5, ∃ t : Fin grid4.N, win4_10.index t = ![q0.val, 0])

def row4 (t : Fin cfg4.N) (p : Fin 2000) : Fin 10000 :=
  ⟨win4_10.index t (0 : Fin 2) * 2000 + p.val, by have h := (idx4_out t).1; have hp := p.isLt; omega⟩

variable {V : (c : Dev nD) → (b : Ref sig .tc) → Buf (Elt Ideal) ((c : Thread nD τ).loc b)}

theorem blk4_0 (c : Dev nD) (t : Fin cfg4.N) (p : Fin 2000) (i : Fin 64) :
    iblk4 V c 0 t (ix2 p i) = V c main_v32 (ix2 (row4 t p) i) := by
  obtain ⟨e0, e1, e2, e3, e4, e5⟩ := idx4_rows t
  show V c main_v32 (((cfg4.win 0).blk t).view.emb (ix2 p i)) = V c main_v32 (ix2 (row4 t p) i)
  refine congrArg (V c main_v32) (funext fun a => Fin.ext ?_)
  match a with
  | ⟨0, _⟩ => show win4_0.index t (0 : Fin 2) * 2000 + 1 * p.val = win4_10.index t (0 : Fin 2) * 2000 + p.val; omega
  | ⟨1, _⟩ => show win4_0.index t (1 : Fin 2) * 64 + 1 * i.val = i.val; omega

theorem blk4_1 (c : Dev nD) (t : Fin cfg4.N) (p : Fin 2000) (i : Fin 1) :
    iblk4 V c 1 t (ix2 p i) = V c main_v45 (ix2 (row4 t p) i) := by
  obtain ⟨e0, e1, e2, e3, e4, e5⟩ := idx4_rows t
  show V c main_v45 (((cfg4.win 1).blk t).view.emb (ix2 p i)) = V c main_v45 (ix2 (row4 t p) i)
  refine congrArg (V c main_v45) (funext fun a => Fin.ext ?_)
  match a with
  | ⟨0, _⟩ => show win4_1.index t (0 : Fin 2) * 2000 + 1 * p.val = win4_10.index t (0 : Fin 2) * 2000 + p.val; omega
  | ⟨1, _⟩ => show win4_1.index t (1 : Fin 2) * 1 + 1 * i.val = i.val; omega

theorem blk4_2 (c : Dev nD) (t : Fin cfg4.N) (p : Fin 2000) (i : Fin 128) :
    iblk4 V c 2 t (ix2 p i) = V c main_arg0 (ix2 (row4 t p) i) := by
  obtain ⟨e0, e1, e2, e3, e4, e5⟩ := idx4_rows t
  show V c main_arg0 (((cfg4.win 2).blk t).view.emb (ix2 p i)) = V c main_arg0 (ix2 (row4 t p) i)
  refine congrArg (V c main_arg0) (funext fun a => Fin.ext ?_)
  match a with
  | ⟨0, _⟩ => show win4_2.index t (0 : Fin 2) * 2000 + 1 * p.val = win4_10.index t (0 : Fin 2) * 2000 + p.val; omega
  | ⟨1, _⟩ => show win4_2.index t (1 : Fin 2) * 128 + 1 * i.val = i.val; omega

theorem blk4_3 (c : Dev nD) (t : Fin cfg4.N) (p : Fin 64) (i : Fin 128) :
    iblk4 V c 3 t (ix2 p i) = V c main_arg5 (ix2 p i) := by
  obtain ⟨e0, e1⟩ := idx4_whole3 t
  show V c main_arg5 (((cfg4.win 3).blk t).view.emb (ix2 p i)) = V c main_arg5 (ix2 p i)
  refine congrArg (V c main_arg5) (funext fun a => Fin.ext ?_)
  match a with
  | ⟨0, _⟩ => show win4_3.index t (0 : Fin 2) * 64 + 1 * p.val = p.val; omega
  | ⟨1, _⟩ => show win4_3.index t (1 : Fin 2) * 128 + 1 * i.val = i.val; omega

theorem blk4_4 (c : Dev nD) (t : Fin cfg4.N) (p : Fin 1) (i : Fin 128) :
    iblk4 V c 4 t (ix2 p i) = V c main_v46 (ix2 p i) := by
  obtain ⟨e0, e1⟩ := idx4_whole4 t
  show V c main_v46 (((cfg4.win 4).blk t).view.emb (ix2 p i)) = V c main_v46 (ix2 p i)
  refine congrArg (V c main_v46) (funext fun a => Fin.ext ?_)
  match a with
  | ⟨0, _⟩ => show win4_4.index t (0 : Fin 2) * 1 + 1 * p.val = p.val; omega
  | ⟨1, _⟩ => show win4_4.index t (1 : Fin 2) * 128 + 1 * i.val = i.val; omega

theorem blk4_5 (c : Dev nD) (t : Fin cfg4.N) (p : Fin 128) (i : Fin 64) :
    iblk4 V c 5 t (ix2 p i) = V c main_v47 (ix2 p i) := by
  obtain ⟨e0, e1⟩ := idx4_whole5 t
  show V c main_v47 (((cfg4.win 5).blk t).view.emb (ix2 p i)) = V c main_v47 (ix2 p i)
  refine congrArg (V c main_v47) (funext fun a => Fin.ext ?_)
  match a with
  | ⟨0, _⟩ => show win4_5.index t (0 : Fin 2) * 128 + 1 * p.val = p.val; omega
  | ⟨1, _⟩ => show win4_5.index t (1 : Fin 2) * 64 + 1 * i.val = i.val; omega

theorem blk4_6 (c : Dev nD) (t : Fin cfg4.N) (p : Fin 128) (i : Fin 64) :
    iblk4 V c 6 t (ix2 p i) = V c main_v48 (ix2 p i) := by
  obtain ⟨e0, e1⟩ := idx4_whole6 t
  show V c main_v48 (((cfg4.win 6).blk t).view.emb (ix2 p i)) = V c main_v48 (ix2 p i)
  refine congrArg (V c main_v48) (funext fun a => Fin.ext ?_)
  match a with
  | ⟨0, _⟩ => show win4_6.index t (0 : Fin 2) * 128 + 1 * p.val = p.val; omega
  | ⟨1, _⟩ => show win4_6.index t (1 : Fin 2) * 64 + 1 * i.val = i.val; omega

theorem blk4_7 (c : Dev nD) (t : Fin cfg4.N) (p : Fin 1) (i : Fin 64) :
    iblk4 V c 7 t (ix2 p i) = V c main_v49 (ix2 p i) := by
  obtain ⟨e0, e1⟩ := idx4_whole7 t
  show V c main_v49 (((cfg4.win 7).blk t).view.emb (ix2 p i)) = V c main_v49 (ix2 p i)
  refine congrArg (V c main_v49) (funext fun a => Fin.ext ?_)
  match a with
  | ⟨0, _⟩ => show win4_7.index t (0 : Fin 2) * 1 + 1 * p.val = p.val; omega
  | ⟨1, _⟩ => show win4_7.index t (1 : Fin 2) * 64 + 1 * i.val = i.val; omega

theorem blk4_8 (c : Dev nD) (t : Fin cfg4.N) (p : Fin 64) (i : Fin 128) :
    iblk4 V c 8 t (ix2 p i) = V c main_arg9 (ix2 p i) := by
  obtain ⟨e0, e1⟩ := idx4_whole8 t
  show V c main_arg9 (((cfg4.win 8).blk t).view.emb (ix2 p i)) = V c main_arg9 (ix2 p i)
  refine congrArg (V c main_arg9) (funext fun a => Fin.ext ?_)
  match a with
  | ⟨0, _⟩ => show win4_8.index t (0 : Fin 2) * 64 + 1 * p.val = p.val; omega
  | ⟨1, _⟩ => show win4_8.index t (1 : Fin 2) * 128 + 1 * i.val = i.val; omega

theorem blk4_9 (c : Dev nD) (t : Fin cfg4.N) (p : Fin 1) (i : Fin 128) :
    iblk4 V c 9 t (ix2 p i) = V c main_v50 (ix2 p i) := by
  obtain ⟨e0, e1⟩ := idx4_whole9 t
  show V c main_v50 (((cfg4.win 9).blk t).view.emb (ix2 p i)) = V c main_v50 (ix2 p i)
  refine congrArg (V c main_v50) (funext fun a => Fin.ext ?_)
  match a with
  | ⟨0, _⟩ => show win4_9.index t (0 : Fin 2) * 1 + 1 * p.val = p.val; omega
  | ⟨1, _⟩ => show win4_9.index t (1 : Fin 2) * 128 + 1 * i.val = i.val; omega

variable (V) (O : CellTallies nD τ sig (HIx 1)) (B : Set (SemLoc sig × HIx 1))

theorem flushed4_eq (c : Dev nD) (t : Fin cfg4.N) :
    (dat4 (F := Ideal) V O B c).flushed 10 t = ((cfg4.win 10).blk t).view.read (Elt Ideal) (G4 (V c main_v32) (V c main_v45) (V c main_arg0) (V c main_arg5) (V c main_v46) (V c main_v47) (V c main_v48) (V c main_v49) (V c main_arg9) (V c main_v50)) := by
  show (cfg4.win 10).cut (grid4.coords t) ((dat4 (F := Ideal) V O B c).after 10 t) = _
  rw [after4_10]
  unfold out4_10
  rw [View.canon_unit_zero hz4]
  simp only [View.ld_unit_zero (S := S2000x64) hz4,
    View.ld_unit_zero (S := S64x128) hz4,
    View.ld_unit_zero (S := S2000x1) hz4,
    View.ld_unit_zero (S := S1x128) hz4,
    View.ld_unit_zero (S := S2000x128) hz4,
    View.ld_unit_zero (S := S128x64) hz4,
    View.ld_unit_zero (S := S1x64) hz4]
  funext j
  obtain ⟨p, q, rfl⟩ : ∃ (p : Fin 2000) (q : Fin 128), j = ix2 p q := ⟨j 0, j 1, eq_ix2 j⟩
  have hemb : ((cfg4.win 10).blk t).view.emb (ix2 p q) = ix2 (row4 t p) q := funext fun a => Fin.ext (by
    obtain ⟨-, e1⟩ := idx4_out t
    match a with
    | ⟨0, _⟩ => show win4_10.index t (0 : Fin 2) * 2000 + 1 * p.val = win4_10.index t (0 : Fin 2) * 2000 + p.val; omega
    | ⟨1, _⟩ => show win4_10.index t (1 : Fin 2) * 128 + 1 * q.val = q.val; omega)
  show k4_pay1 (F := Ideal) (iblk4 V c 0 t) (iblk4 V c 3 t) (iblk4 V c 1 t) (iblk4 V c 4 t) (iblk4 V c 2 t) (iblk4 V c 5 t) (iblk4 V c 6 t) (iblk4 V c 7 t) (iblk4 V c 8 t) (iblk4 V c 9 t) (ix2 p q)
    = G4 (V c main_v32) (V c main_v45) (V c main_arg0) (V c main_arg5) (V c main_v46) (V c main_v47) (V c main_v48) (V c main_v49) (V c main_arg9) (V c main_v50) (((cfg4.win 10).blk t).view.emb (ix2 p q))
  rw [hemb, pay4_apply, G4_apply]
  simp only [blk4_0, blk4_1, blk4_2, blk4_3, blk4_4, blk4_5, blk4_6, blk4_7, blk4_8, blk4_9]

theorem mem_blk4 (t : Fin cfg4.N) (i : S10000x128.Idx) :
    i ∈ ((cfg4.win 10).blk t).view.set ↔ ∀ a : Fin 2, win4_10.index t a * S2000x128.size a ≤ (i a).val ∧ (i a).val < win4_10.index t a * S2000x128.size a + S2000x128.size a := by
  show i ∈ ((View.whole main_v51).slice (win4_10.rect t)).set ↔ _
  rw [View.set_slice_whole, Rect.mem_set_unit]
  exact Iff.rfl

theorem cover4 (i : S10000x128.Idx) : ∃ t : Fin cfg4.N, (cfg4.win 10).flush t = true ∧ i ∈ ((cfg4.win 10).blk t).view.set := by
  have hi0 : (i 0).val < 10000 := (i 0).isLt
  have hi1 : (i 1).val < 128 := (i 1).isLt
  obtain ⟨t, ht⟩ := idx4_onto ⟨(i 0).val / 2000, by omega⟩
  have q0 : win4_10.index t (0 : Fin 2) = (i 0).val / 2000 := congrFun ht 0
  have q1 : win4_10.index t (1 : Fin 2) = 0 := congrFun ht 1
  refine ⟨t, flush4_10 t, ?_⟩
  rw [mem_blk4]
  intro a
  match a with
  | ⟨0, _⟩ => show win4_10.index t (0 : Fin 2) * 2000 ≤ (i 0).val ∧ (i 0).val < win4_10.index t (0 : Fin 2) * 2000 + 2000; omega
  | ⟨1, _⟩ => show win4_10.index t (1 : Fin 2) * 128 ≤ (i 1).val ∧ (i 1).val < win4_10.index t (1 : Fin 2) * 128 + 128; omega

theorem final4 (c : Dev nD) :
    (dat4 (F := Ideal) V O B c).arrAt 10 cfg4.N = G4 (V c main_v32) (V c main_v45) (V c main_arg0) (V c main_arg5) (V c main_v46) (V c main_v47) (V c main_v48) (V c main_v49) (V c main_arg9) (V c main_v50) :=
  (dat4 (F := Ideal) V O B c).arrAt_eq_of_cover 10 (G4 (V c main_v32) (V c main_v45) (V c main_arg0) (V c main_arg5) (V c main_v46) (V c main_v47) (V c main_v48) (V c main_v49) (V c main_arg9) (V c main_v50))
    (fun t _ => flushed4_eq V O B c t) cover4

end Cert.KernelIdeal.KProof

end
-- ==== Proof.KValue.lean ====
import proofs.«208460_g27728308863843_cont_9to1_469_33_alg».proof.Proof.KFold
import proofs.«208460_g27728308863843_cont_9to1_469_33_alg».proof.Proof.KHostA
import proofs.«208460_g27728308863843_cont_9to1_469_33_alg».proof.Proof.KHostB
import proofs.«208460_g27728308863843_cont_9to1_469_33_alg».proof.Proof.Region0Value
import proofs.«208460_g27728308863843_cont_9to1_469_33_alg».proof.Proof.Region1Value
import proofs.«208460_g27728308863843_cont_9to1_469_33_alg».proof.Proof.Region3Value
import proofs.«208460_g27728308863843_cont_9to1_469_33_alg».proof.Proof.Region4Value
import proofs.«208460_g27728308863843_cont_9to1_469_33_alg».proof.Proof.SpecOf
import Idealize.ShloMosaic.Lib.ValueIdx
import Idealize.ShloMosaic.PureOps.Ideal
import Idealize.ShloMosaic.PureOps.Ideal.Laws

set_option maxRecDepth 16384

noncomputable section

namespace Cert.KernelIdeal.KProof

open Cert.KernelIdeal Cert.KernelIdeal.Gen
open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.Sem
open Idealize.ShloMosaic.Pipeline (Dat)
open scoped BigOperators

variable (m : (ℓ : Loc nD τ sig) → Buf (Elt Ideal) ℓ) (c : Dev nD)

def arraysK : Cert.Spec.Arrays :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10)⟩

theorem gath_apply (tab : Vec Ideal S10000x128 .f32) (lst : Vec Ideal S320128 .i32) (e : Fin 320000) (q : Fin 128) :
    gath tab lst (ix2 e q)
      = tab (ix2 (⟨(lst (ix1 (⟨e.val, Nat.lt_trans e.isLt (by decide)⟩ : Fin 320128))).toNat % 10000, Nat.mod_lt _ (by decide)⟩ : Fin 10000) q) := rfl

theorem gath_row (tab : Vec Ideal S10000x128 .f32) (lst : Vec Ideal S320128 .i32) (e : Fin 320000) (q : Fin 128) (n : Fin 10000)
    (hn : (lst (ix1 (⟨e.val, Nat.lt_trans e.isLt (by decide)⟩ : Fin 320128))).toNat = n.val) :
    gath tab lst (ix2 e q) = tab (ix2 n q) := by
  rw [gath_apply]
  refine congrArg (fun r => tab (ix2 r q)) (Fin.ext ?_)
  show (lst _).toNat % 10000 = n.val
  rw [hn]; exact Nat.mod_eq_of_lt n.isLt

theorem W3_v22_eq : W3 m c main_v22 = G3 (V2 m c main_v21_0) (V2 m c main_v21_1) (V2 m c main_v20) :=
  (W3_arr m c 3).trans (final3 (V2 m) _ _ c)

theorem V2_v21_0 : V2 m c main_v21_0 = gath (V1 m c main_v19_0) (V1 m c main_v3) := by
  show W2 m c (Proc.devRef .tc main_v21_0) = _
  unfold W2
  rw [Function.update_of_ne (by decide), Function.update_self]
  rfl

theorem V2_v21_1 : V2 m c main_v21_1 = gath (V1 m c main_v19_1) (V1 m c main_v7) := by
  show W2 m c (Proc.devRef .tc main_v21_1) = _
  unfold W2
  rw [Function.update_self]
  rfl

theorem V2_v20 : V2 m c main_v20 = G1 (m ((c : Thread nD τ).loc main_arg2)) (Wa m c main_v15) (Wa m c main_v18) := by
  show W2 m c (Proc.devRef .tc main_v20) = _
  unfold W2
  rw [Function.update_of_ne (by decide), Function.update_of_ne (by decide)]
  refine (W1_arr m c 3).trans ((final1 (V0 m) _ _ c).trans ?_)
  have e2 : V0 m c main_arg2 = m ((c : Thread nD τ).loc main_arg2) :=
    (W0_of_ne m c main_arg2 (by decide)).trans (Wa_arg m c main_arg2 (by decide))
  have e15 : V0 m c main_v15 = Wa m c main_v15 := W0_of_ne m c main_v15 (by decide)
  have e18 : V0 m c main_v18 = Wa m c main_v18 := W0_of_ne m c main_v18 (by decide)
  rw [e2, e15, e18]

theorem V1_v19_0 : V1 m c main_v19_0 = G0a (m ((c : Thread nD τ).loc main_arg0)) (Wa m c main_v10) := by
  show W1 m c (Proc.devRef .tc main_v19_0) = _
  rw [W1_of_ne m c main_v19_0 (by decide)]
  refine (W0_arr m c 3).trans ((final0_3 (Va m) _ _ c).trans ?_)
  rw [show Va m c main_arg0 = m ((c : Thread nD τ).loc main_arg0) from Wa_arg m c main_arg0 (by decide)]

theorem V1_v19_1 : V1 m c main_v19_1 = G0a (m ((c : Thread nD τ).loc main_arg0)) (Wa m c main_v12) := by
  show W1 m c (Proc.devRef .tc main_v19_1) = _
  rw [W1_of_ne m c main_v19_1 (by decide)]
  refine (W0_arr m c 4).trans ((final0_4 (Va m) _ _ c).trans ?_)
  rw [show Va m c main_arg0 = m ((c : Thread nD τ).loc main_arg0) from Wa_arg m c main_arg0 (by decide)]

theorem V1_v3 : V1 m c main_v3 = Wa m c main_v3 :=
  (W1_of_ne m c main_v3 (by decide)).trans (W0_of_ne m c main_v3 (by decide))

theorem V1_v7 : V1 m c main_v7 = Wa m c main_v7 :=
  (W1_of_ne m c main_v7 (by decide)).trans (W0_of_ne m c main_v7 (by decide))

theorem G0a_at (x : Vec Ideal S10000x128 .f32) (w : Vec Ideal S128x128 .f32) (n : Fin 10000) (q : Fin 128) :
    G0a x w (ix2 n q) = ∑ k : Fin 128, x (ix2 n k) * w (ix2 k q) := rfl

theorem G1_at (ef : Vec Ideal S320000x16 .f32) (w : Vec Ideal S16x128 .f32) (b : Vec Ideal S1x128 .f32) (e : Fin 320000) (q : Fin 128) :
    G1 ef w b (ix2 e q) = (∑ k : Fin 16, ef (ix2 e k) * w (ix2 k q)) + b (ix2 (0 : Fin 1) q) := rfl

variable (h : (arraysK m c).InRange)

theorem v3_toNat (e : Fin 320000) :
    ((Wa m c main_v3 : Vec Ideal S320128 .i32) (ix1 (⟨e.val, Nat.lt_trans e.isLt (by decide)⟩ : Fin 320128))).toNat
      = (((arraysK m c).inputs h).row e).val := by
  rw [Wa_v3, dif_pos (show (⟨e.val, Nat.lt_trans e.isLt (by decide)⟩ : Fin 320128).val < 320000 from e.isLt)]
  rfl

theorem v7_toNat (e : Fin 320000) :
    ((Wa m c main_v7 : Vec Ideal S320128 .i32) (ix1 (⟨e.val, Nat.lt_trans e.isLt (by decide)⟩ : Fin 320128))).toNat
      = (((arraysK m c).inputs h).col e).val := by
  rw [Wa_v7, dif_pos (show (⟨e.val, Nat.lt_trans e.isLt (by decide)⟩ : Fin 320128).val < 320000 from e.isLt)]
  rfl

theorem G0a_v10 (n : Fin 10000) (j : Fin 64) :
    G0a (m ((c : Thread nD τ).loc main_arg0)) (Wa m c main_v10) (ix2 n (wide j)) = Cert.Spec.aTab ((arraysK m c).inputs h) n j := by
  rw [G0a_at]
  unfold Cert.Spec.aTab
  refine Finset.sum_congr rfl fun k _ => ?_
  rw [Wa_v10, dif_pos (show (wide j).val < 64 from j.isLt)]
  rfl

theorem G0a_v12 (n : Fin 10000) (j : Fin 64) :
    G0a (m ((c : Thread nD τ).loc main_arg0)) (Wa m c main_v12) (ix2 n (wide j)) = Cert.Spec.bTab ((arraysK m c).inputs h) n j := by
  rw [G0a_at]
  unfold Cert.Spec.bTab
  refine Finset.sum_congr rfl fun k _ => ?_
  rw [Wa_v12, dif_pos (show (wide j).val < 64 from j.isLt)]
  rfl

theorem G1_v15 (e : Fin 320000) (j : Fin 64) :
    G1 (m ((c : Thread nD τ).loc main_arg2)) (Wa m c main_v15) (Wa m c main_v18) (ix2 e (wide j)) = Cert.Spec.eh ((arraysK m c).inputs h) e j := by
  rw [G1_at]
  unfold Cert.Spec.eh
  rw [Wa_v18, dif_pos (show (wide j).val < 64 from j.isLt)]
  refine congrArg₂ (· + ·) (Finset.sum_congr rfl fun k _ => ?_) rfl
  rw [Wa_v15, dif_pos (show (wide j).val < 64 from j.isLt)]
  rfl

theorem W3_v22 (e : Fin 320000) (j : Fin 64) :
    (W3 m c main_v22 : Vec Ideal S320000x64 .f32) (ix2 e j) = Cert.Spec.hK ((arraysK m c).inputs h) e j := by
  rw [W3_v22_eq, G3_apply, V2_v21_0, V2_v21_1, V2_v20, V1_v19_0, V1_v19_1, V1_v3, V1_v7,
    gath_row _ _ e (wide j) _ (v3_toNat m c h e), gath_row _ _ e (wide j) _ (v7_toNat m c h e),
    G0a_v10 m c h, G0a_v12 m c h, G1_v15 m c h]
  rfl

theorem Vb_arg0 : Vb m c main_arg0 = m ((c : Thread nD τ).loc main_arg0) :=
  (Wb_of_not_mem m c (r := main_arg0) (by decide)).trans (W3_arg m c main_arg0 (by decide))
theorem Vb_arg5 : Vb m c main_arg5 = m ((c : Thread nD τ).loc main_arg5) :=
  (Wb_of_not_mem m c (r := main_arg5) (by decide)).trans (W3_arg m c main_arg5 (by decide))
theorem Vb_arg9 : Vb m c main_arg9 = m ((c : Thread nD τ).loc main_arg9) :=
  (Wb_of_not_mem m c (r := main_arg9) (by decide)).trans (W3_arg m c main_arg9 (by decide))

theorem hr_W3 (h : (arraysK m c).InRange) : ∀ i, (i32At S2x320000 (W3 m c main_arg1) i).toNat < 10000 := by
  rw [W3_arg m c main_arg1 (by decide)]; exact h

theorem Vb_v32 (n : Fin 10000) (j : Fin 64) :
    (Vb m c main_v32 : Vec Ideal S10000x64 .f32) (ix2 n j) = Cert.Spec.hsum ((arraysK m c).inputs h) n j := by
  show f32At S10000x64 (Wb m c main_v32) (ix2 n j) = _
  rw [Wb_v32 m c (hr_W3 m c h) n j]
  unfold Cert.Spec.hsum
  refine Finset.sum_congr (Finset.filter_congr fun e _ => ?_) (fun e _ => W3_v22 m c h e j)
  rw [W3_arg m c main_arg1 (by decide)]
  exact ⟨fun hh => Fin.ext hh, fun hh => congrArg Fin.val hh⟩

theorem Vb_v45 (n : Fin 10000) :
    (Vb m c main_v45 : Vec Ideal S10000x1 .f32) (ix2 n (0 : Fin 1)) = Cert.Spec.deg ((arraysK m c).inputs h) n := by
  show f32At S10000x1 (Wb m c main_v45) (ix2 n (0 : Fin 1)) = _
  rw [Wb_v45 m c (hr_W3 m c h) n]
  unfold Cert.Spec.deg
  refine Finset.sum_congr (Finset.filter_congr fun e _ => ?_) (fun _ _ => rfl)
  rw [W3_arg m c main_arg1 (by decide)]
  exact ⟨fun hh => Fin.ext hh, fun hh => congrArg Fin.val hh⟩

theorem Vb_v46 (f : Fin 128) : (Vb m c main_v46 : Vec Ideal S1x128 .f32) (ix2 (0 : Fin 1) f) = ((arraysK m c).inputs h).b2 f := by
  show f32At S1x128 (Wb m c main_v46) (ix2 (0 : Fin 1) f) = _
  rw [Wb_v46, W3_arg m c main_arg6 (by decide)]; rfl
theorem Vb_v47 (k : Fin 128) (j : Fin 64) :
    (Vb m c main_v47 : Vec Ideal S128x64 .f32) (ix2 k j) = ((arraysK m c).inputs h).u1 ⟨k.val, by have := k.isLt; omega⟩ j := by
  show f32At S128x64 (Wb m c main_v47) (ix2 k j) = _
  rw [Wb_v47, W3_arg m c main_arg7 (by decide)]; rfl
theorem Vb_v48 (k : Fin 128) (j : Fin 64) :
    (Vb m c main_v48 : Vec Ideal S128x64 .f32) (ix2 k j) = ((arraysK m c).inputs h).u1 ⟨128 + k.val, by have := k.isLt; omega⟩ j := by
  show f32At S128x64 (Wb m c main_v48) (ix2 k j) = _
  rw [Wb_v48, W3_arg m c main_arg7 (by decide)]; rfl
theorem Vb_v49 (j : Fin 64) : (Vb m c main_v49 : Vec Ideal S1x64 .f32) (ix2 (0 : Fin 1) j) = ((arraysK m c).inputs h).ub1 j := by
  show f32At S1x64 (Wb m c main_v49) (ix2 (0 : Fin 1) j) = _
  rw [Wb_v49, W3_arg m c main_arg8 (by decide)]; rfl
theorem Vb_v50 (f : Fin 128) : (Vb m c main_v50 : Vec Ideal S1x128 .f32) (ix2 (0 : Fin 1) f) = ((arraysK m c).inputs h).ub2 f := by
  show f32At S1x128 (Wb m c main_v50) (ix2 (0 : Fin 1) f) = _
  rw [Wb_v50, W3_arg m c main_arg10 (by decide)]; rfl

/-- Read index by index, the result array at the end is the specification's kernel form of the arguments. -/
theorem W4_v51 : (W4 m c main_v51 : Vec Ideal S10000x128 .f32) = (arraysK m c).kerOut h := by
  funext i
  obtain ⟨n, f, rfl⟩ : ∃ (n : Fin 10000) (f : Fin 128), i = ix2 n f := ⟨i 0, i 1, eq_ix2 i⟩
  rw [show W4 m c main_v51 = G4 (Vb m c main_v32) (Vb m c main_v45) (Vb m c main_arg0) (Vb m c main_arg5) (Vb m c main_v46)
        (Vb m c main_v47) (Vb m c main_v48) (Vb m c main_v49) (Vb m c main_arg9) (Vb m c main_v50)
      from (W4_arr m c 10).trans (final4 (Vb m) _ _ c)]
  rw [G4_apply, Vb_arg0, Vb_arg5, Vb_arg9]
  simp only [Vb_v32 m c h, Vb_v45 m c h, Vb_v46 m c h, Vb_v47 m c h, Vb_v48 m c h, Vb_v49 m c h, Vb_v50 m c h]
  rfl

end Cert.KernelIdeal.KProof

end
-- ==== Proof.Algebraic.lean ====
import proofs.«208460_g27728308863843_cont_9to1_469_33_alg».proof.Defs
import proofs.«208460_g27728308863843_cont_9to1_469_33_alg».proof.Proof.Gen.KernelIdeal
import proofs.«208460_g27728308863843_cont_9to1_469_33_alg».proof.Proof.Gen.ReferenceIdeal
import proofs.«208460_g27728308863843_cont_9to1_469_33_alg».proof.Proof.Gen.Pre_input_domain
import proofs.«208460_g27728308863843_cont_9to1_469_33_alg».proof.Proof.Spec
import proofs.«208460_g27728308863843_cont_9to1_469_33_alg».proof.Proof.SpecOf
import proofs.«208460_g27728308863843_cont_9to1_469_33_alg».proof.Proof.PreDecode
import proofs.«208460_g27728308863843_cont_9to1_469_33_alg».proof.Proof.RefRun
import proofs.«208460_g27728308863843_cont_9to1_469_33_alg».proof.Proof.RefValue
import proofs.«208460_g27728308863843_cont_9to1_469_33_alg».proof.Proof.KRun
import proofs.«208460_g27728308863843_cont_9to1_469_33_alg».proof.Proof.KValue

noncomputable section

namespace Cert.Proof.Algebraic

open Idealize.ShloMosaic Idealize.ShloMosaic.TcCoe Idealize.SL.Sem

/-- The reference's run with the result's equation dropped. -/
theorem frame_ri : Cert.frame_ReferenceIdeal := fun m g _ =>
  (θ_run (Cert.ReferenceIdeal.defs (F := Ideal)) _ _).mono (fun _ h c => (h c).2) (Cert.ReferenceIdeal.RefValue.run m g)

instance nonemptyEltIdeal : ∀ e, Nonempty (Elt Ideal e) := fun e => by cases e <;> exact ⟨default⟩

theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.RefValue.arrays m' c = Cert.KernelIdeal.KProof.arraysK m c := by
  obtain ⟨h0, h1, h2, h3, h4, h5, h6, h7, h8, h9, h10⟩ := h
  unfold Cert.ReferenceIdeal.RefValue.arrays Cert.KernelIdeal.KProof.arraysK
  rw [h0, h1, h2, h3, h4, h5, h6, h7, h8, h9, h10]

/-- Each run names its result as a function of the arguments; the two functions agree where floats are real and endpoints name nodes. -/
theorem algebraic : Cert.algebraic_KernelIdeal_ReferenceIdeal := by
  intro m g m' g' hpre hagree
  have hA : ∀ c, (Cert.KernelIdeal.KProof.arraysK m c).InRange := fun c => Cert.PreDecode.inRange_arrays _ (hpre c)
  have hF : ∀ c, (Cert.KernelIdeal.KProof.arraysK m c).Finite := fun c => Cert.PreDecode.finite _ (hpre c)
  refine ⟨fun c => Cert.KernelIdeal.KProof.W4 m c (Proc.devRef .tc Cert.KernelIdeal.main_v51),
    Cert.KernelIdeal.KProof.run_main (F := Ideal) m g (Cert.KernelIdeal.KProof.lists_inRange m fun c i => hA c i), ?_⟩
  refine (θ_run (Cert.ReferenceIdeal.defs (F := Ideal)) _ _).mono (fun _ h c => ⟨(h c).1.trans ?_, (h c).2⟩)
    (Cert.ReferenceIdeal.RefValue.run m' g')
  rw [arrays_eq m m' c (hagree c), Cert.ReferenceIdeal.RefValue.refTerm_eq _ (hA c)]
  refine Eq.trans ?_ (Cert.KernelIdeal.KProof.W4_v51 m c (hA c)).symm
  funext i
  exact (Cert.Spec.ker_eq_ref _ (Cert.Spec.Arrays.inputs_finite _ (hA c) (hF c)) _ _).symm

end Cert.Proof.Algebraic

end
-- ==== Proof.lean ====
import proofs.«208460_g27728308863843_cont_9to1_469_33_alg».proof.Defs
import proofs.«208460_g27728308863843_cont_9to1_469_33_alg».proof.Proof.Gen.Kernel
import proofs.«208460_g27728308863843_cont_9to1_469_33_alg».proof.Proof.Gen.KernelIdeal
import proofs.«208460_g27728308863843_cont_9to1_469_33_alg».proof.Proof.Gen.ReferenceIdeal
import proofs.«208460_g27728308863843_cont_9to1_469_33_alg».proof.Proof.Gen.Pre_input_domain
import proofs.«208460_g27728308863843_cont_9to1_469_33_alg».proof.Proof.Frames
import proofs.«208460_g27728308863843_cont_9to1_469_33_alg».proof.Proof.Algebraic

noncomputable section

namespace Cert.Proof

/-- The three frames, nothing to preserve (no operation was rewritten), and the two idealized results equal. -/
theorem claim : Cert.Claim := ⟨Cert.Kernel.Gen.facts, Cert.KernelIdeal.Gen.facts, Cert.ReferenceIdeal.Gen.facts, Cert.Pre_input_domain.Gen.facts,
  Cert.Proof.Frames.frame_k, Cert.Proof.Frames.frame_ki, Cert.Proof.Algebraic.frame_ri, trivial, Cert.Proof.Algebraic.algebraic⟩

end Cert.Proof

end
